-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 1024]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Pre_finite_inputs_ReferenceIdeal.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S4096x1024 : Shape := ⟨2, ![4096, 1024]⟩
abbrev S8192x1024 : Shape := ⟨2, ![8192, 1024]⟩
abbrev S_ : Shape := ⟨0, ![]⟩
abbrev S32 : Shape := ⟨1, ![32]⟩
abbrev S1 : Shape := ⟨1, ![1]⟩
abbrev S64x1024 : Shape := ⟨2, ![64, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8192x1024, .f32⟩
  | _, _ => ⟨S4096x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | _, _ => false

abbrev semScoped : Fin 1 → Bool
  | ⟨0, _⟩ => false
  | _ => false

abbrev dmaSemScoped : Fin 129 → Bool
  | ⟨i, _⟩ => dmaSemScopedAt i

abbrev sig : RefSig :=
  (ofTc nBuf bufTy 1 129 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_2 v5
  let c1_i32_5 : BitVec 32 := 1#32
  let v10 : BitVec 32 := Scalar.muli v7 c1_i32_5
  let v11 : BitVec 32 := Scalar.addi v9 v10
  v11.toNat
def k0_dev2 (d0 : Dev nD) : Nat :=
  let c0_i32_9 : BitVec 32 := 0#32
  let c1_i32_6 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v12 : BitVec 32 := Scalar.subi c1_i32_6 v2
  let c2_i32_8 : BitVec 32 := 2#32
  let v13 : BitVec 32 := Scalar.muli v12 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_off1 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v17 : BitVec 32 := Scalar.muli v5 c4096_i32
  let c0_i32_12 : BitVec 32 := 0#32
  ![v17.toNat, 0]
def k0_off2 (d0 : Dev nD) (c0_i32_13 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32_14 : BitVec 32 := 4096#32
  let v21 : BitVec 32 := Scalar.muli v5 c4096_i32_14
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v19 : BitVec 32 := Scalar.muli v2 c2048_i32
  let v20 : BitVec 32 := Scalar.addi v19 c0_i32_13
  let v22 : BitVec 32 := Scalar.addi v21 v20
  let c0_i32_21 : BitVec 32 := 0#32
  ![v22.toNat, 0]
def k0_off3 (d0 : Dev nD) (c0_i32_13 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v19 : BitVec 32 := Scalar.muli v2 c2048_i32
  let v20 : BitVec 32 := Scalar.addi v19 c0_i32_13
  let c0_i32_22 : BitVec 32 := 0#32
  ![v20.toNat, 0]
def k0_dev3 (d0 : Dev nD) : Nat :=
  let c0_i32_19 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_18 : BitVec 32 := 2#32
  let v24 : BitVec 32 := Scalar.muli v2 c2_i32_18
  let v25 : BitVec 32 := Scalar.addi c0_i32_19 v24
  let c1_i32_15 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_15 v5
  let c1_i32_20 : BitVec 32 := 1#32
  let v26 : BitVec 32 := Scalar.muli v23 c1_i32_20
  let v27 : BitVec 32 := Scalar.addi v25 v26
  v27.toNat
def k0_dev4 (d0 : Dev nD) : Nat :=
  let c0_i32_29 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_28 : BitVec 32 := 2#32
  let v39 : BitVec 32 := Scalar.muli v2 c2_i32_28
  let v40 : BitVec 32 := Scalar.addi c0_i32_29 v39
  let c1_i32_25 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v38 : BitVec 32 := Scalar.subi c1_i32_25 v5
  let c1_i32_30 : BitVec 32 := 1#32
  let v41 : BitVec 32 := Scalar.muli v38 c1_i32_30
  let v42 : BitVec 32 := Scalar.addi v40 v41
  v42.toNat
def k0_dev5 (d0 : Dev nD) : Nat :=
  let c0_i32_39 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_38 : BitVec 32 := 2#32
  let v54 : BitVec 32 := Scalar.muli v2 c2_i32_38
  let v55 : BitVec 32 := Scalar.addi c0_i32_39 v54
  let c1_i32_35 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v53 : BitVec 32 := Scalar.subi c1_i32_35 v5
  let c1_i32_40 : BitVec 32 := 1#32
  let v56 : BitVec 32 := Scalar.muli v53 c1_i32_40
  let v57 : BitVec 32 := Scalar.addi v55 v56
  v57.toNat
def k0_dev6 (d0 : Dev nD) : Nat :=
  let c0_i32_48 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_47 : BitVec 32 := 2#32
  let v69 : BitVec 32 := Scalar.muli v2 c2_i32_47
  let v70 : BitVec 32 := Scalar.addi c0_i32_48 v69
  let c1_i32_45 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v68 : BitVec 32 := Scalar.subi c1_i32_45 v5
  let c1_i32_49 : BitVec 32 := 1#32
  let v71 : BitVec 32 := Scalar.muli v68 c1_i32_49
  let v72 : BitVec 32 := Scalar.addi v70 v71
  v72.toNat
def k0_dev7 (d0 : Dev nD) : Nat :=
  let c0_i32_57 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_56 : BitVec 32 := 2#32
  let v84 : BitVec 32 := Scalar.muli v2 c2_i32_56
  let v85 : BitVec 32 := Scalar.addi c0_i32_57 v84
  let c1_i32_54 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v83 : BitVec 32 := Scalar.subi c1_i32_54 v5
  let c1_i32_58 : BitVec 32 := 1#32
  let v86 : BitVec 32 := Scalar.muli v83 c1_i32_58
  let v87 : BitVec 32 := Scalar.addi v85 v86
  v87.toNat
def k0_dev8 (d0 : Dev nD) : Nat :=
  let c0_i32_66 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_65 : BitVec 32 := 2#32
  let v99 : BitVec 32 := Scalar.muli v2 c2_i32_65
  let v100 : BitVec 32 := Scalar.addi c0_i32_66 v99
  let c1_i32_63 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v98 : BitVec 32 := Scalar.subi c1_i32_63 v5
  let c1_i32_67 : BitVec 32 := 1#32
  let v101 : BitVec 32 := Scalar.muli v98 c1_i32_67
  let v102 : BitVec 32 := Scalar.addi v100 v101
  v102.toNat
def k0_dev9 (d0 : Dev nD) : Nat :=
  let c0_i32_75 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_74 : BitVec 32 := 2#32
  let v114 : BitVec 32 := Scalar.muli v2 c2_i32_74
  let v115 : BitVec 32 := Scalar.addi c0_i32_75 v114
  let c1_i32_72 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v113 : BitVec 32 := Scalar.subi c1_i32_72 v5
  let c1_i32_76 : BitVec 32 := 1#32
  let v116 : BitVec 32 := Scalar.muli v113 c1_i32_76
  let v117 : BitVec 32 := Scalar.addi v115 v116
  v117.toNat
def k0_dev10 (d0 : Dev nD) : Nat :=
  let c0_i32_84 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_83 : BitVec 32 := 2#32
  let v129 : BitVec 32 := Scalar.muli v2 c2_i32_83
  let v130 : BitVec 32 := Scalar.addi c0_i32_84 v129
  let c1_i32_81 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v128 : BitVec 32 := Scalar.subi c1_i32_81 v5
  let c1_i32_85 : BitVec 32 := 1#32
  let v131 : BitVec 32 := Scalar.muli v128 c1_i32_85
  let v132 : BitVec 32 := Scalar.addi v130 v131
  v132.toNat
def k0_dev11 (d0 : Dev nD) : Nat :=
  let c0_i32_93 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_92 : BitVec 32 := 2#32
  let v144 : BitVec 32 := Scalar.muli v2 c2_i32_92
  let v145 : BitVec 32 := Scalar.addi c0_i32_93 v144
  let c1_i32_90 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v143 : BitVec 32 := Scalar.subi c1_i32_90 v5
  let c1_i32_94 : BitVec 32 := 1#32
  let v146 : BitVec 32 := Scalar.muli v143 c1_i32_94
  let v147 : BitVec 32 := Scalar.addi v145 v146
  v147.toNat
def k0_dev12 (d0 : Dev nD) : Nat :=
  let c0_i32_102 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_101 : BitVec 32 := 2#32
  let v159 : BitVec 32 := Scalar.muli v2 c2_i32_101
  let v160 : BitVec 32 := Scalar.addi c0_i32_102 v159
  let c1_i32_99 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v158 : BitVec 32 := Scalar.subi c1_i32_99 v5
  let c1_i32_103 : BitVec 32 := 1#32
  let v161 : BitVec 32 := Scalar.muli v158 c1_i32_103
  let v162 : BitVec 32 := Scalar.addi v160 v161
  v162.toNat
def k0_dev13 (d0 : Dev nD) : Nat :=
  let c0_i32_111 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_110 : BitVec 32 := 2#32
  let v174 : BitVec 32 := Scalar.muli v2 c2_i32_110
  let v175 : BitVec 32 := Scalar.addi c0_i32_111 v174
  let c1_i32_108 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v173 : BitVec 32 := Scalar.subi c1_i32_108 v5
  let c1_i32_112 : BitVec 32 := 1#32
  let v176 : BitVec 32 := Scalar.muli v173 c1_i32_112
  let v177 : BitVec 32 := Scalar.addi v175 v176
  v177.toNat
def k0_dev14 (d0 : Dev nD) : Nat :=
  let c0_i32_120 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_119 : BitVec 32 := 2#32
  let v189 : BitVec 32 := Scalar.muli v2 c2_i32_119
  let v190 : BitVec 32 := Scalar.addi c0_i32_120 v189
  let c1_i32_117 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v188 : BitVec 32 := Scalar.subi c1_i32_117 v5
  let c1_i32_121 : BitVec 32 := 1#32
  let v191 : BitVec 32 := Scalar.muli v188 c1_i32_121
  let v192 : BitVec 32 := Scalar.addi v190 v191
  v192.toNat
def k0_dev15 (d0 : Dev nD) : Nat :=
  let c0_i32_129 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_128 : BitVec 32 := 2#32
  let v204 : BitVec 32 := Scalar.muli v2 c2_i32_128
  let v205 : BitVec 32 := Scalar.addi c0_i32_129 v204
  let c1_i32_126 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v203 : BitVec 32 := Scalar.subi c1_i32_126 v5
  let c1_i32_130 : BitVec 32 := 1#32
  let v206 : BitVec 32 := Scalar.muli v203 c1_i32_130
  let v207 : BitVec 32 := Scalar.addi v205 v206
  v207.toNat
def k0_dev16 (d0 : Dev nD) : Nat :=
  let c0_i32_138 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_137 : BitVec 32 := 2#32
  let v219 : BitVec 32 := Scalar.muli v2 c2_i32_137
  let v220 : BitVec 32 := Scalar.addi c0_i32_138 v219
  let c1_i32_135 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v218 : BitVec 32 := Scalar.subi c1_i32_135 v5
  let c1_i32_139 : BitVec 32 := 1#32
  let v221 : BitVec 32 := Scalar.muli v218 c1_i32_139
  let v222 : BitVec 32 := Scalar.addi v220 v221
  v222.toNat
def k0_dev17 (d0 : Dev nD) : Nat :=
  let c0_i32_147 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_146 : BitVec 32 := 2#32
  let v234 : BitVec 32 := Scalar.muli v2 c2_i32_146
  let v235 : BitVec 32 := Scalar.addi c0_i32_147 v234
  let c1_i32_144 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v233 : BitVec 32 := Scalar.subi c1_i32_144 v5
  let c1_i32_148 : BitVec 32 := 1#32
  let v236 : BitVec 32 := Scalar.muli v233 c1_i32_148
  let v237 : BitVec 32 := Scalar.addi v235 v236
  v237.toNat
def k0_dev18 (d0 : Dev nD) : Nat :=
  let c0_i32_156 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_155 : BitVec 32 := 2#32
  let v249 : BitVec 32 := Scalar.muli v2 c2_i32_155
  let v250 : BitVec 32 := Scalar.addi c0_i32_156 v249
  let c1_i32_153 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v248 : BitVec 32 := Scalar.subi c1_i32_153 v5
  let c1_i32_157 : BitVec 32 := 1#32
  let v251 : BitVec 32 := Scalar.muli v248 c1_i32_157
  let v252 : BitVec 32 := Scalar.addi v250 v251
  v252.toNat
def k0_dev19 (d0 : Dev nD) : Nat :=
  let c0_i32_165 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_164 : BitVec 32 := 2#32
  let v264 : BitVec 32 := Scalar.muli v2 c2_i32_164
  let v265 : BitVec 32 := Scalar.addi c0_i32_165 v264
  let c1_i32_162 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v263 : BitVec 32 := Scalar.subi c1_i32_162 v5
  let c1_i32_166 : BitVec 32 := 1#32
  let v266 : BitVec 32 := Scalar.muli v263 c1_i32_166
  let v267 : BitVec 32 := Scalar.addi v265 v266
  v267.toNat
def k0_dev20 (d0 : Dev nD) : Nat :=
  let c0_i32_174 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_173 : BitVec 32 := 2#32
  let v279 : BitVec 32 := Scalar.muli v2 c2_i32_173
  let v280 : BitVec 32 := Scalar.addi c0_i32_174 v279
  let c1_i32_171 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v278 : BitVec 32 := Scalar.subi c1_i32_171 v5
  let c1_i32_175 : BitVec 32 := 1#32
  let v281 : BitVec 32 := Scalar.muli v278 c1_i32_175
  let v282 : BitVec 32 := Scalar.addi v280 v281
  v282.toNat
def k0_dev21 (d0 : Dev nD) : Nat :=
  let c0_i32_183 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_182 : BitVec 32 := 2#32
  let v294 : BitVec 32 := Scalar.muli v2 c2_i32_182
  let v295 : BitVec 32 := Scalar.addi c0_i32_183 v294
  let c1_i32_180 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v293 : BitVec 32 := Scalar.subi c1_i32_180 v5
  let c1_i32_184 : BitVec 32 := 1#32
  let v296 : BitVec 32 := Scalar.muli v293 c1_i32_184
  let v297 : BitVec 32 := Scalar.addi v295 v296
  v297.toNat
def k0_dev22 (d0 : Dev nD) : Nat :=
  let c0_i32_192 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_191 : BitVec 32 := 2#32
  let v309 : BitVec 32 := Scalar.muli v2 c2_i32_191
  let v310 : BitVec 32 := Scalar.addi c0_i32_192 v309
  let c1_i32_189 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v308 : BitVec 32 := Scalar.subi c1_i32_189 v5
  let c1_i32_193 : BitVec 32 := 1#32
  let v311 : BitVec 32 := Scalar.muli v308 c1_i32_193
  let v312 : BitVec 32 := Scalar.addi v310 v311
  v312.toNat
def k0_dev23 (d0 : Dev nD) : Nat :=
  let c0_i32_201 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_200 : BitVec 32 := 2#32
  let v324 : BitVec 32 := Scalar.muli v2 c2_i32_200
  let v325 : BitVec 32 := Scalar.addi c0_i32_201 v324
  let c1_i32_198 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v323 : BitVec 32 := Scalar.subi c1_i32_198 v5
  let c1_i32_202 : BitVec 32 := 1#32
  let v326 : BitVec 32 := Scalar.muli v323 c1_i32_202
  let v327 : BitVec 32 := Scalar.addi v325 v326
  v327.toNat
def k0_dev24 (d0 : Dev nD) : Nat :=
  let c0_i32_210 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_209 : BitVec 32 := 2#32
  let v339 : BitVec 32 := Scalar.muli v2 c2_i32_209
  let v340 : BitVec 32 := Scalar.addi c0_i32_210 v339
  let c1_i32_207 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v338 : BitVec 32 := Scalar.subi c1_i32_207 v5
  let c1_i32_211 : BitVec 32 := 1#32
  let v341 : BitVec 32 := Scalar.muli v338 c1_i32_211
  let v342 : BitVec 32 := Scalar.addi v340 v341
  v342.toNat
def k0_dev25 (d0 : Dev nD) : Nat :=
  let c0_i32_219 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_218 : BitVec 32 := 2#32
  let v354 : BitVec 32 := Scalar.muli v2 c2_i32_218
  let v355 : BitVec 32 := Scalar.addi c0_i32_219 v354
  let c1_i32_216 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v353 : BitVec 32 := Scalar.subi c1_i32_216 v5
  let c1_i32_220 : BitVec 32 := 1#32
  let v356 : BitVec 32 := Scalar.muli v353 c1_i32_220
  let v357 : BitVec 32 := Scalar.addi v355 v356
  v357.toNat
def k0_dev26 (d0 : Dev nD) : Nat :=
  let c0_i32_228 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_227 : BitVec 32 := 2#32
  let v369 : BitVec 32 := Scalar.muli v2 c2_i32_227
  let v370 : BitVec 32 := Scalar.addi c0_i32_228 v369
  let c1_i32_225 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v368 : BitVec 32 := Scalar.subi c1_i32_225 v5
  let c1_i32_229 : BitVec 32 := 1#32
  let v371 : BitVec 32 := Scalar.muli v368 c1_i32_229
  let v372 : BitVec 32 := Scalar.addi v370 v371
  v372.toNat
def k0_dev27 (d0 : Dev nD) : Nat :=
  let c0_i32_237 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_236 : BitVec 32 := 2#32
  let v384 : BitVec 32 := Scalar.muli v2 c2_i32_236
  let v385 : BitVec 32 := Scalar.addi c0_i32_237 v384
  let c1_i32_234 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v383 : BitVec 32 := Scalar.subi c1_i32_234 v5
  let c1_i32_238 : BitVec 32 := 1#32
  let v386 : BitVec 32 := Scalar.muli v383 c1_i32_238
  let v387 : BitVec 32 := Scalar.addi v385 v386
  v387.toNat
def k0_dev28 (d0 : Dev nD) : Nat :=
  let c0_i32_246 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_245 : BitVec 32 := 2#32
  let v399 : BitVec 32 := Scalar.muli v2 c2_i32_245
  let v400 : BitVec 32 := Scalar.addi c0_i32_246 v399
  let c1_i32_243 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v398 : BitVec 32 := Scalar.subi c1_i32_243 v5
  let c1_i32_247 : BitVec 32 := 1#32
  let v401 : BitVec 32 := Scalar.muli v398 c1_i32_247
  let v402 : BitVec 32 := Scalar.addi v400 v401
  v402.toNat
def k0_dev29 (d0 : Dev nD) : Nat :=
  let c0_i32_255 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_254 : BitVec 32 := 2#32
  let v414 : BitVec 32 := Scalar.muli v2 c2_i32_254
  let v415 : BitVec 32 := Scalar.addi c0_i32_255 v414
  let c1_i32_252 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v413 : BitVec 32 := Scalar.subi c1_i32_252 v5
  let c1_i32_256 : BitVec 32 := 1#32
  let v416 : BitVec 32 := Scalar.muli v413 c1_i32_256
  let v417 : BitVec 32 := Scalar.addi v415 v416
  v417.toNat
def k0_dev30 (d0 : Dev nD) : Nat :=
  let c0_i32_264 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_263 : BitVec 32 := 2#32
  let v429 : BitVec 32 := Scalar.muli v2 c2_i32_263
  let v430 : BitVec 32 := Scalar.addi c0_i32_264 v429
  let c1_i32_261 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v428 : BitVec 32 := Scalar.subi c1_i32_261 v5
  let c1_i32_265 : BitVec 32 := 1#32
  let v431 : BitVec 32 := Scalar.muli v428 c1_i32_265
  let v432 : BitVec 32 := Scalar.addi v430 v431
  v432.toNat
def k0_dev31 (d0 : Dev nD) : Nat :=
  let c0_i32_273 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_272 : BitVec 32 := 2#32
  let v444 : BitVec 32 := Scalar.muli v2 c2_i32_272
  let v445 : BitVec 32 := Scalar.addi c0_i32_273 v444
  let c1_i32_270 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v443 : BitVec 32 := Scalar.subi c1_i32_270 v5
  let c1_i32_274 : BitVec 32 := 1#32
  let v446 : BitVec 32 := Scalar.muli v443 c1_i32_274
  let v447 : BitVec 32 := Scalar.addi v445 v446
  v447.toNat
def k0_dev32 (d0 : Dev nD) : Nat :=
  let c0_i32_282 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_281 : BitVec 32 := 2#32
  let v459 : BitVec 32 := Scalar.muli v2 c2_i32_281
  let v460 : BitVec 32 := Scalar.addi c0_i32_282 v459
  let c1_i32_279 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v458 : BitVec 32 := Scalar.subi c1_i32_279 v5
  let c1_i32_283 : BitVec 32 := 1#32
  let v461 : BitVec 32 := Scalar.muli v458 c1_i32_283
  let v462 : BitVec 32 := Scalar.addi v460 v461
  v462.toNat
def k0_dev33 (d0 : Dev nD) : Nat :=
  let c0_i32_291 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_290 : BitVec 32 := 2#32
  let v474 : BitVec 32 := Scalar.muli v2 c2_i32_290
  let v475 : BitVec 32 := Scalar.addi c0_i32_291 v474
  let c1_i32_288 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v473 : BitVec 32 := Scalar.subi c1_i32_288 v5
  let c1_i32_292 : BitVec 32 := 1#32
  let v476 : BitVec 32 := Scalar.muli v473 c1_i32_292
  let v477 : BitVec 32 := Scalar.addi v475 v476
  v477.toNat
def k0_dev34 (d0 : Dev nD) : Nat :=
  let c0_i32_300 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_299 : BitVec 32 := 2#32
  let v489 : BitVec 32 := Scalar.muli v2 c2_i32_299
  let v490 : BitVec 32 := Scalar.addi c0_i32_300 v489
  let c1_i32_297 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v488 : BitVec 32 := Scalar.subi c1_i32_297 v5
  let c1_i32_301 : BitVec 32 := 1#32
  let v491 : BitVec 32 := Scalar.muli v488 c1_i32_301
  let v492 : BitVec 32 := Scalar.addi v490 v491
  v492.toNat
def k0_off4 (d0 : Dev nD) (c0_i32_314 : BitVec 32) : Fin 2 → Nat :=
  let c1_i32_311 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v507 : BitVec 32 := Scalar.subi c1_i32_311 v5
  let c4096_i32_312 : BitVec 32 := 4096#32
  let v508 : BitVec 32 := Scalar.muli v507 c4096_i32_312
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32_313 : BitVec 32 := 2048#32
  let v509 : BitVec 32 := Scalar.muli v2 c2048_i32_313
  let v510 : BitVec 32 := Scalar.addi v508 v509
  let v511 : BitVec 32 := Scalar.addi v510 c0_i32_314
  let c0_i32_321 : BitVec 32 := 0#32
  ![v511.toNat, 0]
def k0_dev35 (d0 : Dev nD) : Nat :=
  let c0_i32_319 : BitVec 32 := 0#32
  let c1_i32_315 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v512 : BitVec 32 := Scalar.subi c1_i32_315 v2
  let c2_i32_318 : BitVec 32 := 2#32
  let v513 : BitVec 32 := Scalar.muli v512 c2_i32_318
  let v514 : BitVec 32 := Scalar.addi c0_i32_319 v513
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_320 : BitVec 32 := 1#32
  let v515 : BitVec 32 := Scalar.muli v5 c1_i32_320
  let v516 : BitVec 32 := Scalar.addi v514 v515
  v516.toNat
def k0_dev36 (d0 : Dev nD) : Nat :=
  let c0_i32_338 : BitVec 32 := 0#32
  let c1_i32_334 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v536 : BitVec 32 := Scalar.subi c1_i32_334 v2
  let c2_i32_337 : BitVec 32 := 2#32
  let v537 : BitVec 32 := Scalar.muli v536 c2_i32_337
  let v538 : BitVec 32 := Scalar.addi c0_i32_338 v537
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_339 : BitVec 32 := 1#32
  let v539 : BitVec 32 := Scalar.muli v5 c1_i32_339
  let v540 : BitVec 32 := Scalar.addi v538 v539
  v540.toNat
def k0_dev37 (d0 : Dev nD) : Nat :=
  let c0_i32_357 : BitVec 32 := 0#32
  let c1_i32_353 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v560 : BitVec 32 := Scalar.subi c1_i32_353 v2
  let c2_i32_356 : BitVec 32 := 2#32
  let v561 : BitVec 32 := Scalar.muli v560 c2_i32_356
  let v562 : BitVec 32 := Scalar.addi c0_i32_357 v561
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_358 : BitVec 32 := 1#32
  let v563 : BitVec 32 := Scalar.muli v5 c1_i32_358
  let v564 : BitVec 32 := Scalar.addi v562 v563
  v564.toNat
def k0_dev38 (d0 : Dev nD) : Nat :=
  let c0_i32_376 : BitVec 32 := 0#32
  let c1_i32_372 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v584 : BitVec 32 := Scalar.subi c1_i32_372 v2
  let c2_i32_375 : BitVec 32 := 2#32
  let v585 : BitVec 32 := Scalar.muli v584 c2_i32_375
  let v586 : BitVec 32 := Scalar.addi c0_i32_376 v585
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_377 : BitVec 32 := 1#32
  let v587 : BitVec 32 := Scalar.muli v5 c1_i32_377
  let v588 : BitVec 32 := Scalar.addi v586 v587
  v588.toNat
def k0_dev39 (d0 : Dev nD) : Nat :=
  let c0_i32_395 : BitVec 32 := 0#32
  let c1_i32_391 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v608 : BitVec 32 := Scalar.subi c1_i32_391 v2
  let c2_i32_394 : BitVec 32 := 2#32
  let v609 : BitVec 32 := Scalar.muli v608 c2_i32_394
  let v610 : BitVec 32 := Scalar.addi c0_i32_395 v609
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_396 : BitVec 32 := 1#32
  let v611 : BitVec 32 := Scalar.muli v5 c1_i32_396
  let v612 : BitVec 32 := Scalar.addi v610 v611
  v612.toNat
def k0_dev40 (d0 : Dev nD) : Nat :=
  let c0_i32_414 : BitVec 32 := 0#32
  let c1_i32_410 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v632 : BitVec 32 := Scalar.subi c1_i32_410 v2
  let c2_i32_413 : BitVec 32 := 2#32
  let v633 : BitVec 32 := Scalar.muli v632 c2_i32_413
  let v634 : BitVec 32 := Scalar.addi c0_i32_414 v633
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_415 : BitVec 32 := 1#32
  let v635 : BitVec 32 := Scalar.muli v5 c1_i32_415
  let v636 : BitVec 32 := Scalar.addi v634 v635
  v636.toNat
def k0_dev41 (d0 : Dev nD) : Nat :=
  let c0_i32_433 : BitVec 32 := 0#32
  let c1_i32_429 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v656 : BitVec 32 := Scalar.subi c1_i32_429 v2
  let c2_i32_432 : BitVec 32 := 2#32
  let v657 : BitVec 32 := Scalar.muli v656 c2_i32_432
  let v658 : BitVec 32 := Scalar.addi c0_i32_433 v657
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_434 : BitVec 32 := 1#32
  let v659 : BitVec 32 := Scalar.muli v5 c1_i32_434
  let v660 : BitVec 32 := Scalar.addi v658 v659
  v660.toNat
def k0_dev42 (d0 : Dev nD) : Nat :=
  let c0_i32_452 : BitVec 32 := 0#32
  let c1_i32_448 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v680 : BitVec 32 := Scalar.subi c1_i32_448 v2
  let c2_i32_451 : BitVec 32 := 2#32
  let v681 : BitVec 32 := Scalar.muli v680 c2_i32_451
  let v682 : BitVec 32 := Scalar.addi c0_i32_452 v681
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_453 : BitVec 32 := 1#32
  let v683 : BitVec 32 := Scalar.muli v5 c1_i32_453
  let v684 : BitVec 32 := Scalar.addi v682 v683
  v684.toNat
def k0_dev43 (d0 : Dev nD) : Nat :=
  let c0_i32_471 : BitVec 32 := 0#32
  let c1_i32_467 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v704 : BitVec 32 := Scalar.subi c1_i32_467 v2
  let c2_i32_470 : BitVec 32 := 2#32
  let v705 : BitVec 32 := Scalar.muli v704 c2_i32_470
  let v706 : BitVec 32 := Scalar.addi c0_i32_471 v705
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_472 : BitVec 32 := 1#32
  let v707 : BitVec 32 := Scalar.muli v5 c1_i32_472
  let v708 : BitVec 32 := Scalar.addi v706 v707
  v708.toNat
def k0_dev44 (d0 : Dev nD) : Nat :=
  let c0_i32_490 : BitVec 32 := 0#32
  let c1_i32_486 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v728 : BitVec 32 := Scalar.subi c1_i32_486 v2
  let c2_i32_489 : BitVec 32 := 2#32
  let v729 : BitVec 32 := Scalar.muli v728 c2_i32_489
  let v730 : BitVec 32 := Scalar.addi c0_i32_490 v729
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_491 : BitVec 32 := 1#32
  let v731 : BitVec 32 := Scalar.muli v5 c1_i32_491
  let v732 : BitVec 32 := Scalar.addi v730 v731
  v732.toNat
def k0_dev45 (d0 : Dev nD) : Nat :=
  let c0_i32_509 : BitVec 32 := 0#32
  let c1_i32_505 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v752 : BitVec 32 := Scalar.subi c1_i32_505 v2
  let c2_i32_508 : BitVec 32 := 2#32
  let v753 : BitVec 32 := Scalar.muli v752 c2_i32_508
  let v754 : BitVec 32 := Scalar.addi c0_i32_509 v753
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_510 : BitVec 32 := 1#32
  let v755 : BitVec 32 := Scalar.muli v5 c1_i32_510
  let v756 : BitVec 32 := Scalar.addi v754 v755
  v756.toNat
def k0_dev46 (d0 : Dev nD) : Nat :=
  let c0_i32_528 : BitVec 32 := 0#32
  let c1_i32_524 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v776 : BitVec 32 := Scalar.subi c1_i32_524 v2
  let c2_i32_527 : BitVec 32 := 2#32
  let v777 : BitVec 32 := Scalar.muli v776 c2_i32_527
  let v778 : BitVec 32 := Scalar.addi c0_i32_528 v777
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_529 : BitVec 32 := 1#32
  let v779 : BitVec 32 := Scalar.muli v5 c1_i32_529
  let v780 : BitVec 32 := Scalar.addi v778 v779
  v780.toNat
def k0_dev47 (d0 : Dev nD) : Nat :=
  let c0_i32_547 : BitVec 32 := 0#32
  let c1_i32_543 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v800 : BitVec 32 := Scalar.subi c1_i32_543 v2
  let c2_i32_546 : BitVec 32 := 2#32
  let v801 : BitVec 32 := Scalar.muli v800 c2_i32_546
  let v802 : BitVec 32 := Scalar.addi c0_i32_547 v801
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_548 : BitVec 32 := 1#32
  let v803 : BitVec 32 := Scalar.muli v5 c1_i32_548
  let v804 : BitVec 32 := Scalar.addi v802 v803
  v804.toNat
def k0_dev48 (d0 : Dev nD) : Nat :=
  let c0_i32_566 : BitVec 32 := 0#32
  let c1_i32_562 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v824 : BitVec 32 := Scalar.subi c1_i32_562 v2
  let c2_i32_565 : BitVec 32 := 2#32
  let v825 : BitVec 32 := Scalar.muli v824 c2_i32_565
  let v826 : BitVec 32 := Scalar.addi c0_i32_566 v825
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_567 : BitVec 32 := 1#32
  let v827 : BitVec 32 := Scalar.muli v5 c1_i32_567
  let v828 : BitVec 32 := Scalar.addi v826 v827
  v828.toNat
def k0_dev49 (d0 : Dev nD) : Nat :=
  let c0_i32_585 : BitVec 32 := 0#32
  let c1_i32_581 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v848 : BitVec 32 := Scalar.subi c1_i32_581 v2
  let c2_i32_584 : BitVec 32 := 2#32
  let v849 : BitVec 32 := Scalar.muli v848 c2_i32_584
  let v850 : BitVec 32 := Scalar.addi c0_i32_585 v849
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_586 : BitVec 32 := 1#32
  let v851 : BitVec 32 := Scalar.muli v5 c1_i32_586
  let v852 : BitVec 32 := Scalar.addi v850 v851
  v852.toNat
def k0_dev50 (d0 : Dev nD) : Nat :=
  let c0_i32_604 : BitVec 32 := 0#32
  let c1_i32_600 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v872 : BitVec 32 := Scalar.subi c1_i32_600 v2
  let c2_i32_603 : BitVec 32 := 2#32
  let v873 : BitVec 32 := Scalar.muli v872 c2_i32_603
  let v874 : BitVec 32 := Scalar.addi c0_i32_604 v873
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_605 : BitVec 32 := 1#32
  let v875 : BitVec 32 := Scalar.muli v5 c1_i32_605
  let v876 : BitVec 32 := Scalar.addi v874 v875
  v876.toNat
def k0_dev51 (d0 : Dev nD) : Nat :=
  let c0_i32_623 : BitVec 32 := 0#32
  let c1_i32_619 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v896 : BitVec 32 := Scalar.subi c1_i32_619 v2
  let c2_i32_622 : BitVec 32 := 2#32
  let v897 : BitVec 32 := Scalar.muli v896 c2_i32_622
  let v898 : BitVec 32 := Scalar.addi c0_i32_623 v897
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_624 : BitVec 32 := 1#32
  let v899 : BitVec 32 := Scalar.muli v5 c1_i32_624
  let v900 : BitVec 32 := Scalar.addi v898 v899
  v900.toNat
def k0_dev52 (d0 : Dev nD) : Nat :=
  let c0_i32_642 : BitVec 32 := 0#32
  let c1_i32_638 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v920 : BitVec 32 := Scalar.subi c1_i32_638 v2
  let c2_i32_641 : BitVec 32 := 2#32
  let v921 : BitVec 32 := Scalar.muli v920 c2_i32_641
  let v922 : BitVec 32 := Scalar.addi c0_i32_642 v921
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_643 : BitVec 32 := 1#32
  let v923 : BitVec 32 := Scalar.muli v5 c1_i32_643
  let v924 : BitVec 32 := Scalar.addi v922 v923
  v924.toNat
def k0_dev53 (d0 : Dev nD) : Nat :=
  let c0_i32_661 : BitVec 32 := 0#32
  let c1_i32_657 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v944 : BitVec 32 := Scalar.subi c1_i32_657 v2
  let c2_i32_660 : BitVec 32 := 2#32
  let v945 : BitVec 32 := Scalar.muli v944 c2_i32_660
  let v946 : BitVec 32 := Scalar.addi c0_i32_661 v945
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_662 : BitVec 32 := 1#32
  let v947 : BitVec 32 := Scalar.muli v5 c1_i32_662
  let v948 : BitVec 32 := Scalar.addi v946 v947
  v948.toNat
def k0_dev54 (d0 : Dev nD) : Nat :=
  let c0_i32_680 : BitVec 32 := 0#32
  let c1_i32_676 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v968 : BitVec 32 := Scalar.subi c1_i32_676 v2
  let c2_i32_679 : BitVec 32 := 2#32
  let v969 : BitVec 32 := Scalar.muli v968 c2_i32_679
  let v970 : BitVec 32 := Scalar.addi c0_i32_680 v969
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_681 : BitVec 32 := 1#32
  let v971 : BitVec 32 := Scalar.muli v5 c1_i32_681
  let v972 : BitVec 32 := Scalar.addi v970 v971
  v972.toNat
def k0_dev55 (d0 : Dev nD) : Nat :=
  let c0_i32_699 : BitVec 32 := 0#32
  let c1_i32_695 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v992 : BitVec 32 := Scalar.subi c1_i32_695 v2
  let c2_i32_698 : BitVec 32 := 2#32
  let v993 : BitVec 32 := Scalar.muli v992 c2_i32_698
  let v994 : BitVec 32 := Scalar.addi c0_i32_699 v993
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_700 : BitVec 32 := 1#32
  let v995 : BitVec 32 := Scalar.muli v5 c1_i32_700
  let v996 : BitVec 32 := Scalar.addi v994 v995
  v996.toNat
def k0_dev56 (d0 : Dev nD) : Nat :=
  let c0_i32_718 : BitVec 32 := 0#32
  let c1_i32_714 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1016 : BitVec 32 := Scalar.subi c1_i32_714 v2
  let c2_i32_717 : BitVec 32 := 2#32
  let v1017 : BitVec 32 := Scalar.muli v1016 c2_i32_717
  let v1018 : BitVec 32 := Scalar.addi c0_i32_718 v1017
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_719 : BitVec 32 := 1#32
  let v1019 : BitVec 32 := Scalar.muli v5 c1_i32_719
  let v1020 : BitVec 32 := Scalar.addi v1018 v1019
  v1020.toNat
def k0_dev57 (d0 : Dev nD) : Nat :=
  let c0_i32_737 : BitVec 32 := 0#32
  let c1_i32_733 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1040 : BitVec 32 := Scalar.subi c1_i32_733 v2
  let c2_i32_736 : BitVec 32 := 2#32
  let v1041 : BitVec 32 := Scalar.muli v1040 c2_i32_736
  let v1042 : BitVec 32 := Scalar.addi c0_i32_737 v1041
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_738 : BitVec 32 := 1#32
  let v1043 : BitVec 32 := Scalar.muli v5 c1_i32_738
  let v1044 : BitVec 32 := Scalar.addi v1042 v1043
  v1044.toNat
def k0_dev58 (d0 : Dev nD) : Nat :=
  let c0_i32_756 : BitVec 32 := 0#32
  let c1_i32_752 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1064 : BitVec 32 := Scalar.subi c1_i32_752 v2
  let c2_i32_755 : BitVec 32 := 2#32
  let v1065 : BitVec 32 := Scalar.muli v1064 c2_i32_755
  let v1066 : BitVec 32 := Scalar.addi c0_i32_756 v1065
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_757 : BitVec 32 := 1#32
  let v1067 : BitVec 32 := Scalar.muli v5 c1_i32_757
  let v1068 : BitVec 32 := Scalar.addi v1066 v1067
  v1068.toNat
def k0_dev59 (d0 : Dev nD) : Nat :=
  let c0_i32_775 : BitVec 32 := 0#32
  let c1_i32_771 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1088 : BitVec 32 := Scalar.subi c1_i32_771 v2
  let c2_i32_774 : BitVec 32 := 2#32
  let v1089 : BitVec 32 := Scalar.muli v1088 c2_i32_774
  let v1090 : BitVec 32 := Scalar.addi c0_i32_775 v1089
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_776 : BitVec 32 := 1#32
  let v1091 : BitVec 32 := Scalar.muli v5 c1_i32_776
  let v1092 : BitVec 32 := Scalar.addi v1090 v1091
  v1092.toNat
def k0_dev60 (d0 : Dev nD) : Nat :=
  let c0_i32_794 : BitVec 32 := 0#32
  let c1_i32_790 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1112 : BitVec 32 := Scalar.subi c1_i32_790 v2
  let c2_i32_793 : BitVec 32 := 2#32
  let v1113 : BitVec 32 := Scalar.muli v1112 c2_i32_793
  let v1114 : BitVec 32 := Scalar.addi c0_i32_794 v1113
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_795 : BitVec 32 := 1#32
  let v1115 : BitVec 32 := Scalar.muli v5 c1_i32_795
  let v1116 : BitVec 32 := Scalar.addi v1114 v1115
  v1116.toNat
def k0_dev61 (d0 : Dev nD) : Nat :=
  let c0_i32_813 : BitVec 32 := 0#32
  let c1_i32_809 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1136 : BitVec 32 := Scalar.subi c1_i32_809 v2
  let c2_i32_812 : BitVec 32 := 2#32
  let v1137 : BitVec 32 := Scalar.muli v1136 c2_i32_812
  let v1138 : BitVec 32 := Scalar.addi c0_i32_813 v1137
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_814 : BitVec 32 := 1#32
  let v1139 : BitVec 32 := Scalar.muli v5 c1_i32_814
  let v1140 : BitVec 32 := Scalar.addi v1138 v1139
  v1140.toNat
def k0_dev62 (d0 : Dev nD) : Nat :=
  let c0_i32_832 : BitVec 32 := 0#32
  let c1_i32_828 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1160 : BitVec 32 := Scalar.subi c1_i32_828 v2
  let c2_i32_831 : BitVec 32 := 2#32
  let v1161 : BitVec 32 := Scalar.muli v1160 c2_i32_831
  let v1162 : BitVec 32 := Scalar.addi c0_i32_832 v1161
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_833 : BitVec 32 := 1#32
  let v1163 : BitVec 32 := Scalar.muli v5 c1_i32_833
  let v1164 : BitVec 32 := Scalar.addi v1162 v1163
  v1164.toNat
def k0_dev63 (d0 : Dev nD) : Nat :=
  let c0_i32_851 : BitVec 32 := 0#32
  let c1_i32_847 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1184 : BitVec 32 := Scalar.subi c1_i32_847 v2
  let c2_i32_850 : BitVec 32 := 2#32
  let v1185 : BitVec 32 := Scalar.muli v1184 c2_i32_850
  let v1186 : BitVec 32 := Scalar.addi c0_i32_851 v1185
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_852 : BitVec 32 := 1#32
  let v1187 : BitVec 32 := Scalar.muli v5 c1_i32_852
  let v1188 : BitVec 32 := Scalar.addi v1186 v1187
  v1188.toNat
def k0_dev64 (d0 : Dev nD) : Nat :=
  let c0_i32_870 : BitVec 32 := 0#32
  let c1_i32_866 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1208 : BitVec 32 := Scalar.subi c1_i32_866 v2
  let c2_i32_869 : BitVec 32 := 2#32
  let v1209 : BitVec 32 := Scalar.muli v1208 c2_i32_869
  let v1210 : BitVec 32 := Scalar.addi c0_i32_870 v1209
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_871 : BitVec 32 := 1#32
  let v1211 : BitVec 32 := Scalar.muli v5 c1_i32_871
  let v1212 : BitVec 32 := Scalar.addi v1210 v1211
  v1212.toNat
def k0_dev65 (d0 : Dev nD) : Nat :=
  let c0_i32_889 : BitVec 32 := 0#32
  let c1_i32_885 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1232 : BitVec 32 := Scalar.subi c1_i32_885 v2
  let c2_i32_888 : BitVec 32 := 2#32
  let v1233 : BitVec 32 := Scalar.muli v1232 c2_i32_888
  let v1234 : BitVec 32 := Scalar.addi c0_i32_889 v1233
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_890 : BitVec 32 := 1#32
  let v1235 : BitVec 32 := Scalar.muli v5 c1_i32_890
  let v1236 : BitVec 32 := Scalar.addi v1234 v1235
  v1236.toNat
def k0_dev66 (d0 : Dev nD) : Nat :=
  let c0_i32_908 : BitVec 32 := 0#32
  let c1_i32_904 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1256 : BitVec 32 := Scalar.subi c1_i32_904 v2
  let c2_i32_907 : BitVec 32 := 2#32
  let v1257 : BitVec 32 := Scalar.muli v1256 c2_i32_907
  let v1258 : BitVec 32 := Scalar.addi c0_i32_908 v1257
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_909 : BitVec 32 := 1#32
  let v1259 : BitVec 32 := Scalar.muli v5 c1_i32_909
  let v1260 : BitVec 32 := Scalar.addi v1258 v1259
  v1260.toNat

class Facts₀ : Prop where
  hamt_1 : (1#32 : BitVec 32).msb = false
  hamt_2 : (2#32 : BitVec 32).msb = false
  inb_S32_S1_0 : ∀ a, (![0] : Fin 1 → Nat) a + S1.size a ≤ S32.size a
  squeezes_S1_S_ : S1.Squeezes S_
  inb_S32_S1_1 : ∀ a, (![1] : Fin 1 → Nat) a + S1.size a ≤ S32.size a
  inb_S32_S1_2 : ∀ a, (![2] : Fin 1 → Nat) a + S1.size a ≤ S32.size a
  inb_S32_S1_3 : ∀ a, (![3] : Fin 1 → Nat) a + S1.size a ≤ S32.size a
  inb_S32_S1_4 : ∀ a, (![4] : Fin 1 → Nat) a + S1.size a ≤ S32.size a
  inb_S32_S1_5 : ∀ a, (![5] : Fin 1 → Nat) a + S1.size a ≤ S32.size a
  inb_S32_S1_6 : ∀ a, (![6] : Fin 1 → Nat) a + S1.size a ≤ S32.size a
  inb_S32_S1_7 : ∀ a, (![7] : Fin 1 → Nat) a + S1.size a ≤ S32.size a
  inb_S32_S1_8 : ∀ a, (![8] : Fin 1 → Nat) a + S1.size a ≤ S32.size a
  inb_S32_S1_9 : ∀ a, (![9] : Fin 1 → Nat) a + S1.size a ≤ S32.size a
  inb_S32_S1_10 : ∀ a, (![10] : Fin 1 → Nat) a + S1.size a ≤ S32.size a
  inb_S32_S1_11 : ∀ a, (![11] : Fin 1 → Nat) a + S1.size a ≤ S32.size a
  inb_S32_S1_12 : ∀ a, (![12] : Fin 1 → Nat) a + S1.size a ≤ S32.size a
  inb_S32_S1_13 : ∀ a, (![13] : Fin 1 → Nat) a + S1.size a ≤ S32.size a
  inb_S32_S1_14 : ∀ a, (![14] : Fin 1 → Nat) a + S1.size a ≤ S32.size a
  inb_S32_S1_15 : ∀ a, (![15] : Fin 1 → Nat) a + S1.size a ≤ S32.size a
  inb_S32_S1_16 : ∀ a, (![16] : Fin 1 → Nat) a + S1.size a ≤ S32.size a
  inb_S32_S1_17 : ∀ a, (![17] : Fin 1 → Nat) a + S1.size a ≤ S32.size a
  inb_S32_S1_18 : ∀ a, (![18] : Fin 1 → Nat) a + S1.size a ≤ S32.size a
  inb_S32_S1_19 : ∀ a, (![19] : Fin 1 → Nat) a + S1.size a ≤ S32.size a
  inb_S32_S1_20 : ∀ a, (![20] : Fin 1 → Nat) a + S1.size a ≤ S32.size a
  inb_S32_S1_21 : ∀ a, (![21] : Fin 1 → Nat) a + S1.size a ≤ S32.size a
  inb_S32_S1_22 : ∀ a, (![22] : Fin 1 → Nat) a + S1.size a ≤ S32.size a
  inb_S32_S1_23 : ∀ a, (![23] : Fin 1 → Nat) a + S1.size a ≤ S32.size a
  inb_S32_S1_24 : ∀ a, (![24] : Fin 1 → Nat) a + S1.size a ≤ S32.size a
  inb_S32_S1_25 : ∀ a, (![25] : Fin 1 → Nat) a + S1.size a ≤ S32.size a
  inb_S32_S1_26 : ∀ a, (![26] : Fin 1 → Nat) a + S1.size a ≤ S32.size a
  inb_S32_S1_27 : ∀ a, (![27] : Fin 1 → Nat) a + S1.size a ≤ S32.size a
  inb_S32_S1_28 : ∀ a, (![28] : Fin 1 → Nat) a + S1.size a ≤ S32.size a
  inb_S32_S1_29 : ∀ a, (![29] : Fin 1 → Nat) a + S1.size a ≤ S32.size a
  inb_S32_S1_30 : ∀ a, (![30] : Fin 1 → Nat) a + S1.size a ≤ S32.size a
  inb_S32_S1_31 : ∀ a, (![31] : Fin 1 → Nat) a + S1.size a ≤ S32.size a
  hcc0_scratch0 : 0 + S_.numel ≤ 129
  hcc0_scratch1 : 1 + S32.numel ≤ 129
  hcc0_scratch2 : 33 + S32.numel ≤ 129
  hcc0_scratch3 : 65 + S32.numel ≤ 129
  hcc0_scratch4 : 97 + S32.numel ≤ 129
  k0_dev1_lt : ∀ d0 : Dev nD, (k0_dev1 d0) < nD
  k0_dev2_lt : ∀ d0 : Dev nD, (k0_dev2 d0) < nD
  k0_off1_inb : ∀ d0 : Dev nD, ∀ a, (k0_off1 d0) a + S4096x1024.size a ≤ S8192x1024.size a
  k0_off2_inb : ∀ d0 : Dev nD, ∀ (r : Fin 32), ∀ a, (k0_off2 d0 (BitVec.ofNat 32 (64 * r.val))) a + S64x1024.size a ≤ S8192x1024.size a
  k0_off3_inb : ∀ d0 : Dev nD, ∀ (r : Fin 32), ∀ a, (k0_off3 d0 (BitVec.ofNat 32 (64 * r.val))) a + S64x1024.size a ≤ S4096x1024.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_off4_inb : ∀ d0 : Dev nD, ∀ (r : Fin 32), ∀ a, (k0_off4 d0 (BitVec.ofNat 32 (64 * r.val))) a + S64x1024.size a ≤ S8192x1024.size a
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD

variable [Facts₀]

abbrev cc0_scratch0 : DmaSems sig S_ := SemArray.consecutive 0 S_ hcc0_scratch0
abbrev cc0_scratch1 : DmaSems sig S32 := SemArray.consecutive 1 S32 hcc0_scratch1
abbrev cc0_scratch2 : DmaSems sig S32 := SemArray.consecutive 33 S32 hcc0_scratch2
abbrev cc0_scratch3 : DmaSems sig S32 := SemArray.consecutive 65 S32 hcc0_scratch3
abbrev cc0_scratch4 : DmaSems sig S32 := SemArray.consecutive 97 S32 hcc0_scratch4

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S8192x1024 : Shape := ⟨2, ![8192, 1024]⟩

abbrev nBuf : Space → Nat
  | .hbm => 1
  | .vmem => 0
  | .smem => 0
  | _ => 0

abbrev bufTy : (tb : Table) → Fin (tcTables nBuf tb) → BufTy
  | .hbm, ⟨0, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.AG.Geom.lean ====
import proofs.«900103_g7700000000000104_dist_ag_v7x_xy2x2_y_m4096_n1024_f32_1_alg».proof.Proof.Gen.KernelIdeal
import Idealize.ShloMosaic.Lib.ValueIdx

noncomputable section

namespace Cert.KernelIdeal.AG

open Cert.KernelIdeal Cert.KernelIdeal.Gen
open Idealize.ShloMosaic Idealize.ShloMosaic.TcCoe

variable {F : FTy → Type}

-- Device `c` sits at mesh coordinates (c / 2, c % 2); `yn c` is its neighbour along y, `xn c` its neighbour along x.
def yn (c : Dev nD) : Dev nD := ⟨(2 * (c.val / 2) + 1) - c.val % 2, by have : c.val < 4 := c.isLt; show _ < 4; omega⟩

def xn (c : Dev nD) : Dev nD := ⟨(c.val % 2 + 2) - 2 * (c.val / 2), by have : c.val < 4 := c.isLt; show _ < 4; omega⟩

theorem yn_yn (c : Dev nD) : yn (yn c) = c := by revert c; decide
theorem xn_xn (c : Dev nD) : xn (xn c) = c := by revert c; decide
theorem yn_xn (c : Dev nD) : yn (xn c) = xn (yn c) := by revert c; decide
theorem yn_ne (c : Dev nD) : yn c ≠ c := by revert c; decide
theorem xn_ne (c : Dev nD) : xn c ≠ c := by revert c; decide
theorem xn_ne_yn (c : Dev nD) : xn c ≠ yn c := by revert c; decide
theorem yn_val (c : Dev nD) : (yn c).val = (2 * (c.val / 2) + 1) - c.val % 2 := rfl
theorem xn_val (c : Dev nD) : (xn c).val = (c.val % 2 + 2) - 2 * (c.val / 2) := rfl

theorem dev_eq_yn (c : Dev nD) (n : ℕ) (h : n < nD) (hn : n = (2 * (c.val / 2) + 1) - c.val % 2) : (⟨n, h⟩ : Dev nD) = yn c := Fin.ext hn
theorem dev_eq_xn (c : Dev nD) (n : ℕ) (h : n < nD) (hn : n = (c.val % 2 + 2) - 2 * (c.val / 2)) : (⟨n, h⟩ : Dev nD) = xn c := Fin.ext hn

abbrev xM : Memref sig .tc .hbm S4096x1024 .f32 := Memref.whole main_arg0
abbrev oM : Memref sig .tc .hbm S8192x1024 .f32 := Memref.whole main_v1

abbrev wOf (r : Fin 32) : BitVec 32 := BitVec.ofNat 32 (64 * r.val)

abbrev xCh (c : Dev nD) (r : Fin 32) : Memref sig .tc .hbm S64x1024 .f32 :=
  xM.slice (Rect.unit (s := S4096x1024) (k0_off3 c (wOf r)) S64x1024.size (k0_off3_inb c r)) (fun _ => rfl)

abbrev oCh1 (c : Dev nD) (r : Fin 32) : Memref sig .tc .hbm S64x1024 .f32 :=
  oM.slice (Rect.unit (s := S8192x1024) (k0_off2 c (wOf r)) S64x1024.size (k0_off2_inb c r)) (fun _ => rfl)

abbrev oCh2 (c : Dev nD) (r : Fin 32) : Memref sig .tc .hbm S64x1024 .f32 :=
  oM.slice (Rect.unit (s := S8192x1024) (k0_off4 c (wOf r)) S64x1024.size (k0_off4_inb c r)) (fun _ => rfl)

abbrev oLoc (c : Dev nD) : Memref sig .tc .hbm S4096x1024 .f32 :=
  oM.slice (Rect.unit (s := S8192x1024) (k0_off1 c) S4096x1024.size (k0_off1_inb c)) (fun _ => rfl)

def xIdx (i : S8192x1024.Idx) : S4096x1024.Idx :=
  ValueIdx.ix2 ⟨(i 0).val % 4096, Nat.mod_lt _ (by decide)⟩ ⟨(i 1).val, (i 1).isLt⟩

def srcDev (c : Dev nD) (i : S8192x1024.Idx) : Dev nD :=
  if (i 0).val / 4096 = c.val % 2 then c else if ((i 0).val % 4096) / 2048 = c.val / 2 then yn c else yn (xn c)

def outFinal (xs : (d : Dev nD) → Buf (Elt F) ((d : Thread nD τ).loc main_arg0)) (c : Dev nD) : Buf (Elt F) ((c : Thread nD τ).loc main_v1) :=
  fun i => xs (srcDev c i) (xIdx i)

end Cert.KernelIdeal.AG

end
-- ==== Proof.AG.Value.lean ====
import proofs.«900103_g7700000000000104_dist_ag_v7x_xy2x2_y_m4096_n1024_f32_1_alg».proof.Defs
import proofs.«900103_g7700000000000104_dist_ag_v7x_xy2x2_y_m4096_n1024_f32_1_alg».proof.Proof.AG.Geom
import proofs.«900103_g7700000000000104_dist_ag_v7x_xy2x2_y_m4096_n1024_f32_1_alg».proof.Proof.Gen.ReferenceIdeal
import Idealize.ShloMosaic.Lib.Layout
import Idealize.ShloMosaic.Lib.StableHlo.Run

noncomputable section

namespace Cert.KernelIdeal.AGValue

open Idealize.ShloMosaic Idealize.ShloMosaic.TcCoe Idealize.SL.Sem

theorem meshBlock_row (c : Dev Cert.KernelIdeal.nD) :
    ((Layout.meshBlock [2, 2] ![[1], []] c) 0).val = c.val % 2 := by
  revert c; decide

theorem meshBlock_col (c : Dev Cert.KernelIdeal.nD) :
    ((Layout.meshBlock [2, 2] ![[1], []] c) 1).val = 0 := by
  revert c; decide

theorem srcDev_snd (c : Dev Cert.KernelIdeal.nD) (i : Cert.KernelIdeal.S8192x1024.Idx) :
    (Cert.KernelIdeal.AG.srcDev c i).val % 2 = (i 0).val / 4096 := by
  have hc : c.val < 4 := c.isLt
  have hi : (i 0).val < 8192 := (i 0).isLt
  unfold Cert.KernelIdeal.AG.srcDev
  split_ifs with h1 h2
  · omega
  · rw [Cert.KernelIdeal.AG.yn_val]; omega
  · rw [Cert.KernelIdeal.AG.yn_val, Cert.KernelIdeal.AG.xn_val]; omega

-- Every device's gathered contents are the whole array: each row is read from the block of the device that holds it.
theorem outFinal_eq_whole
    (X : Buf (Elt Ideal) (((0 : Dev Cert.ReferenceIdeal.nD).tc : Thread Cert.ReferenceIdeal.nD Cert.ReferenceIdeal.τ).loc Cert.ReferenceIdeal.main_arg0))
    (xs : (d : Dev Cert.KernelIdeal.nD) → Buf (Elt Ideal) ((d.tc : Thread Cert.KernelIdeal.nD Cert.KernelIdeal.τ).loc Cert.KernelIdeal.main_arg0))
    (hxs : ∀ c : Dev Cert.KernelIdeal.nD,
      xs c = Layout.blockN ⟨2, ![4096, 1024]⟩ ⟨2, ![8192, 1024]⟩ (Layout.meshBlock [2, 2] ![[1], []] c) X)
    (c : Dev Cert.KernelIdeal.nD) :
    Cert.KernelIdeal.AG.outFinal (F := Ideal) xs c = X := by
  funext i
  show xs (Cert.KernelIdeal.AG.srcDev c i) (Cert.KernelIdeal.AG.xIdx i) = X i
  rw [hxs, Layout.blockN_apply]
  congr 1
  funext b
  apply Fin.ext
  rw [Layout.TilesN.idx_val]
  have hi : (i 0).val < 8192 := (i 0).isLt
  match b with
  | ⟨0, _⟩ =>
    show ((Layout.meshBlock [2, 2] ![[1], []] (Cert.KernelIdeal.AG.srcDev c i)) 0).val * 4096 + (i 0).val % 4096 = (i 0).val
    rw [meshBlock_row, srcDev_snd]
    omega
  | ⟨1, _⟩ =>
    show ((Layout.meshBlock [2, 2] ![[1], []] (Cert.KernelIdeal.AG.srcDev c i)) 1).val * 1024 + (i 1).val = (i 1).val
    rw [meshBlock_col]
    omega

section Reference

open Idealize.ShloMosaic.StableHlo

abbrev refOps : List (HloOp Cert.ReferenceIdeal.τ Cert.ReferenceIdeal.sig (Elt Ideal)) := []

theorem ref_main_eq [Cert.ReferenceIdeal.Facts] (c : Dev Cert.ReferenceIdeal.nD) :
    Cert.ReferenceIdeal.main (F := Ideal) c = seq refOps := rfl

theorem ref_scopedRefs_eq :
    (Finset.univ.filter fun b : Ref Cert.ReferenceIdeal.sig .tc => b.isScoped) = ∅ := by decide
theorem ref_scopedSems_eq :
    (Finset.univ.filter fun sm : SemLoc Cert.ReferenceIdeal.sig => sm.isScoped .tc) = ∅ := by decide

theorem ref_run [Cert.ReferenceIdeal.Facts]
    (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0)) :=
  (θ_run (Cert.ReferenceIdeal.defs (F := Ideal)) _ _).mono (fun _ h c => h c Cert.ReferenceIdeal.main_arg0)
    (run_seq ref_scopedRefs_eq ref_scopedSems_eq (Cert.ReferenceIdeal.defs (F := Ideal)) (Cert.ReferenceIdeal.main (F := Ideal))
      (fun _ => refOps) ref_main_eq (fun _ => trivial) m' g' (fun _ _ h => nomatch h))

end Reference

end Cert.KernelIdeal.AGValue

end
-- ==== Proof.AG.Core.lean ====
import proofs.«900103_g7700000000000104_dist_ag_v7x_xy2x2_y_m4096_n1024_f32_1_alg».proof.Proof.AG.Geom
import proofs.«900103_g7700000000000104_dist_ag_v7x_xy2x2_y_m4096_n1024_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

abbrev xs (d : Dev nD) : Buf (Elt F) ((d : Thread nD τ).loc main_arg0) := m ((d : Thread nD τ).loc main_arg0)
abbrev gat (c : Dev nD) : Buf (Elt F) ((c : Thread nD τ).loc main_v1) := outFinal (xs m) c

abbrev barS : Sem sig := (SemArray.scalar (sig.barrier 0 rfl) : Sems sig S_).sem

abbrev locQ : DmaSem sig := ⟨0, by decide⟩
abbrev s1Q (r : Fin 32) : DmaSem sig := ⟨1 + r.val, by have := r.isLt; show _ < 129; omega⟩
abbrev r1Q (r : Fin 32) : DmaSem sig := ⟨33 + r.val, by have := r.isLt; show _ < 129; omega⟩
abbrev s2Q (r : Fin 32) : DmaSem sig := ⟨65 + r.val, by have := r.isLt; show _ < 129; omega⟩
abbrev r2Q (r : Fin 32) : DmaSem sig := ⟨97 + r.val, by have := r.isLt; show _ < 129; omega⟩

abbrev barCell (c : Dev nD) : GSem nD τ sig := ((c : Thread nD τ), .reg barS)
abbrev dmaCell (c : Dev nD) (q : DmaSem sig) : GSem nD τ sig := ((c : Thread nD τ), .dma q)
abbrev locCell (c : Dev nD) : GSem nD τ sig := dmaCell c locQ
abbrev s1Cell (c : Dev nD) (r : Fin 32) : GSem nD τ sig := dmaCell c (s1Q r)
abbrev r1Cell (c : Dev nD) (r : Fin 32) : GSem nD τ sig := dmaCell c (r1Q r)
abbrev s2Cell (c : Dev nD) (r : Fin 32) : GSem nD τ sig := dmaCell c (s2Q r)
abbrev r2Cell (c : Dev nD) (r : Fin 32) : GSem nD τ sig := dmaCell c (r2Q r)

abbrev osem : Fin 129 → SemLoc sig := fun q => .dma q

abbrev csem : Fin 130 → SemLoc sig := fun j => if h : j.val = 0 then .reg barS else .dma ⟨j.val - 1, by have := j.isLt; show _ < 129; omega⟩
abbrev kcell (cj : Dev nD × Fin 130) : GSem nD τ sig := ((cj.1 : Thread nD τ), csem cj.2)

abbrev Nc : ℕ := (oCh1 (0 : Dev nD) (0 : Fin 32)).view.dmaCredit
abbrev Nl : ℕ := (oLoc (0 : Dev nD)).view.dmaCredit
theorem Nc_pos : 0 < Nc := View.dmaCredit_pos _ (by decide)
theorem Nl_pos : 0 < Nl := View.dmaCredit_pos _ (by decide)

def chunkOf (q : DmaSem sig) : Fin 32 := ⟨(q.val - 1) % 32, Nat.mod_lt _ (by decide)⟩
def famOf (q : DmaSem sig) : ℕ := (q.val - 1) / 32

def barPayY (c : Dev nD) : sProp 𝕄 :=
  bigSep Finset.univ fun r : Fin 32 => iprop(∃ f, (oCh1 c r).view.loc (yn c : Thread nD τ) ↦[(oCh1 c r).view.set]{fullShare} f)

def barPayX (c : Dev nD) : sProp 𝕄 :=
  bigSep Finset.univ fun r : Fin 32 => iprop(∃ f, (oCh2 c r).view.loc (xn c : Thread nD τ) ↦[(oCh2 c r).view.set]{fullShare} f)

def locPay (c : Dev nD) : sProp 𝕄 :=
  iprop(((oLoc c).view.loc (c : Thread nD τ) ↦[(oLoc c).view.set]{fullShare} gat m c)
    ∗ (xM.view.loc (c : Thread nD τ) ↦[xM.view.set]{fullShare.left} xs m c))

def s1Pay (c : Dev nD) (r : Fin 32) : sProp 𝕄 :=
  (xCh c r).view.loc (c : Thread nD τ) ↦[(xCh c r).view.set]{fullShare.right} xs m c

def r1Pay (c : Dev nD) (r : Fin 32) : sProp 𝕄 :=
  (oCh2 c r).view.loc (c : Thread nD τ) ↦[(oCh2 c r).view.set]{fullShare} gat m c

def r2Pay (c : Dev nD) (r : Fin 32) : sProp 𝕄 :=
  (oCh2 (xn c) r).view.loc (c : Thread nD τ) ↦[(oCh2 (xn c) r).view.set]{fullShare} gat m c

def dmaPay (c : Dev nD) (q : DmaSem sig) : sProp 𝕄 :=
  if q.val = 0 then locPay m c
  else if famOf q = 0 then s1Pay m c (chunkOf q)
  else if famOf q = 1 then r1Pay m c (chunkOf q)
  else if famOf q = 2 then r1Pay m c (chunkOf q)
  else r2Pay m c (chunkOf q)

-- One round on every semaphore: two unit duties on a barrier cell, one duty of its transfer's credit on every other cell.
def agRd : Rounds.Schedule (GSem nD τ sig) Bool 𝕄 where
  duties g r := if r = 0 ∧ g.1.2 = .tc then (match g.2 with | .reg s => if s = barS then Finset.univ else ∅ | .dma _ => {false}) else ∅
  unitless _ := False
  amount g _ _ := match g.2 with | .reg _ => 1 | .dma q => if q.val = 0 then Nl else Nc
  payload g _ d := match g.2 with
    | .reg _ => if d then barPayX g.1.1 else barPayY g.1.1
    | .dma q => dmaPay m g.1.1 q
  amount_pos g _ _ _ := by
    show 0 < (match g.2 with | .reg _ => 1 | .dma q => if q.val = 0 then Nl else Nc)
    split
    · exact Nat.one_pos
    · split
      · exact Nl_pos
      · exact Nc_pos

instance agRd_payload_storable (g : GSem nD τ sig) (r : ℕ) (d : Bool) :
    BI.Storable (upEmb : UEmb _ 𝕄) ((agRd (F := F) m).payload g r d) := by
  show BI.Storable upEmb (match g.2 with
    | .reg _ => if d then barPayX g.1.1 else barPayY g.1.1
    | .dma q => dmaPay m g.1.1 q)
  unfold dmaPay barPayX barPayY locPay s1Pay r1Pay r2Pay
  (repeat' split) <;> infer_instance

def owe1 (c : Dev nD) (a : ℕ) : CellTallies nD τ sig Unit :=
  ∑ r ∈ Finset.univ.filter (fun r : Fin 32 => a ≤ r.val), tallyAt (r1Cell (yn c) r) () Nc
def owe2 (c : Dev nD) (b : ℕ) : CellTallies nD τ sig Unit :=
  ∑ r ∈ Finset.univ.filter (fun r : Fin 32 => b ≤ r.val), tallyAt (r2Cell (xn c) r) () Nc
def Owe (c : Dev nD) (a b : ℕ) : CellTallies nD τ sig Unit := owe1 c a + owe2 c b

def O₁ (c : Dev nD) : CellTallies nD τ sig Unit := Owe c 0 0 + tallyAt (barCell (xn c)) () 1
def O₀ (c : Dev nD) : CellTallies nD τ sig Unit := O₁ c + tallyAt (barCell (yn c)) () 1

def L (g : GSem nD τ sig) : Finset Unit := if g.1.2 = .tc then {()} else ∅

-- Barrier cells at level 1, first-phase landings at 2, second-phase landings at 3: a device waits only below everything it still owes.
def lv (g : GSem nD τ sig) (_ : Unit) : ℕ :=
  match g.2 with
  | .reg _ => 1
  | .dma q => if 97 ≤ q.val then 3 else if 33 ≤ q.val ∧ q.val < 65 then 2 else 0

def records (KB : Dev nD → ℕ) (KQ : Dev nD × Fin 129 → ℕ) : sProp 𝕄 :=
  iprop((bigSep Finset.univ fun d : Dev nD => cellInv ER (agRd m) (KB d) (barCell d))
    ∗ (bigSep Finset.univ fun dq : Dev nD × Fin 129 => cellInv ER (agRd m) (KQ dq) (dmaCell dq.1 dq.2))
    ∗ (bigSep Finset.univ fun d : Dev nD => reached ER (barCell d) 0)
    ∗ (bigSep Finset.univ fun dq : Dev nD × Fin 129 => reached ER (dmaCell dq.1 dq.2) 0))

instance records_persistent (KB : Dev nD → ℕ) (KQ : Dev nD × Fin 129 → ℕ) : BI.Persistent (records m KB KQ) := by
  unfold records; infer_instance

def positions (c : Dev nD) : sProp 𝕄 :=
  iprop(atPos ER (barCell c) 0 ∅ 0 ∗ bigSep Finset.univ fun q : Fin 129 => atPos ER (dmaCell c q) 0 ∅ 0)

def chunkToks (c : Dev nD) (r : Fin 32) : sProp 𝕄 :=
  iprop(dutyTok ER (s1Cell c r) 0 false ∗ dutyTok ER (r1Cell (yn c) r) 0 false ∗ dutyTok ER (s2Cell c r) 0 false ∗ dutyTok ER (r2Cell (xn c) r) 0 false)
def payToks (c : Dev nD) : sProp 𝕄 :=
  iprop(dutyTok ER (barCell (yn c)) 0 false ∗ dutyTok ER (barCell (xn c)) 0 true ∗ dutyTok ER (locCell c) 0 false
    ∗ bigSep Finset.univ fun r : Fin 32 => chunkToks c r)

def ghost (KB : Dev nD → ℕ) (KQ : Dev nD × Fin 129 → ℕ) (c : Dev nD) : sProp 𝕄 :=
  iprop(records m KB KQ ∗ positions c ∗ payToks c)

def launchCreds (c : Dev nD) : sProp 𝕄 :=
  iprop(cred (tallyAt (barCell c) () 2)
    ∗ bigSep Finset.univ fun r : Fin 32 => iprop(cred (tallyAt (r1Cell c r) () Nc) ∗ cred (tallyAt (r2Cell c r) () Nc)))

def start (c : Dev nD) : sProp 𝕄 :=
  iprop((∃ KB KQ, ghost m KB KQ c) ∗ launchCreds c ∗ levAts L lv)

def Φ₀ (c : Dev nD) : sProp 𝕄 :=
  iprop(start m c ∗ (((c : Thread nD τ).loc main_arg0) ↦{fullShare} xs m c) ∗ ∃ f, (((c : Thread nD τ).loc main_v1) ↦{fullShare} f))

def Φ₁ (c : Dev nD) : sProp 𝕄 :=
  iprop((((c : Thread nD τ).loc main_arg0) ↦{fullShare} xs m c) ∗ (((c : Thread nD τ).loc main_v1) ↦{fullShare} gat m c)
    ∗ bigSep Finset.univ fun q : Fin 129 => semVal (dmaCell c q) 0)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.AG

end
-- ==== Proof.AG.Inv.lean ====
import proofs.«900103_g7700000000000104_dist_ag_v7x_xy2x2_y_m4096_n1024_f32_1_alg».proof.Proof.AG.Core

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def dst1 (c : Dev nD) (r : Fin 32) : sProp 𝕄 := iprop(∃ f, (oCh1 c r).view.loc (yn c : Thread nD τ) ↦[(oCh1 c r).view.set]{fullShare} f)
def dst2 (c : Dev nD) (r : Fin 32) : sProp 𝕄 := iprop(∃ f, (oCh2 c r).view.loc (xn c : Thread nD τ) ↦[(oCh2 c r).view.set]{fullShare} f)

abbrev pS1 (c : Dev nD) (r : Fin 32) : sProp 𝕄 := atPos ER (s1Cell c r) 0 ∅ 0
abbrev pR1 (c : Dev nD) (r : Fin 32) : sProp 𝕄 := atPos ER (r1Cell c r) 0 ∅ 0
abbrev pS2 (c : Dev nD) (r : Fin 32) : sProp 𝕄 := atPos ER (s2Cell c r) 0 ∅ 0
abbrev pR2 (c : Dev nD) (r : Fin 32) : sProp 𝕄 := atPos ER (r2Cell c r) 0 ∅ 0
abbrev zS1 (c : Dev nD) (r : Fin 32) : sProp 𝕄 := semVal (s1Cell c r) 0
abbrev zR1 (c : Dev nD) (r : Fin 32) : sProp 𝕄 := semVal (r1Cell c r) 0
abbrev zS2 (c : Dev nD) (r : Fin 32) : sProp 𝕄 := semVal (s2Cell c r) 0
abbrev zR2 (c : Dev nD) (r : Fin 32) : sProp 𝕄 := semVal (r2Cell c r) 0
abbrev cS1 (c : Dev nD) (r : Fin 32) : sProp 𝕄 := cred (tallyAt (s1Cell c r) () Nc)
abbrev cR1 (c : Dev nD) (r : Fin 32) : sProp 𝕄 := cred (tallyAt (r1Cell c r) () Nc)
abbrev cS2 (c : Dev nD) (r : Fin 32) : sProp 𝕄 := cred (tallyAt (s2Cell c r) () Nc)
abbrev cR2 (c : Dev nD) (r : Fin 32) : sProp 𝕄 := cred (tallyAt (r2Cell c r) () Nc)
abbrev tS1 (c : Dev nD) (r : Fin 32) : sProp 𝕄 := dutyTok ER (s1Cell c r) 0 false
abbrev tR1 (c : Dev nD) (r : Fin 32) : sProp 𝕄 := dutyTok ER (r1Cell (yn c) r) 0 false
abbrev tS2 (c : Dev nD) (r : Fin 32) : sProp 𝕄 := dutyTok ER (s2Cell c r) 0 false
abbrev tR2 (c : Dev nD) (r : Fin 32) : sProp 𝕄 := dutyTok ER (r2Cell (xn c) r) 0 false

-- What the device holds of chunk `r` after `k` of the six operations it performs on it: issue, landing, forwarding, forwarded landing, the two departures.
def chunkSt (c : Dev nD) (r : Fin 32) : ℕ → sProp 𝕄
  | 0 => iprop(tS1 c r ∗ tR1 c r ∗ tS2 c r ∗ tR2 c r ∗ pS1 c r ∗ pR1 c r ∗ pS2 c r ∗ pR2 c r ∗ cR1 c r ∗ cR2 c r ∗ s1Pay m c r ∗ dst1 c r ∗ dst2 c r)
  | 1 => iprop(tS2 c r ∗ tR2 c r ∗ pS1 c r ∗ pR1 c r ∗ pS2 c r ∗ pR2 c r ∗ cR1 c r ∗ cR2 c r ∗ cS1 c r ∗ dst2 c r)
  | 2 => iprop(tS2 c r ∗ tR2 c r ∗ pS1 c r ∗ zR1 c r ∗ pS2 c r ∗ pR2 c r ∗ cR2 c r ∗ cS1 c r ∗ dst2 c r ∗ r1Pay m c r)
  | 3 => iprop(pS1 c r ∗ zR1 c r ∗ pS2 c r ∗ pR2 c r ∗ cR2 c r ∗ cS1 c r ∗ cS2 c r)
  | 4 => iprop(pS1 c r ∗ zR1 c r ∗ pS2 c r ∗ zR2 c r ∗ cS1 c r ∗ cS2 c r ∗ r2Pay m c r)
  | 5 => iprop(zS1 c r ∗ zR1 c r ∗ pS2 c r ∗ zR2 c r ∗ cS2 c r ∗ r2Pay m c r ∗ s1Pay m c r)
  | 6 => iprop(zS1 c r ∗ zR1 c r ∗ zS2 c r ∗ zR2 c r ∗ r2Pay m c r ∗ s1Pay m c r ∗ r1Pay m c r)
  | _ + 7 => iprop(emp)

def ChunksOwes (c : Dev nD) (a b : ℕ) (st : Fin 32 → ℕ) : sProp 𝕄 :=
  iprop(∃ W : Waits sig Unit, owes (c : Thread nD τ) (Owe c a b) W ∗ bigSep Finset.univ fun r : Fin 32 => chunkSt m c r (st r))

-- Every counter that has passed chunk `r` adds one stage to it.
def stOf (n1 n2 n3 n4 n5 n6 : ℕ) : Fin 32 → ℕ := fun r =>
  (if r.val < n1 then 1 else 0) + (if r.val < n2 then 1 else 0) + (if r.val < n3 then 1 else 0)
    + (if r.val < n4 then 1 else 0) + (if r.val < n5 then 1 else 0) + (if r.val < n6 then 1 else 0)

theorem chunk_acc (c : Dev nD) (r : Fin 32) (st st' : Fin 32 → ℕ) (h : ∀ r' : Fin 32, r' ≠ r → st' r' = st r') :
    (bigSep Finset.univ fun r' : Fin 32 => chunkSt m c r' (st r'))
      ⊢ iprop(chunkSt m c r (st r) ∗ (chunkSt m c r (st' r) -∗ bigSep Finset.univ fun r' : Fin 32 => chunkSt m c r' (st' r'))) := by
  rw [bigSep_univ_at (fun r' : Fin 32 => chunkSt m c r' (st r')) r, bigSep_univ_at (fun r' : Fin 32 => chunkSt m c r' (st' r')) r,
    bigSep_congr (s := Finset.univ.erase r) (Φ := fun r' : Fin 32 => chunkSt m c r' (st' r')) (Ψ := fun r' : Fin 32 => chunkSt m c r' (st r'))
      (fun i hi => by rw [h i (Finset.ne_of_mem_erase hi)])]
  iintro ⟨H, Hrest⟩
  isplitl [H]
  · iexact H
  · iintro H'
    isplitl [H']
    · iexact H'
    · iexact Hrest

end Cert.KernelIdeal.AG

end
-- ==== Proof.AG.Tables.lean ====
import proofs.«900103_g7700000000000104_dist_ag_v7x_xy2x2_y_m4096_n1024_f32_1_alg».proof.Proof.AG.Core

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem chunkOf_s1 (r : Fin 32) : chunkOf (s1Q r) = r := Fin.ext (by have := r.isLt; show (1 + r.val - 1) % 32 = r.val; omega)
theorem chunkOf_r1 (r : Fin 32) : chunkOf (r1Q r) = r := Fin.ext (by have := r.isLt; show (33 + r.val - 1) % 32 = r.val; omega)
theorem chunkOf_s2 (r : Fin 32) : chunkOf (s2Q r) = r := Fin.ext (by have := r.isLt; show (65 + r.val - 1) % 32 = r.val; omega)
theorem chunkOf_r2 (r : Fin 32) : chunkOf (r2Q r) = r := Fin.ext (by have := r.isLt; show (97 + r.val - 1) % 32 = r.val; omega)
theorem famOf_s1 (r : Fin 32) : famOf (s1Q r) = 0 := by have := r.isLt; show (1 + r.val - 1) / 32 = 0; omega
theorem famOf_r1 (r : Fin 32) : famOf (r1Q r) = 1 := by have := r.isLt; show (33 + r.val - 1) / 32 = 1; omega
theorem famOf_s2 (r : Fin 32) : famOf (s2Q r) = 2 := by have := r.isLt; show (65 + r.val - 1) / 32 = 2; omega
theorem famOf_r2 (r : Fin 32) : famOf (r2Q r) = 3 := by have := r.isLt; show (97 + r.val - 1) / 32 = 3; omega

omit [FloatOps F] in
theorem dmaPay_loc (c : Dev nD) : dmaPay m c locQ = locPay m c := by
  unfold dmaPay; exact if_pos rfl
omit [FloatOps F] in
theorem dmaPay_s1 (c : Dev nD) (r : Fin 32) : dmaPay m c (s1Q r) = s1Pay m c r := by
  have h0 : ¬ (s1Q r).val = 0 := by show ¬ (1 + r.val = 0); omega
  unfold dmaPay
  rw [if_neg h0, if_pos (famOf_s1 r), chunkOf_s1]
omit [FloatOps F] in
theorem dmaPay_r1 (c : Dev nD) (r : Fin 32) : dmaPay m c (r1Q r) = r1Pay m c r := by
  have h0 : ¬ (r1Q r).val = 0 := by show ¬ (33 + r.val = 0); omega
  have h1 : ¬ famOf (r1Q r) = 0 := by rw [famOf_r1]; decide
  unfold dmaPay
  rw [if_neg h0, if_neg h1, if_pos (famOf_r1 r), chunkOf_r1]
omit [FloatOps F] in
theorem dmaPay_s2 (c : Dev nD) (r : Fin 32) : dmaPay m c (s2Q r) = r1Pay m c r := by
  have h0 : ¬ (s2Q r).val = 0 := by show ¬ (65 + r.val = 0); omega
  have h1 : ¬ famOf (s2Q r) = 0 := by rw [famOf_s2]; decide
  have h2 : ¬ famOf (s2Q r) = 1 := by rw [famOf_s2]; decide
  unfold dmaPay
  rw [if_neg h0, if_neg h1, if_neg h2, if_pos (famOf_s2 r), chunkOf_s2]
omit [FloatOps F] in
theorem dmaPay_r2 (c : Dev nD) (r : Fin 32) : dmaPay m c (r2Q r) = r2Pay m c r := by
  have h0 : ¬ (r2Q r).val = 0 := by show ¬ (97 + r.val = 0); omega
  have h1 : ¬ famOf (r2Q r) = 0 := by rw [famOf_r2]; decide
  have h2 : ¬ famOf (r2Q r) = 1 := by rw [famOf_r2]; decide
  have h3 : ¬ famOf (r2Q r) = 2 := by rw [famOf_r2]; decide
  unfold dmaPay
  rw [if_neg h0, if_neg h1, if_neg h2, if_neg h3, chunkOf_r2]

section Tables
variable (c : Dev nD) (r : Fin 32)

omit [FloatOps F] in
theorem duties_bar : (agRd (F := F) m).duties (barCell c) 0 = Finset.univ := by
  dsimp only [agRd]; rw [if_pos ⟨rfl, rfl⟩]; exact if_pos rfl
omit [FloatOps F] in
theorem duties_dma (q : DmaSem sig) : (agRd (F := F) m).duties (dmaCell c q) 0 = {false} := by
  dsimp only [agRd]; exact if_pos ⟨rfl, rfl⟩
omit [FloatOps F] in
theorem duties_later (g : GSem nD τ sig) : ∀ r, 1 ≤ r → (agRd (F := F) m).duties g r = ∅ := fun r hr => by
  dsimp only [agRd]; exact if_neg fun h => by omega

omit [FloatOps F] in
theorem amount_bar (d : Bool) : (agRd (F := F) m).amount (barCell c) 0 d = 1 := by dsimp only [agRd]
omit [FloatOps F] in
theorem amount_loc (d : Bool) : (agRd (F := F) m).amount (locCell c) 0 d = Nl := by
  dsimp only [agRd]; exact if_pos rfl
omit [FloatOps F] in
theorem amount_dma (q : DmaSem sig) (hq : q.val ≠ 0) (d : Bool) : (agRd (F := F) m).amount (dmaCell c q) 0 d = Nc := by
  dsimp only [agRd]; exact if_neg hq
omit [FloatOps F] in
theorem expect_bar : (agRd (F := F) m).expect (barCell c) 0 = 2 := by
  unfold Schedule.expect Schedule.amountOf
  rw [duties_bar, Finset.sum_congr rfl fun d _ => amount_bar m c d, Finset.sum_const, Finset.card_univ, Fintype.card_bool, smul_eq_mul]
omit [FloatOps F] in

theorem amount_dma0 (q : DmaSem sig) (hq : q.val = 0) (d : Bool) : (agRd (F := F) m).amount (dmaCell c q) 0 d = Nl := by
  dsimp only [agRd]; exact if_pos hq
omit [FloatOps F] in
theorem expect_dma0 (q : DmaSem sig) (hq : q.val = 0) : (agRd (F := F) m).expect (dmaCell c q) 0 = Nl := by
  unfold Schedule.expect Schedule.amountOf; rw [duties_dma, Finset.sum_singleton, amount_dma0 m c q hq]
omit [FloatOps F] in
theorem expect_loc : (agRd (F := F) m).expect (locCell c) 0 = Nl := expect_dma0 m c locQ rfl
omit [FloatOps F] in
theorem expect_dma (q : DmaSem sig) (hq : q.val ≠ 0) : (agRd (F := F) m).expect (dmaCell c q) 0 = Nc := by
  unfold Schedule.expect Schedule.amountOf; rw [duties_dma, Finset.sum_singleton, amount_dma m c q hq]

omit [FloatOps F] in
theorem payload_bar_false : (agRd (F := F) m).payload (barCell c) 0 false = barPayY c := by
  dsimp only [agRd]; exact if_neg Bool.false_ne_true
omit [FloatOps F] in
theorem payload_bar_true : (agRd (F := F) m).payload (barCell c) 0 true = barPayX c := by
  dsimp only [agRd]; exact if_pos rfl
omit [FloatOps F] in
theorem payload_loc (d : Bool) : (agRd (F := F) m).payload (locCell c) 0 d = locPay m c := by
  dsimp only [agRd]; exact dmaPay_loc m c
omit [FloatOps F] in
theorem payload_s1 (d : Bool) : (agRd (F := F) m).payload (s1Cell c r) 0 d = s1Pay m c r := by
  dsimp only [agRd]; exact dmaPay_s1 m c r
omit [FloatOps F] in
theorem payload_r1 (d : Bool) : (agRd (F := F) m).payload (r1Cell c r) 0 d = r1Pay m c r := by
  dsimp only [agRd]; exact dmaPay_r1 m c r
omit [FloatOps F] in
theorem payload_s2 (d : Bool) : (agRd (F := F) m).payload (s2Cell c r) 0 d = r1Pay m c r := by
  dsimp only [agRd]; exact dmaPay_s2 m c r
omit [FloatOps F] in
theorem payload_r2 (d : Bool) : (agRd (F := F) m).payload (r2Cell c r) 0 d = r2Pay m c r := by
  dsimp only [agRd]; exact dmaPay_r2 m c r

omit [FloatOps F] in
theorem rest_bar : bigSep ((agRd (F := F) m).duties (barCell c) 0 \ ∅) (fun d => (agRd (F := F) m).payload (barCell c) 0 d) = iprop(barPayY c ∗ barPayX c) := by
  rw [Finset.sdiff_empty, duties_bar, bigSep_univ_eq_bigSepL [false, true] (by decide) (by decide), bigSepL_cons_cons, bigSepL_singleton,
    payload_bar_false, payload_bar_true]
  rfl
omit [FloatOps F] in
theorem rest_loc : bigSep ((agRd (F := F) m).duties (locCell c) 0 \ ∅) (fun d => (agRd (F := F) m).payload (locCell c) 0 d) = locPay m c := by
  rw [Finset.sdiff_empty, duties_dma, bigSep_singleton, payload_loc]
omit [FloatOps F] in
theorem rest_s1 : bigSep ((agRd (F := F) m).duties (s1Cell c r) 0 \ ∅) (fun d => (agRd (F := F) m).payload (s1Cell c r) 0 d) = s1Pay m c r := by
  rw [Finset.sdiff_empty, duties_dma, bigSep_singleton, payload_s1]
omit [FloatOps F] in
theorem rest_r1 : bigSep ((agRd (F := F) m).duties (r1Cell c r) 0 \ ∅) (fun d => (agRd (F := F) m).payload (r1Cell c r) 0 d) = r1Pay m c r := by
  rw [Finset.sdiff_empty, duties_dma, bigSep_singleton, payload_r1]
omit [FloatOps F] in
theorem rest_s2 : bigSep ((agRd (F := F) m).duties (s2Cell c r) 0 \ ∅) (fun d => (agRd (F := F) m).payload (s2Cell c r) 0 d) = r1Pay m c r := by
  rw [Finset.sdiff_empty, duties_dma, bigSep_singleton, payload_s2]
omit [FloatOps F] in
theorem rest_r2 : bigSep ((agRd (F := F) m).duties (r2Cell c r) 0 \ ∅) (fun d => (agRd (F := F) m).payload (r2Cell c r) 0 d) = r2Pay m c r := by
  rw [Finset.sdiff_empty, duties_dma, bigSep_singleton, payload_r2]

end Tables

theorem filter_le_peel (r : Fin 32) :
    (Finset.univ.filter fun x : Fin 32 => r.val ≤ x.val) = insert r (Finset.univ.filter fun x : Fin 32 => r.val + 1 ≤ x.val) := by
  ext x
  simp only [Finset.mem_filter, Finset.mem_univ, true_and, Finset.mem_insert]
  constructor
  · intro h
    by_cases hx : x = r
    · exact Or.inl hx
    · exact Or.inr (by have : x.val ≠ r.val := fun e => hx (Fin.ext e); omega)
  · rintro (rfl | h)
    · exact Nat.le_refl _
    · omega

theorem not_mem_filter_succ (r : Fin 32) : r ∉ Finset.univ.filter fun x : Fin 32 => r.val + 1 ≤ x.val := fun h => by
  have := (Finset.mem_filter.mp h).2; omega

theorem filter_ge_32 : (Finset.univ.filter fun x : Fin 32 => 32 ≤ x.val) = ∅ :=
  Finset.filter_eq_empty_iff.mpr fun x _ => by have := x.isLt; omega

theorem owe1_peel (c : Dev nD) (r : Fin 32) : owe1 c r.val = owe1 c (r.val + 1) + tallyAt (r1Cell (yn c) r) () Nc := by
  unfold owe1; rw [filter_le_peel, Finset.sum_insert (not_mem_filter_succ r), add_comm]
theorem owe2_peel (c : Dev nD) (r : Fin 32) : owe2 c r.val = owe2 c (r.val + 1) + tallyAt (r2Cell (xn c) r) () Nc := by
  unfold owe2; rw [filter_le_peel, Finset.sum_insert (not_mem_filter_succ r), add_comm]

theorem sum_tally_pos {s : Finset (Fin 32)} {f : Fin 32 → GSem nD τ sig} {g : GSem nD τ sig} {u : Unit}
    (h : 0 < (∑ r ∈ s, tallyAt (f r) () Nc) g u) : ∃ r ∈ s, g = f r := by
  classical
  induction s using Finset.induction_on with
  | empty => rw [Finset.sum_empty] at h; exact absurd h (Nat.lt_irrefl 0)
  | insert x s hx ih =>
    rw [Finset.sum_insert hx, Pi.add_apply, Finsupp.add_apply, tallyAt_apply] at h
    by_cases hg : g = f x ∧ u = ()
    · exact ⟨x, Finset.mem_insert_self _ _, hg.1⟩
    · rw [if_neg hg, Nat.zero_add] at h
      obtain ⟨r, hr, e⟩ := ih h
      exact ⟨r, Finset.mem_insert_of_mem hr, e⟩

theorem Owe_peel1 (c : Dev nD) (r : Fin 32) (b : ℕ) : Owe c r.val b = Owe c (r.val + 1) b + tallyAt (r1Cell (yn c) r) () Nc := by
  unfold Owe; rw [owe1_peel c r, add_right_comm]
theorem Owe_peel2 (c : Dev nD) (a : ℕ) (r : Fin 32) : Owe c a r.val = Owe c a (r.val + 1) + tallyAt (r2Cell (xn c) r) () Nc := by
  unfold Owe; rw [owe2_peel c r, add_assoc]
theorem Owe_done (c : Dev nD) : Owe c 32 32 = 0 := by
  unfold Owe owe1 owe2; simp only [filter_ge_32, Finset.sum_empty, add_zero]

theorem Owe_pos {c : Dev nD} {a b : ℕ} {g : GSem nD τ sig} {u : Unit} (h : 0 < Owe c a b g u) :
    (∃ r : Fin 32, a ≤ r.val ∧ g = r1Cell (yn c) r) ∨ (∃ r : Fin 32, b ≤ r.val ∧ g = r2Cell (xn c) r) := by
  unfold Owe at h
  rw [Pi.add_apply, Finsupp.add_apply] at h
  by_cases h1 : 0 < owe1 c a g u
  · obtain ⟨r, hr, e⟩ := sum_tally_pos (f := fun r => r1Cell (yn c) r) h1
    exact Or.inl ⟨r, (Finset.mem_filter.mp hr).2, e⟩
  · have h2 : 0 < owe2 c b g u := by omega
    obtain ⟨r, hr, e⟩ := sum_tally_pos (f := fun r => r2Cell (xn c) r) h2
    exact Or.inr ⟨r, (Finset.mem_filter.mp hr).2, e⟩

theorem L_of_ne (g : GSem nD τ sig) (h : g.1.2 ≠ .tc) : L g = ∅ := if_neg h
theorem L_tc (c : Dev nD) (sm : SemLoc sig) : L ((c : Thread nD τ), sm) = {()} := if_pos rfl

theorem lv_r1 (c : Dev nD) (r : Fin 32) (u : Unit) : lv (r1Cell c r) u = 2 := by
  have hr := r.isLt
  show (if 97 ≤ 33 + r.val then 3 else if 33 ≤ 33 + r.val ∧ 33 + r.val < 65 then 2 else 0) = 2
  rw [if_neg (by omega), if_pos (by omega)]
theorem lv_r2 (c : Dev nD) (r : Fin 32) (u : Unit) : lv (r2Cell c r) u = 3 := by
  show (if 97 ≤ 97 + r.val then 3 else if 33 ≤ 97 + r.val ∧ 97 + r.val < 65 then 2 else 0) = 3
  exact if_pos (Nat.le_add_right 97 r.val)

omit [FloatOps F] in

theorem mayWait_bar (c : Dev nD) (a b : ℕ) :
    (levAts L lv : sProp 𝕄) ⊢ MayWait (c : Thread nD τ) (.reg barS) () (Owe c a b) :=
  MayOwe.of_cut (L := L) (lev := lv) 1
    (fun p hp => by rw [Finset.mem_singleton.mp hp, L_tc]; exact Finset.mem_singleton_self _)
    (fun g u hg => by
      rcases Owe_pos hg with ⟨r, -, rfl⟩ | ⟨r, -, rfl⟩
      · rw [L_tc]; exact Finset.mem_singleton_self _
      · rw [L_tc]; exact Finset.mem_singleton_self _)
    (fun p hp => by rw [Finset.mem_singleton.mp hp]; exact Nat.le_refl 1)
    (fun g u hg => by
      rcases Owe_pos hg with ⟨r, -, rfl⟩ | ⟨r, -, rfl⟩
      · rw [lv_r1]; decide
      · rw [lv_r2]; decide)
omit [FloatOps F] in

theorem mayWait_r1 (c : Dev nD) (r : Fin 32) (b : ℕ) :
    (levAts L lv : sProp 𝕄) ⊢ MayWait (c : Thread nD τ) (.dma (r1Q r)) () (Owe c 32 b) :=
  MayOwe.of_cut (L := L) (lev := lv) 2
    (fun p hp => by rw [Finset.mem_singleton.mp hp, L_tc]; exact Finset.mem_singleton_self _)
    (fun g u hg => by
      rcases Owe_pos hg with ⟨r', -, rfl⟩ | ⟨r', -, rfl⟩
      · rw [L_tc]; exact Finset.mem_singleton_self _
      · rw [L_tc]; exact Finset.mem_singleton_self _)
    (fun p hp => by rw [Finset.mem_singleton.mp hp]; exact le_of_eq (lv_r1 c r ()))
    (fun g u hg => by
      rcases Owe_pos hg with ⟨r', h32, rfl⟩ | ⟨r', -, rfl⟩
      · exact absurd h32 (by have := r'.isLt; omega)
      · rw [lv_r2]; decide)
omit [FloatOps F] in

theorem mayWait_done (c : Dev nD) (sm : SemLoc sig) :
    (levAts L lv : sProp 𝕄) ⊢ MayWait (c : Thread nD τ) sm () (Owe c 32 32) := by
  rw [Owe_done, MayWait_zero]; iintro -; iempintro

end Cert.KernelIdeal.AG

end
-- ==== Proof.AG.Regions.lean ====
import proofs.«900103_g7700000000000104_dist_ag_v7x_xy2x2_y_m4096_n1024_f32_1_alg».proof.Proof.AG.Geom
import Idealize.ShloMosaic.Lib.Pipeline.Value

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

theorem off2_yn (c : Dev nD) (r : Fin 32) : k0_off2 (yn c) (wOf r) = k0_off4 c (wOf r) := by
  have hc : c.val < 4 := c.isLt
  have hr : r.val < 32 := r.isLt
  rw [show wOf r = BitVec.ofNat 32 (64 * r.val) from rfl, k0_off2_eq, k0_off4_eq, yn_val]
  have : 4096 * (((2 * (c.val / 2) + 1) - c.val % 2) % 2) + 2048 * (((2 * (c.val / 2) + 1) - c.val % 2) / 2) + 64 * r.val
      = (2048 * (c.val / 2) + 64 * r.val + 4096) - 4096 * (c.val % 2) := by omega
  rw [this]

theorem oM_slice_congr {off off' : Fin 2 → Nat} (h : off = off') (inb : ∀ a, off a + S64x1024.size a ≤ S8192x1024.size a)
    (inb' : ∀ a, off' a + S64x1024.size a ≤ S8192x1024.size a) :
    (oM.slice (Rect.unit (s := S8192x1024) off S64x1024.size inb) (fun _ => rfl) : Memref sig .tc .hbm S64x1024 .f32)
      = oM.slice (Rect.unit (s := S8192x1024) off' S64x1024.size inb') (fun _ => rfl) := by
  subst h; rfl

theorem oCh1_yn (c : Dev nD) (r : Fin 32) : oCh1 (yn c) r = oCh2 c r :=
  oM_slice_congr (off2_yn c r) _ _

theorem mem_unit_rows {N n A : ℕ} {off : Fin 2 → ℕ} (hoff : off = ![A, 0])
    (inb : ∀ a, off a + (⟨2, ![n, 1024]⟩ : Shape).size a ≤ (⟨2, ![N, 1024]⟩ : Shape).size a) (i : (⟨2, ![N, 1024]⟩ : Shape).Idx) :
    i ∈ (Rect.unit (s := ⟨2, ![N, 1024]⟩) off (⟨2, ![n, 1024]⟩ : Shape).size inb).set ↔ A ≤ (i 0).val ∧ (i 0).val < A + n := by
  subst hoff
  rw [Rect.mem_set_unit]
  have h1 : (i 1).val < 1024 := (i 1).isLt
  refine ⟨fun h => h (0 : Fin 2), fun h a => ?_⟩
  match a with
  | ⟨0, _⟩ => exact h
  | ⟨1, _⟩ => exact ⟨Nat.zero_le _, by show (i 1).val < 0 + 1024; omega⟩

theorem mem_oCh1 (c : Dev nD) (r : Fin 32) (i : S8192x1024.Idx) :
    i ∈ (oCh1 c r).view.set ↔ 4096 * (c.val % 2) + 2048 * (c.val / 2) + 64 * r.val ≤ (i 0).val
      ∧ (i 0).val < 4096 * (c.val % 2) + 2048 * (c.val / 2) + 64 * r.val + 64 := by
  show i ∈ ((View.whole main_v1).slice (Rect.unit (s := S8192x1024) (k0_off2 c (wOf r)) S64x1024.size (k0_off2_inb c r))).set ↔ _
  rw [View.set_slice_whole]
  exact mem_unit_rows (k0_off2_eq c r) _ i

theorem mem_oCh2 (c : Dev nD) (r : Fin 32) (i : S8192x1024.Idx) :
    i ∈ (oCh2 c r).view.set ↔ (2048 * (c.val / 2) + 64 * r.val + 4096) - 4096 * (c.val % 2) ≤ (i 0).val
      ∧ (i 0).val < (2048 * (c.val / 2) + 64 * r.val + 4096) - 4096 * (c.val % 2) + 64 := by
  show i ∈ ((View.whole main_v1).slice (Rect.unit (s := S8192x1024) (k0_off4 c (wOf r)) S64x1024.size (k0_off4_inb c r))).set ↔ _
  rw [View.set_slice_whole]
  exact mem_unit_rows (k0_off4_eq c r) _ i

theorem mem_oLoc (c : Dev nD) (i : S8192x1024.Idx) :
    i ∈ (oLoc c).view.set ↔ 4096 * (c.val % 2) ≤ (i 0).val ∧ (i 0).val < 4096 * (c.val % 2) + 4096 := by
  show i ∈ ((View.whole main_v1).slice (Rect.unit (s := S8192x1024) (k0_off1 c) S4096x1024.size (k0_off1_inb c))).set ↔ _
  rw [View.set_slice_whole]
  exact mem_unit_rows (k0_off1_eq c) _ i

theorem mem_xCh (c : Dev nD) (r : Fin 32) (i : S4096x1024.Idx) :
    i ∈ (xCh c r).view.set ↔ 2048 * (c.val / 2) + 64 * r.val ≤ (i 0).val ∧ (i 0).val < 2048 * (c.val / 2) + 64 * r.val + 64 := by
  show i ∈ ((View.whole main_arg0).slice (Rect.unit (s := S4096x1024) (k0_off3 c (wOf r)) S64x1024.size (k0_off3_inb c r))).set ↔ _
  rw [View.set_slice_whole]
  exact mem_unit_rows (k0_off3_eq c r) _ i

theorem eq_on_set_of_emb {κ : Kind} {sp : Space} {S : Shape} {e : EltTy} {Val : EltTy → Type} (v : View sig κ sp S e)
    (f g : v.ty.Contents Val) (h : ∀ x : S.Idx, f (v.emb x) = g (v.emb x)) : ∀ i ∈ v.set, f i = g i := by
  intro i hi
  obtain ⟨y, rfl⟩ := View.exists_emb_of_mem_set v hi
  exact h y

theorem outFinal_apply_of {F : FTy → Type} (xs : (d : Dev nD) → Buf (Elt F) ((d : Thread nD τ).loc main_arg0)) (c d : Dev nD)
    (i : S8192x1024.Idx) (y : S4096x1024.Idx) (hd : srcDev c i = d) (hy : xIdx i = y) : outFinal xs c i = xs d y := by
  subst hd hy; rfl

theorem oLoc_emb0 (c : Dev nD) (x : S4096x1024.Idx) :
    (((oLoc c).view.emb x : S8192x1024.Idx) 0).val = 4096 * (c.val % 2) + (x 0).val := by
  have h : (((oLoc c).view.emb x : S8192x1024.Idx) 0).val = k0_off1 c 0 + 1 * (x 0).val := rfl
  rw [h, k0_off1_eq]; show 4096 * (c.val % 2) + 1 * (x 0).val = _; omega
theorem oLoc_emb1 (c : Dev nD) (x : S4096x1024.Idx) :
    (((oLoc c).view.emb x : S8192x1024.Idx) 1).val = (x 1).val := by
  have h : (((oLoc c).view.emb x : S8192x1024.Idx) 1).val = k0_off1 c 1 + 1 * (x 1).val := rfl
  rw [h, k0_off1_eq]; show 0 + 1 * (x 1).val = _; omega

theorem oCh1_emb0 (c : Dev nD) (r : Fin 32) (x : S64x1024.Idx) :
    (((oCh1 c r).view.emb x : S8192x1024.Idx) 0).val = 4096 * (c.val % 2) + 2048 * (c.val / 2) + 64 * r.val + (x 0).val := by
  have h : (((oCh1 c r).view.emb x : S8192x1024.Idx) 0).val = k0_off2 c (BitVec.ofNat 32 (64 * r.val)) 0 + 1 * (x 0).val := rfl
  rw [h, k0_off2_eq]; show 4096 * (c.val % 2) + 2048 * (c.val / 2) + 64 * r.val + 1 * (x 0).val = _; omega
theorem oCh1_emb1 (c : Dev nD) (r : Fin 32) (x : S64x1024.Idx) :
    (((oCh1 c r).view.emb x : S8192x1024.Idx) 1).val = (x 1).val := by
  have h : (((oCh1 c r).view.emb x : S8192x1024.Idx) 1).val = k0_off2 c (BitVec.ofNat 32 (64 * r.val)) 1 + 1 * (x 1).val := rfl
  rw [h, k0_off2_eq]; show 0 + 1 * (x 1).val = _; omega

theorem oCh2_emb0 (c : Dev nD) (r : Fin 32) (x : S64x1024.Idx) :
    (((oCh2 c r).view.emb x : S8192x1024.Idx) 0).val = (2048 * (c.val / 2) + 64 * r.val + 4096) - 4096 * (c.val % 2) + (x 0).val := by
  have h : (((oCh2 c r).view.emb x : S8192x1024.Idx) 0).val = k0_off4 c (BitVec.ofNat 32 (64 * r.val)) 0 + 1 * (x 0).val := rfl
  rw [h, k0_off4_eq]; show (2048 * (c.val / 2) + 64 * r.val + 4096) - 4096 * (c.val % 2) + 1 * (x 0).val = _; omega

theorem xCh_emb0 (c : Dev nD) (r : Fin 32) (x : S64x1024.Idx) :
    (((xCh c r).view.emb x : S4096x1024.Idx) 0).val = 2048 * (c.val / 2) + 64 * r.val + (x 0).val := by
  have h : (((xCh c r).view.emb x : S4096x1024.Idx) 0).val = k0_off3 c (BitVec.ofNat 32 (64 * r.val)) 0 + 1 * (x 0).val := rfl
  rw [h, k0_off3_eq]; show 2048 * (c.val / 2) + 64 * r.val + 1 * (x 0).val = _; omega
theorem xCh_emb1 (c : Dev nD) (r : Fin 32) (x : S64x1024.Idx) :
    (((xCh c r).view.emb x : S4096x1024.Idx) 1).val = (x 1).val := by
  have h : (((xCh c r).view.emb x : S4096x1024.Idx) 1).val = k0_off3 c (BitVec.ofNat 32 (64 * r.val)) 1 + 1 * (x 1).val := rfl
  rw [h, k0_off3_eq]; show 0 + 1 * (x 1).val = _; omega

theorem xIdx_ext (a b : S4096x1024.Idx) (h0 : (a 0).val = (b 0).val) (h1 : (a 1).val = (b 1).val) : a = b := by
  funext d
  match d with
  | ⟨0, _⟩ => exact Fin.ext h0
  | ⟨1, _⟩ => exact Fin.ext h1

theorem xIdx_val0 (i : S8192x1024.Idx) : ((xIdx i) 0).val = (i 0).val % 4096 := rfl
theorem xIdx_val1 (i : S8192x1024.Idx) : ((xIdx i) 1).val = (i 1).val := rfl

theorem land_loc {F : FTy → Type} {Ix : Type} [DecidableEq Ix] {Name : Type} [DecidableEq Name] {U : Type} [URA U] {Lvl : Type}
    (xs : (d : Dev nD) → Buf (Elt F) ((d : Thread nD τ).loc main_arg0)) (c : Dev nD)
    (fd : Buf (Elt F) ((oLoc c).view.loc (c : Thread nD τ))) :
    (((oLoc c).view.loc (c : Thread nD τ) ↦[(oLoc c).view.set]{fullShare}
        ((oLoc c).view.write (Elt F) fd (xM.view.read (Elt F) (xs c)) Finset.univ)) : sProp (MT nD τ sig Ix (Elt F) Name U Lvl))
      ⊢ ((oLoc c).view.loc (c : Thread nD τ) ↦[(oLoc c).view.set]{fullShare} outFinal xs c) := by
  refine Entails.of_eq (BI.Region.is_congr (eq_on_set_of_emb (oLoc c).view _ _ fun x => ?_))
  have hc : c.val < 4 := c.isLt
  have hx0 : (x 0).val < 4096 := (x 0).isLt
  have e0 := oLoc_emb0 c x
  have e1 := oLoc_emb1 c x
  rw [View.write_emb_of_mem _ _ (Finset.mem_univ x), View.read_apply, cast_cast, cast_eq]
  refine (outFinal_apply_of xs c c _ _ ?_ ?_).symm
  · unfold srcDev; rw [if_pos (by omega)]
  · exact xIdx_ext _ _ (by rw [xIdx_val0]; show _ = (x 0).val; omega) (by rw [xIdx_val1]; show _ = (x 1).val; omega)

theorem land_p1 {F : FTy → Type} {Ix : Type} [DecidableEq Ix] {Name : Type} [DecidableEq Name] {U : Type} [URA U] {Lvl : Type}
    (xs : (d : Dev nD) → Buf (Elt F) ((d : Thread nD τ).loc main_arg0)) (c : Dev nD) (r : Fin 32)
    (fd : Buf (Elt F) ((oCh1 c r).view.loc (yn c : Thread nD τ))) :
    (((oCh1 c r).view.loc (yn c : Thread nD τ) ↦[(oCh1 c r).view.set]{fullShare}
        ((oCh1 c r).view.write (Elt F) fd ((xCh c r).view.read (Elt F) (xs c)) Finset.univ)) : sProp (MT nD τ sig Ix (Elt F) Name U Lvl))
      ⊢ ((oCh1 c r).view.loc (yn c : Thread nD τ) ↦[(oCh1 c r).view.set]{fullShare} outFinal xs (yn c)) := by
  refine Entails.of_eq (BI.Region.is_congr (eq_on_set_of_emb (oCh1 c r).view _ _ fun x => ?_))
  have hc : c.val < 4 := c.isLt
  have h4 : c.val = 0 ∨ c.val = 1 ∨ c.val = 2 ∨ c.val = 3 := by omega
  have hr : r.val < 32 := r.isLt
  have hx0 : (x 0).val < 64 := (x 0).isLt
  have e0 := oCh1_emb0 c r x
  have e1 := oCh1_emb1 c r x
  have s0 := xCh_emb0 c r x
  have s1 := xCh_emb1 c r x
  have hy := yn_val c
  rw [View.write_emb_of_mem _ _ (Finset.mem_univ x), View.read_apply, cast_cast, cast_eq]
  refine (outFinal_apply_of xs (yn c) c _ _ ?_ ?_).symm
  · unfold srcDev; rw [if_neg (by omega), if_pos (by omega), yn_yn]
  · exact xIdx_ext _ _ (by rw [xIdx_val0, s0]; omega) (by rw [xIdx_val1, s1]; omega)

theorem land_p2 {F : FTy → Type} {Ix : Type} [DecidableEq Ix] {Name : Type} [DecidableEq Name] {U : Type} [URA U] {Lvl : Type}
    (xs : (d : Dev nD) → Buf (Elt F) ((d : Thread nD τ).loc main_arg0)) (c : Dev nD) (r : Fin 32)
    (fd : Buf (Elt F) ((oCh2 c r).view.loc (xn c : Thread nD τ))) :
    (((oCh2 c r).view.loc (xn c : Thread nD τ) ↦[(oCh2 c r).view.set]{fullShare}
        ((oCh2 c r).view.write (Elt F) fd ((oCh2 c r).view.read (Elt F) (outFinal xs c)) Finset.univ)) : sProp (MT nD τ sig Ix (Elt F) Name U Lvl))
      ⊢ ((oCh2 c r).view.loc (xn c : Thread nD τ) ↦[(oCh2 c r).view.set]{fullShare} outFinal xs (xn c)) := by
  refine Entails.of_eq (BI.Region.is_congr (eq_on_set_of_emb (oCh2 c r).view _ _ fun x => ?_))
  have hc : c.val < 4 := c.isLt
  have h4 : c.val = 0 ∨ c.val = 1 ∨ c.val = 2 ∨ c.val = 3 := by omega
  have hr : r.val < 32 := r.isLt
  have hx0 : (x 0).val < 64 := (x 0).isLt
  have e0 := oCh2_emb0 c r x
  have hxn := xn_val c
  rw [View.write_emb_of_mem _ _ (Finset.mem_univ x), View.read_apply, cast_cast, cast_eq]
  have h1 : srcDev c ((oCh2 c r).view.emb x) = yn c := by
    unfold srcDev; rw [if_neg (by omega), if_pos (by omega)]
  have h2 : srcDev (xn c) ((oCh2 c r).view.emb x) = yn c := by
    unfold srcDev; rw [if_neg (by omega), if_neg (by omega), xn_xn]
  exact (outFinal_apply_of xs c (yn c) _ _ h1 rfl).trans (outFinal_apply_of xs (xn c) (yn c) _ _ h2 rfl).symm

theorem disj_oLoc_oCh2 (c : Dev nD) (r : Fin 32) : Disjoint (oLoc c).view.set (oCh2 c r).view.set :=
  Finset.disjoint_left.mpr fun i hi hj => by
    have hc : c.val < 4 := c.isLt
    have h4 : c.val = 0 ∨ c.val = 1 ∨ c.val = 2 ∨ c.val = 3 := by omega
    have hr : r.val < 32 := r.isLt
    have h1 := (mem_oLoc c i).mp hi
    have h2 := (mem_oCh2 c r i).mp hj
    omega

theorem disj_oLoc_oCh2x (c : Dev nD) (r : Fin 32) : Disjoint (oLoc c).view.set (oCh2 (xn c) r).view.set :=
  Finset.disjoint_left.mpr fun i hi hj => by
    have hc : c.val < 4 := c.isLt
    have h4 : c.val = 0 ∨ c.val = 1 ∨ c.val = 2 ∨ c.val = 3 := by omega
    have hr : r.val < 32 := r.isLt
    have hxn := xn_val c
    have h1 := (mem_oLoc c i).mp hi
    have h2 := (mem_oCh2 (xn c) r i).mp hj
    omega

theorem disj_oCh2_oCh2x (c : Dev nD) (r r' : Fin 32) : Disjoint (oCh2 c r).view.set (oCh2 (xn c) r').view.set :=
  Finset.disjoint_left.mpr fun i hi hj => by
    have hc : c.val < 4 := c.isLt
    have h4 : c.val = 0 ∨ c.val = 1 ∨ c.val = 2 ∨ c.val = 3 := by omega
    have hr : r.val < 32 := r.isLt
    have hr' : r'.val < 32 := r'.isLt
    have hxn := xn_val c
    have h1 := (mem_oCh2 c r i).mp hi
    have h2 := (mem_oCh2 (xn c) r' i).mp hj
    omega

theorem disj_oCh2 (c : Dev nD) (r r' : Fin 32) (h : r ≠ r') : Disjoint (oCh2 c r).view.set (oCh2 c r').view.set :=
  Finset.disjoint_left.mpr fun i hi hj => by
    have hne : r.val ≠ r'.val := fun e => h (Fin.ext e)
    have h1 := (mem_oCh2 c r i).mp hi
    have h2 := (mem_oCh2 c r' i).mp hj
    omega

theorem out_cover (c : Dev nD) (i : S8192x1024.Idx) :
    i ∈ (oLoc c).view.set ∨ (∃ r : Fin 32, i ∈ (oCh2 c r).view.set) ∨ (∃ r : Fin 32, i ∈ (oCh2 (xn c) r).view.set) := by
  have hc : c.val < 4 := c.isLt
  have h4 : c.val = 0 ∨ c.val = 1 ∨ c.val = 2 ∨ c.val = 3 := by omega
  have hi : (i 0).val < 8192 := (i 0).isLt
  have hxn := xn_val c
  obtain ⟨r, hr⟩ : ∃ r : Fin 32, r.val = ((i 0).val % 2048) / 64 := ⟨⟨((i 0).val % 2048) / 64, by omega⟩, rfl⟩
  by_cases h1 : (i 0).val / 4096 = c.val % 2
  · exact .inl ((mem_oLoc c i).mpr ⟨by omega, by omega⟩)
  · by_cases h2 : ((i 0).val % 4096) / 2048 = c.val / 2
    · exact .inr (.inl ⟨r, (mem_oCh2 c r i).mpr ⟨by omega, by omega⟩⟩)
    · exact .inr (.inr ⟨r, (mem_oCh2 (xn c) r i).mpr ⟨by omega, by omega⟩⟩)

theorem out_sets (c : Dev nD) :
    (Finset.univ : Finset (Idx ((c : Thread nD τ).loc main_v1)))
      = (oLoc c).view.set ∪ ((Finset.univ.biUnion fun r : Fin 32 => (oCh2 c r).view.set)
          ∪ (Finset.univ.biUnion fun r : Fin 32 => (oCh2 (xn c) r).view.set)) := by
  ext i
  simp only [Finset.mem_univ, Finset.mem_union, Finset.mem_biUnion, true_and, true_iff]
  exact out_cover c i

theorem disj_out_loc (c : Dev nD) :
    Disjoint (oLoc c).view.set ((Finset.univ.biUnion fun r : Fin 32 => (oCh2 c r).view.set)
          ∪ (Finset.univ.biUnion fun r : Fin 32 => (oCh2 (xn c) r).view.set)) :=
  Finset.disjoint_union_right.mpr
    ⟨(Finset.disjoint_biUnion_right _ _ _).mpr fun r _ => disj_oLoc_oCh2 c r,
     (Finset.disjoint_biUnion_right _ _ _).mpr fun r _ => disj_oLoc_oCh2x c r⟩

theorem disj_out_recv (c : Dev nD) :
    Disjoint (Finset.univ.biUnion fun r : Fin 32 => (oCh2 c r).view.set : Finset (Idx ((c : Thread nD τ).loc main_v1)))
          (Finset.univ.biUnion fun r : Fin 32 => (oCh2 (xn c) r).view.set) :=
  (Finset.disjoint_biUnion_left _ _ _).mpr fun r _ => (Finset.disjoint_biUnion_right _ _ _).mpr fun r' _ => disj_oCh2_oCh2x c r r'

theorem out_eq {F : FTy → Type} {Ix : Type} [DecidableEq Ix] {Name : Type} [DecidableEq Name] {U : Type} [URA U] {Lvl : Type}
    (c : Dev nD) (f : Buf (Elt F) ((c : Thread nD τ).loc main_v1)) :
    (((c : Thread nD τ).loc main_v1 ↦{fullShare} f) : sProp (MT nD τ sig Ix (Elt F) Name U Lvl))
      = iprop(((oLoc c).view.loc (c : Thread nD τ) ↦[(oLoc c).view.set]{fullShare} f)
          ∗ (bigSep Finset.univ fun r : Fin 32 => ((oCh2 c r).view.loc (c : Thread nD τ) ↦[(oCh2 c r).view.set]{fullShare} f))
          ∗ (bigSep Finset.univ fun r : Fin 32 => ((oCh2 (xn c) r).view.loc (c : Thread nD τ) ↦[(oCh2 (xn c) r).view.set]{fullShare} f))) := by
  rw [out_sets c]
  rw [BI.equiv_iff.mp ⟨(pointsTo_union (disj_out_loc c)).1, (pointsTo_union (disj_out_loc c)).2⟩,
    BI.equiv_iff.mp ⟨(pointsTo_union (disj_out_recv c)).1, (pointsTo_union (disj_out_recv c)).2⟩,
    pointsTo_biUnion Finset.univ _ (fun r _ r' _ h => disj_oCh2 c r r' h),
    pointsTo_biUnion Finset.univ _ (fun r _ r' _ h => disj_oCh2 (xn c) r r' h)]

theorem out_split {F : FTy → Type} {Ix : Type} [DecidableEq Ix] {Name : Type} [DecidableEq Name] {U : Type} [URA U] {Lvl : Type}
    (c : Dev nD) (f : Buf (Elt F) ((c : Thread nD τ).loc main_v1)) :
    (((c : Thread nD τ).loc main_v1 ↦{fullShare} f) : sProp (MT nD τ sig Ix (Elt F) Name U Lvl))
      ⊢ iprop(((oLoc c).view.loc (c : Thread nD τ) ↦[(oLoc c).view.set]{fullShare} f)
          ∗ (bigSep Finset.univ fun r : Fin 32 => ((oCh2 c r).view.loc (c : Thread nD τ) ↦[(oCh2 c r).view.set]{fullShare} f))
          ∗ (bigSep Finset.univ fun r : Fin 32 => ((oCh2 (xn c) r).view.loc (c : Thread nD τ) ↦[(oCh2 (xn c) r).view.set]{fullShare} f))) :=
  Entails.of_eq (out_eq c f)

theorem out_join {F : FTy → Type} {Ix : Type} [DecidableEq Ix] {Name : Type} [DecidableEq Name] {U : Type} [URA U] {Lvl : Type}
    (c : Dev nD) (f : Buf (Elt F) ((c : Thread nD τ).loc main_v1)) :
    (iprop(((oLoc c).view.loc (c : Thread nD τ) ↦[(oLoc c).view.set]{fullShare} f)
          ∗ (bigSep Finset.univ fun r : Fin 32 => ((oCh2 c r).view.loc (c : Thread nD τ) ↦[(oCh2 c r).view.set]{fullShare} f))
          ∗ (bigSep Finset.univ fun r : Fin 32 => ((oCh2 (xn c) r).view.loc (c : Thread nD τ) ↦[(oCh2 (xn c) r).view.set]{fullShare} f)))
        : sProp (MT nD τ sig Ix (Elt F) Name U Lvl))
      ⊢ ((c : Thread nD τ).loc main_v1 ↦{fullShare} f) :=
  Entails.of_eq (out_eq c f).symm

theorem disj_xCh (c : Dev nD) (r r' : Fin 32) (h : r ≠ r') : Disjoint (xCh c r).view.set (xCh c r').view.set :=
  Finset.disjoint_left.mpr fun i hi hj => by
    have hne : r.val ≠ r'.val := fun e => h (Fin.ext e)
    have h1 := (mem_xCh c r i).mp hi
    have h2 := (mem_xCh c r' i).mp hj
    omega

def xRest (c : Dev nD) : Finset (Idx ((c : Thread nD τ).loc main_arg0)) :=
  Finset.univ \ Finset.univ.biUnion fun r : Fin 32 => (xCh c r).view.set

theorem x_eq {F : FTy → Type} {Ix : Type} [DecidableEq Ix] {Name : Type} [DecidableEq Name] {U : Type} [URA U] {Lvl : Type}
    (c : Dev nD) (f : Buf (Elt F) ((c : Thread nD τ).loc main_arg0)) :
    (((c : Thread nD τ).loc main_arg0 ↦{fullShare} f) : sProp (MT nD τ sig Ix (Elt F) Name U Lvl))
      = iprop((xM.view.loc (c : Thread nD τ) ↦[xM.view.set]{fullShare.left} f)
          ∗ (bigSep Finset.univ fun r : Fin 32 => ((xCh c r).view.loc (c : Thread nD τ) ↦[(xCh c r).view.set]{fullShare.right} f))
          ∗ ((c : Thread nD τ).loc main_arg0 ↦[xRest c]{fullShare.right} f)) := by
  have hsh := PosShare.mem_left_op_right fullShare
  have hset : (xM : Memref sig .tc .hbm S4096x1024 .f32).view.set = Finset.univ := View.set_whole _
  have hsub : (Finset.univ.biUnion fun r : Fin 32 => (xCh c r).view.set) ⊆ (Finset.univ : Finset (Idx ((c : Thread nD τ).loc main_arg0))) :=
    Finset.subset_univ _
  rw [hset, BI.equiv_iff.mp ⟨(pointsTo_share hsh).1, (pointsTo_share hsh).2⟩,
    BI.equiv_iff.mp ⟨(pointsTo_split_subset (q := fullShare.right) hsub).1, (pointsTo_split_subset (q := fullShare.right) hsub).2⟩,
    pointsTo_biUnion Finset.univ _ (fun r _ r' _ h => disj_xCh c r r' h)]
  rfl

theorem x_split {F : FTy → Type} {Ix : Type} [DecidableEq Ix] {Name : Type} [DecidableEq Name] {U : Type} [URA U] {Lvl : Type}
    (c : Dev nD) (f : Buf (Elt F) ((c : Thread nD τ).loc main_arg0)) :
    (((c : Thread nD τ).loc main_arg0 ↦{fullShare} f) : sProp (MT nD τ sig Ix (Elt F) Name U Lvl))
      ⊢ iprop((xM.view.loc (c : Thread nD τ) ↦[xM.view.set]{fullShare.left} f)
          ∗ (bigSep Finset.univ fun r : Fin 32 => ((xCh c r).view.loc (c : Thread nD τ) ↦[(xCh c r).view.set]{fullShare.right} f))
          ∗ ((c : Thread nD τ).loc main_arg0 ↦[xRest c]{fullShare.right} f)) :=
  Entails.of_eq (x_eq c f)

theorem x_join {F : FTy → Type} {Ix : Type} [DecidableEq Ix] {Name : Type} [DecidableEq Name] {U : Type} [URA U] {Lvl : Type}
    (c : Dev nD) (f : Buf (Elt F) ((c : Thread nD τ).loc main_arg0)) :
    (iprop((xM.view.loc (c : Thread nD τ) ↦[xM.view.set]{fullShare.left} f)
          ∗ (bigSep Finset.univ fun r : Fin 32 => ((xCh c r).view.loc (c : Thread nD τ) ↦[(xCh c r).view.set]{fullShare.right} f))
          ∗ ((c : Thread nD τ).loc main_arg0 ↦[xRest c]{fullShare.right} f))
        : sProp (MT nD τ sig Ix (Elt F) Name U Lvl))
      ⊢ ((c : Thread nD τ).loc main_arg0 ↦{fullShare} f) :=
  Entails.of_eq (x_eq c f).symm

end Cert.KernelIdeal.AG
-- ==== Proof.AG.StepsEnds.lean ====
import proofs.«900103_g7700000000000104_dist_ag_v7x_xy2x2_y_m4096_n1024_f32_1_alg».proof.Proof.AG.Inv
import proofs.«900103_g7700000000000104_dist_ag_v7x_xy2x2_y_m4096_n1024_f32_1_alg».proof.Proof.AG.Tables
import proofs.«900103_g7700000000000104_dist_ag_v7x_xy2x2_y_m4096_n1024_f32_1_alg».proof.Proof.AG.Regions

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (KB : Dev nD → ℕ) (KQ : Dev nD × Fin 129 → ℕ)

omit [FloatOps F] in
theorem records_bar (d : Dev nD) :
    records m KB KQ ⊢ iprop(cellInv ER (agRd m) (KB d) (barCell d) ∗ reached ER (barCell d) 0) := by
  unfold records
  iintro ⟨HIb, -, HRb, -⟩
  isplitl [HIb]
  · iapply (show (bigSep Finset.univ fun d : Dev nD => cellInv ER (agRd m) (KB d) (barCell d)) ⊢ cellInv ER (agRd m) (KB d) (barCell d)
      from bigSep_elim (Finset.mem_univ d))
    iexact HIb
  · iapply (show (bigSep Finset.univ fun d : Dev nD => (reached ER (barCell d) 0 : sProp 𝕄)) ⊢ reached ER (barCell d) 0
      from bigSep_elim (Finset.mem_univ d))
    iexact HRb

omit [FloatOps F] in
theorem records_dma (d : Dev nD) (q : Fin 129) :
    records m KB KQ ⊢ iprop(cellInv ER (agRd m) (KQ (d, q)) (dmaCell d q) ∗ reached ER (dmaCell d q) 0) := by
  unfold records
  iintro ⟨-, HIq, -, HRq⟩
  isplitl [HIq]
  · iapply (show (bigSep Finset.univ fun dq : Dev nD × Fin 129 => cellInv ER (agRd m) (KQ dq) (dmaCell dq.1 dq.2))
        ⊢ cellInv ER (agRd m) (KQ (d, q)) (dmaCell d q)
      from bigSep_elim (Finset.mem_univ (d, q)))
    iexact HIq
  · iapply (show (bigSep Finset.univ fun dq : Dev nD × Fin 129 => (reached ER (dmaCell dq.1 dq.2) 0 : sProp 𝕄)) ⊢ reached ER (dmaCell d q) 0
      from bigSep_elim (Finset.mem_univ (d, q)))
    iexact HRq

omit [FloatOps F] in

theorem barPayY_yn (c : Dev nD) :
    (barPayY (F := F) (yn c) : sProp 𝕄)
      = bigSep Finset.univ fun r : Fin 32 => iprop(∃ f, (oCh2 c r).view.loc (c : Thread nD τ) ↦[(oCh2 c r).view.set]{fullShare} f) := by
  unfold barPayY
  rw [yn_yn]
  refine congrArg (bigSep Finset.univ) (funext fun r => ?_)
  rw [oCh1_yn]

omit [FloatOps F] in
theorem barPayX_xn (c : Dev nD) :
    (barPayX (F := F) (xn c) : sProp 𝕄)
      = bigSep Finset.univ fun r : Fin 32 => iprop(∃ f, (oCh2 (xn c) r).view.loc (c : Thread nD τ) ↦[(oCh2 (xn c) r).view.set]{fullShare} f) := by
  unfold barPayX
  rw [xn_xn]

theorem step_sig1 (c : Dev nD) (n : Dev nD) (hn : n = yn c) (k' : ℕ) (hk' : k' = 1) (W : Waits sig Unit) {α : Type} {Q : α → sProp 𝕄} {k : PUnit → Prog (TpuEff nD τ sig (Elt F) Λ₀ .tc) α} :
    iprop(records m KB KQ ∗ owes (c : Thread nD τ) (O₀ c) W ∗ dutyTok ER (barCell (yn c)) 0 false
        ∗ (bigSep Finset.univ fun r : Fin 32 => iprop(∃ f, (oCh2 c r).view.loc (c : Thread nD τ) ↦[(oCh2 c r).view.set]{fullShare} f)))
      ⊢ iprop((owes (c : Thread nD τ) (O₁ c) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS k') k) Q) := by
  subst hn hk'
  iintro ⟨#Hrec, HO, Htok, Hpay⟩ Hk
  ihave #HIR := (records_bar m KB KQ (yn c)) $$ Hrec
  icases HIR with ⟨#HI, #HR⟩
  iapply (Rounds.wp_signal 𝒱₀ ER (agRd m) (c : Thread nD τ) none (dst := (yn c : Thread nD τ)) (κ := KB (yn c))
      (d := false) (by rw [duties_bar]; exact Finset.mem_univ _) (amount_bar m (yn c) false) () (O₁ c) rfl) $$ [HO Htok Hpay]
  · isplitr; · iexact HI
    isplitl [HO]; · iexact HO
    isplitl [Htok]; · iexact Htok
    isplitl [Hpay]
    · rw [payload_bar_false, barPayY_yn]; iexact Hpay
    · iexact HR
  iexact Hk

theorem step_sig2 (c : Dev nD) (n : Dev nD) (hn : n = xn c) (k' : ℕ) (hk' : k' = 1) (W : Waits sig Unit) {α : Type} {Q : α → sProp 𝕄} {k : PUnit → Prog (TpuEff nD τ sig (Elt F) Λ₀ .tc) α} :
    iprop(records m KB KQ ∗ owes (c : Thread nD τ) (O₁ c) W ∗ dutyTok ER (barCell (xn c)) 0 true
        ∗ (bigSep Finset.univ fun r : Fin 32 => iprop(∃ f, (oCh2 (xn c) r).view.loc (c : Thread nD τ) ↦[(oCh2 (xn c) r).view.set]{fullShare} f)))
      ⊢ iprop((owes (c : Thread nD τ) (Owe c 0 0) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS k') k) Q) := by
  subst hn hk'
  iintro ⟨#Hrec, HO, Htok, Hpay⟩ Hk
  ihave #HIR := (records_bar m KB KQ (xn c)) $$ Hrec
  icases HIR with ⟨#HI, #HR⟩
  iapply (Rounds.wp_signal 𝒱₀ ER (agRd m) (c : Thread nD τ) none (dst := (xn c : Thread nD τ)) (κ := KB (xn c))
      (d := true) (by rw [duties_bar]; exact Finset.mem_univ _) (amount_bar m (xn c) true) () (Owe c 0 0) rfl) $$ [HO Htok Hpay]
  · isplitr; · iexact HI
    isplitl [HO]; · iexact HO
    isplitl [Htok]; · iexact Htok
    isplitl [Hpay]
    · rw [payload_bar_true, barPayX_xn]; iexact Hpay
    · iexact HR
  iexact Hk

theorem step_barwait (c : Dev nD) (k' : ℕ) (hk' : k' = 2) (W : Waits sig Unit) {α : Type} {Q : α → sProp 𝕄} {k : PUnit → Prog (TpuEff nD τ sig (Elt F) Λ₀ .tc) α} :
    iprop(records m KB KQ ∗ levAts L lv ∗ cred (tallyAt (barCell c) () 2) ∗ owes (c : Thread nD τ) (Owe c 0 0) W ∗ atPos ER (barCell c) 0 ∅ 0)
      ⊢ iprop(((owes (c : Thread nD τ) (Owe c 0 0) (insert (SemLoc.reg barS, ()) W) ∗ barPayY c ∗ barPayX c) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  iintro ⟨#Hrec, #Hlev, Hc, HO, Hat⟩ Hk
  ihave #HIR := (records_bar m KB KQ (c)) $$ Hrec
  icases HIR with ⟨#HI, #HR⟩
  iapply (Rounds.wp_wait_rest_token 𝒱₀ ER (agRd m) (c : Thread nD τ) none (κ := KB c)
      (wpE_semWait_eq 𝒱₀ (c : Thread nD τ) none Set.univ) (Set.mem_univ _) () (O := Owe c 0 0) (W := W) (R := 0) (m := 0) (T := ∅)
      (by rw [expect_bar])) $$ [Hc HO Hat]
  · isplitr; · iexact HI
    isplitl [Hc]; · iexact Hc
    isplitl [HO]; · iexact HO
    isplitr; · iapply (mayWait_bar c 0 0); iexact Hlev
    iexact Hat
  iintro ⟨HO, -, -, Hpay⟩
  ihave Hp := (Entails.of_eq (rest_bar m c)) $$ Hpay
  iapply Hk
  iframe # ∗

theorem step_locenq (c : Dev nD) (q : DmaSem sig) (hq : q = locQ)
    {hsrc : (xM : Memref sig .tc .hbm S4096x1024 .f32).view.WordExact} {hdst : (oLoc c).view.WordExact}
    {hsem : DmaTarget.Typed (nD := nD) .hbm (.dma q) (DmaTarget.here (nD := nD) (τ := τ) (p := ((c : Thread nD τ)).2) (oLoc c))} {α : Type} {Q : α → sProp 𝕄} {k : PUnit → Prog (TpuEff nD τ sig (Elt F) Λ₀ .tc) α} :
    iprop(records m KB KQ ∗ dutyTok ER (locCell c) 0 false
        ∗ ((xM : Memref sig .tc .hbm S4096x1024 .f32).view.loc (c : Thread nD τ) ↦[(xM : Memref sig .tc .hbm S4096x1024 .f32).view.set]{fullShare.left} xs m c)
        ∗ (∃ f, (oLoc c).view.loc (c : Thread nD τ) ↦[(oLoc c).view.set]{fullShare} f))
      ⊢ iprop((cred (tallyAt (locCell c) () Nl) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma xM (.here (oLoc c)) (.dma q) hsrc hdst hsem) k) Q) := by
  subst hq
  iintro ⟨#Hrec, Htok, Hsrc, ⟨%fd, Hdst⟩⟩ Hk
  ihave #HIR := (records_dma m KB KQ c locQ) $$ Hrec
  icases HIR with ⟨#HI, #HR⟩
  iapply (Rounds.wp_copy_pointsTo 𝒱₀ ER (agRd m) (c : Thread nD τ) none (src := xM) (dst := oLoc c) (sem := .dma locQ)
      (q := fullShare.left) (fs := xs m c) (fd := fd) (r := 0) (d := false) (κ := KQ (c, locQ))
      (by rw [duties_dma]; exact Finset.mem_singleton_self _) () Nl rfl (amount_loc m c false)
      (by rw [payload_loc]; unfold locPay gat; exact sep_mono_left (land_loc (xs m) c fd))) $$ [Htok Hsrc Hdst]
  · iframe # ∗
  iexact Hk

theorem step_locwait (c : Dev nD) (q : DmaSem sig) (hq : q = locQ) (src dst : Memref sig .tc .hbm S4096x1024 .f32)
    {hs : src.view.WordExact} {hd : dst.view.WordExact} (W : Waits sig Unit) {α : Type} {Q : α → sProp 𝕄} {k : PUnit → Prog (TpuEff nD τ sig (Elt F) Λ₀ .tc) α} :
    iprop(records m KB KQ ∗ levAts L lv ∗ cred (tallyAt (locCell c) () Nl) ∗ owes (c : Thread nD τ) (Owe c 32 32) W ∗ atPos ER (locCell c) 0 ∅ 0)
      ⊢ iprop(((owes (c : Thread nD τ) (Owe c 32 32) (insert (SemLoc.dma locQ, ()) W) ∗ locPay m c ∗ semVal (locCell c) 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hs hd) k) Q) := by
  subst hq
  iintro ⟨#Hrec, #Hlev, Hc, HO, Hat⟩ Hk
  ihave #HIR := (records_dma m KB KQ c locQ) $$ Hrec
  icases HIR with ⟨#HI, #HR⟩
  iapply (Rounds.wp_wait_rest_token 𝒱₀ ER (agRd m) (c : Thread nD τ) none (κ := KQ (c, locQ))
      (wpE_waitDma2_eq 𝒱₀ (c : Thread nD τ) none Set.univ) (Set.mem_univ _) () (O := Owe c 32 32) (W := W) (R := 0) (m := 0) (T := ∅)
      (by rw [Nat.zero_add, expect_loc])) $$ [Hc HO Hat]
  · isplitr; · iexact HI
    isplitl [Hc]; · iexact Hc
    isplitl [HO]; · iexact HO
    isplitr; · iapply (mayWait_done c _); iexact Hlev
    iexact Hat
  iintro ⟨HO, Hat, -, Hpay⟩
  ihave Hp := (Entails.of_eq (rest_loc m c)) $$ Hpay
  imod (Rounds.cell_close ER (agRd m) (Set.mem_univ (KQ (c, locQ))) (fun h => h) (R := 0 + 1) (duties_later m (locCell c))) $$ [Hat] with Hz
  · iframe # ∗
  iapply Hk
  iframe # ∗

end Cert.KernelIdeal.AG

end
-- ==== Proof.AG.StepsSend.lean ====
import proofs.«900103_g7700000000000104_dist_ag_v7x_xy2x2_y_m4096_n1024_f32_1_alg».proof.Proof.AG.Inv
import proofs.«900103_g7700000000000104_dist_ag_v7x_xy2x2_y_m4096_n1024_f32_1_alg».proof.Proof.AG.Tables
import proofs.«900103_g7700000000000104_dist_ag_v7x_xy2x2_y_m4096_n1024_f32_1_alg».proof.Proof.AG.Regions

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (KB : Dev nD → ℕ) (KQ : Dev nD × Fin 129 → ℕ)

theorem stOf_n1_succ (r r' : Fin 32) (h : r' ≠ r) (n2 n3 n4 n5 n6 : ℕ) :
    stOf (r.val + 1) n2 n3 n4 n5 n6 r' = stOf r.val n2 n3 n4 n5 n6 r' := by
  have hv : r'.val ≠ r.val := fun e => h (Fin.ext e)
  have hi : (r'.val < r.val + 1) ↔ (r'.val < r.val) := by omega
  unfold stOf
  simp only [hi]

theorem stOf_n3_succ (r r' : Fin 32) (h : r' ≠ r) (n1 n2 n4 n5 n6 : ℕ) :
    stOf n1 n2 (r.val + 1) n4 n5 n6 r' = stOf n1 n2 r.val n4 n5 n6 r' := by
  have hv : r'.val ≠ r.val := fun e => h (Fin.ext e)
  have hi : (r'.val < r.val + 1) ↔ (r'.val < r.val) := by omega
  unfold stOf
  simp only [hi]

theorem stOf_E1_pre (r : Fin 32) : stOf r.val 0 0 0 0 0 r = 0 := by simp [stOf]
theorem stOf_E1_post (r : Fin 32) : stOf (r.val + 1) 0 0 0 0 0 r = 1 := by simp [stOf]
theorem stOf_E2_pre (r : Fin 32) : stOf 32 (r.val + 1) r.val 0 0 0 r = 2 := by simp [stOf, r.isLt]
theorem stOf_E2_post (r : Fin 32) : stOf 32 (r.val + 1) (r.val + 1) 0 0 0 r = 3 := by simp [stOf, r.isLt]

theorem pts_oM_slice_congr {off off' : Fin 2 → Nat} (h : off = off') (inb : ∀ a, off a + S64x1024.size a ≤ S8192x1024.size a)
    (inb' : ∀ a, off' a + S64x1024.size a ≤ S8192x1024.size a) (t : Dev nD) (f : Buf (Elt F) ((t : Thread nD τ).loc main_v1)) :
    (((oM.slice (Rect.unit (s := S8192x1024) off S64x1024.size inb) (fun _ => rfl) : Memref sig .tc .hbm S64x1024 .f32).view.loc (t : Thread nD τ)
        ↦[(oM.slice (Rect.unit (s := S8192x1024) off S64x1024.size inb) (fun _ => rfl) : Memref sig .tc .hbm S64x1024 .f32).view.set]{fullShare} f) : sProp 𝕄)
      = ((oM.slice (Rect.unit (s := S8192x1024) off' S64x1024.size inb') (fun _ => rfl) : Memref sig .tc .hbm S64x1024 .f32).view.loc (t : Thread nD τ)
        ↦[(oM.slice (Rect.unit (s := S8192x1024) off' S64x1024.size inb') (fun _ => rfl) : Memref sig .tc .hbm S64x1024 .f32).view.set]{fullShare} f) := by
  subst h; rfl

theorem r1Pay_yn (c : Dev nD) (r : Fin 32) :
    r1Pay m (yn c) r = ((oCh1 c r).view.loc (yn c : Thread nD τ) ↦[(oCh1 c r).view.set]{fullShare} gat m (yn c)) := by
  have e : r1Pay m (yn c) r = ((oCh1 (yn (yn c)) r).view.loc (yn c : Thread nD τ) ↦[(oCh1 (yn (yn c)) r).view.set]{fullShare} gat m (yn c)) :=
    pts_oM_slice_congr (off2_yn (yn c) r).symm _ _ (yn c) (gat m (yn c))
  rw [e, yn_yn]

theorem r2Pay_xn (c : Dev nD) (r : Fin 32) :
    r2Pay m (xn c) r = ((oCh2 c r).view.loc (xn c : Thread nD τ) ↦[(oCh2 c r).view.set]{fullShare} gat m (xn c)) := by
  unfold r2Pay
  rw [xn_xn]

theorem cellInv_of_all (d : Dev nD) (q : DmaSem sig) :
    (bigSep Finset.univ fun dq : Dev nD × Fin 129 => cellInv ER (agRd m) (KQ dq) (dmaCell dq.1 dq.2))
      ⊢ cellInv ER (agRd m) (KQ (d, q)) (dmaCell d q) :=
  bigSep_elim (Finset.mem_univ ((d, q) : Dev nD × Fin 129))

theorem reached_of_all (d : Dev nD) (q : DmaSem sig) :
    (bigSep Finset.univ fun dq : Dev nD × Fin 129 => (reached ER (dmaCell dq.1 dq.2) 0 : sProp 𝕄))
      ⊢ reached ER (dmaCell d q) 0 :=
  bigSep_elim (Finset.mem_univ ((d, q) : Dev nD × Fin 129))

-- First-phase copy `r`: the departure hands the source chunk back, the landing hands `yn c` the rows gathered.
theorem step_E1 (c : Dev nD) (r : Fin 32) (n : Dev nD) (hn : n = yn c) (qs qr : DmaSem sig) (hqs : qs = s1Q r) (hqr : qr = r1Q r)
    {hsc : (oCh1 c r : Memref sig (Dev.tc n : Thread nD τ).2.kind .hbm S64x1024 .f32).view.ref.isScScratch = false}
    {hsrc : (xCh c r).view.WordExact} {hdst : (oCh1 c r).view.WordExact}
    {hsem : DmaTarget.Typed .hbm (.dma qr) (.remote (Dev.tc n : Thread nD τ) (oCh1 c r) (.dma qs) hsc)}
    {α : Type} {Q : α → sProp 𝕄} {k : PUnit → Prog (TpuEff nD τ sig (Elt F) Λ₀ .tc) α} :
    iprop(records m KB KQ ∗ levAts L lv ∗ ChunksOwes m c r.val 0 (stOf r.val 0 0 0 0 0))
      ⊢ iprop((ChunksOwes m c (r.val + 1) 0 (stOf (r.val + 1) 0 0 0 0 0) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (xCh c r) (.remote (Dev.tc n : Thread nD τ) (oCh1 c r) (.dma qs) hsc) (.dma qr) hsrc hdst hsem) k) Q) := by
  subst hn hqs hqr
  unfold ChunksOwes records
  iintro ⟨⟨#HIB, #HIQ, #HRB, #HRQ⟩, #Hl, %W, HO, Hch⟩ Hk
  ihave #HI1 := (cellInv_of_all m KQ c (s1Q r)) $$ HIQ
  ihave #HI2 := (cellInv_of_all m KQ (yn c) (r1Q r)) $$ HIQ
  ihave #HR1 := (reached_of_all (F := F) c (s1Q r)) $$ HRQ
  ihave #HR2 := (reached_of_all (F := F) (yn c) (r1Q r)) $$ HRQ
  ihave Hc := (chunk_acc m c r (stOf r.val 0 0 0 0 0) (stOf (r.val + 1) 0 0 0 0 0)
    (fun r' h => stOf_n1_succ r r' h 0 0 0 0 0)) $$ Hch
  rw [stOf_E1_pre, stOf_E1_post]
  icases Hc with ⟨Hr, Hback⟩
  simp only [chunkSt]
  unfold s1Pay dst1
  icases Hr with ⟨HtS1, HtR1, HtS2, HtR2, HpS1, HpR1, HpS2, HpR2, HcR1, HcR2, Hsrc, ⟨%f1, Hdst⟩, Hd2⟩
  iapply (Rounds.wp_send_pointsTo 𝒱₀ ER (agRd m) (c : Thread nD τ) none (c' := (yn c : Thread nD τ)) (src := xCh c r) (dst := oCh1 c r)
      (sS := .dma (s1Q r)) (sem := .dma (r1Q r)) (q := fullShare.right) (fs := xs m c) (fd := f1)
      (κ₁ := KQ (c, s1Q r)) (κ₂ := KQ (yn c, r1Q r)) (r₁ := 0) (r₂ := 0) (d₁ := false) (d₂ := false)
      (by rw [duties_dma]; exact Finset.mem_singleton_self _) (by rw [duties_dma]; exact Finset.mem_singleton_self _)
      () () Nc rfl (amount_dma m c (s1Q r) (by show 1 + r.val ≠ 0; omega) false)
      (amount_dma m (yn c) (r1Q r) (by show 33 + r.val ≠ 0; omega) false)
      (Owe c (r.val + 1) 0) (Owe_peel1 c r 0) (W := W)
      (by rw [payload_s1]; exact .refl)
      (by rw [payload_r1, r1Pay_yn]; exact land_p1 (xs m) c r f1)) $$ [HO HtS1 HtR1 Hsrc Hdst]
  · iframe # ∗
  iintro ⟨HcS1, HO⟩
  iapply Hk
  iexists W
  isplitl [HO]; · iexact HO
  iapply Hback
  iframe # ∗

-- Second-phase copy `r`: the rows received from `yn c` go on to the same rows of `xn c`'s result.
theorem step_E2 (c : Dev nD) (r : Fin 32) (n : Dev nD) (hn : n = xn c) (qs qr : DmaSem sig) (hqs : qs = s2Q r) (hqr : qr = r2Q r)
    {hsc : (oCh2 c r : Memref sig (Dev.tc n : Thread nD τ).2.kind .hbm S64x1024 .f32).view.ref.isScScratch = false}
    {hsrc : (oCh2 c r).view.WordExact} {hdst : (oCh2 c r).view.WordExact}
    {hsem : DmaTarget.Typed .hbm (.dma qr) (.remote (Dev.tc n : Thread nD τ) (oCh2 c r) (.dma qs) hsc)}
    {α : Type} {Q : α → sProp 𝕄} {k : PUnit → Prog (TpuEff nD τ sig (Elt F) Λ₀ .tc) α} :
    iprop(records m KB KQ ∗ levAts L lv ∗ ChunksOwes m c 32 r.val (stOf 32 (r.val + 1) r.val 0 0 0))
      ⊢ iprop((ChunksOwes m c 32 (r.val + 1) (stOf 32 (r.val + 1) (r.val + 1) 0 0 0) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (oCh2 c r) (.remote (Dev.tc n : Thread nD τ) (oCh2 c r) (.dma qs) hsc) (.dma qr) hsrc hdst hsem) k) Q) := by
  subst hn hqs hqr
  unfold ChunksOwes records
  iintro ⟨⟨#HIB, #HIQ, #HRB, #HRQ⟩, #Hl, %W, HO, Hch⟩ Hk
  ihave #HI1 := (cellInv_of_all m KQ c (s2Q r)) $$ HIQ
  ihave #HI2 := (cellInv_of_all m KQ (xn c) (r2Q r)) $$ HIQ
  ihave #HR1 := (reached_of_all (F := F) c (s2Q r)) $$ HRQ
  ihave #HR2 := (reached_of_all (F := F) (xn c) (r2Q r)) $$ HRQ
  ihave Hc := (chunk_acc m c r (stOf 32 (r.val + 1) r.val 0 0 0) (stOf 32 (r.val + 1) (r.val + 1) 0 0 0)
    (fun r' h => stOf_n3_succ r r' h 32 (r.val + 1) 0 0 0)) $$ Hch
  rw [stOf_E2_pre, stOf_E2_post]
  icases Hc with ⟨Hr, Hback⟩
  simp only [chunkSt]
  unfold r1Pay dst2
  icases Hr with ⟨HtS2, HtR2, HpS1, HzR1, HpS2, HpR2, HcR2, HcS1, ⟨%f2, Hdst⟩, Hsrc⟩
  iapply (Rounds.wp_send_pointsTo 𝒱₀ ER (agRd m) (c : Thread nD τ) none (c' := (xn c : Thread nD τ)) (src := oCh2 c r) (dst := oCh2 c r)
      (sS := .dma (s2Q r)) (sem := .dma (r2Q r)) (q := fullShare) (fs := gat m c) (fd := f2)
      (κ₁ := KQ (c, s2Q r)) (κ₂ := KQ (xn c, r2Q r)) (r₁ := 0) (r₂ := 0) (d₁ := false) (d₂ := false)
      (by rw [duties_dma]; exact Finset.mem_singleton_self _) (by rw [duties_dma]; exact Finset.mem_singleton_self _)
      () () Nc rfl (amount_dma m c (s2Q r) (by show 65 + r.val ≠ 0; omega) false)
      (amount_dma m (xn c) (r2Q r) (by show 97 + r.val ≠ 0; omega) false)
      (Owe c 32 (r.val + 1)) (Owe_peel2 c 32 r) (W := W)
      (by rw [payload_s2]; exact .refl)
      (by rw [payload_r2, r2Pay_xn]; exact land_p2 (xs m) c r f2)) $$ [HO HtS2 HtR2 Hsrc Hdst]
  · iframe # ∗
  iintro ⟨HcS2, HO⟩
  iapply Hk
  iexists W
  isplitl [HO]; · iexact HO
  iapply Hback
  iframe # ∗

end Cert.KernelIdeal.AG

end
-- ==== Proof.AG.StepsWait.lean ====
import proofs.«900103_g7700000000000104_dist_ag_v7x_xy2x2_y_m4096_n1024_f32_1_alg».proof.Proof.AG.Inv
import proofs.«900103_g7700000000000104_dist_ag_v7x_xy2x2_y_m4096_n1024_f32_1_alg».proof.Proof.AG.Tables

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (KB : Dev nD → ℕ) (KQ : Dev nD × Fin 129 → ℕ)

omit [FloatOps F] in

private theorem inv_dma (dq : Dev nD × Fin 129) :
    (bigSep Finset.univ fun dq : Dev nD × Fin 129 => (cellInv ER (agRd m) (KQ dq) (dmaCell dq.1 dq.2) : sProp 𝕄))
      ⊢ cellInv ER (agRd m) (KQ dq) (dmaCell dq.1 dq.2) :=
  bigSep_elim (Finset.mem_univ dq)

-- A wait for the whole of a cell's one round: the cell's position and credit leave chunk `r`'s stage, its payload comes back.
private theorem step_wait (c : Dev nD) (r : Fin 32) (q' : DmaSem sig) (hq0 : q'.val ≠ 0)
    (src dst : Memref sig .tc .hbm S64x1024 .f32) {hs : src.view.WordExact} {hd : dst.view.WordExact}
    (a b : ℕ) (st st' : Fin 32 → ℕ) (hst : ∀ r' : Fin 32, r' ≠ r → st' r' = st r')
    (Rest Pay : sProp 𝕄)
    (hpre : chunkSt m c r (st r) ⊢ iprop(atPos ER (dmaCell c q') 0 ∅ 0 ∗ cred (tallyAt (dmaCell c q') () Nc) ∗ Rest))
    (hpost : iprop(semVal (dmaCell c q') 0 ∗ Pay ∗ Rest) ⊢ chunkSt m c r (st' r))
    (hpay : bigSep ((agRd (F := F) m).duties (dmaCell c q') 0 \ ∅) (fun d => (agRd (F := F) m).payload (dmaCell c q') 0 d) = Pay)
    (hmw : (levAts L lv : sProp 𝕄) ⊢ MayWait (c : Thread nD τ) (.dma q') () (Owe c a b))
    {α : Type} {Q : α → sProp 𝕄} {k : PUnit → Prog (TpuEff nD τ sig (Elt F) Λ₀ .tc) α} :
    iprop(records m KB KQ ∗ levAts L lv ∗ ChunksOwes m c a b st)
      ⊢ iprop((ChunksOwes m c a b st' -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q' src dst hs hd) k) Q) := by
  unfold records ChunksOwes
  iintro ⟨⟨-, #HIq, -, -⟩, Hlev, ⟨%W, HO, Hch⟩⟩ Hk
  ihave #HI := (inv_dma m KQ (c, q')) $$ HIq
  ihave Hacc := (chunk_acc m c r st st' hst) $$ Hch
  icases Hacc with ⟨Hst, Hback⟩
  ihave Hp := hpre $$ Hst
  icases Hp with ⟨Hat, Hc, Hrest⟩
  iapply (Rounds.wp_wait_rest_token 𝒱₀ ER (agRd m) (c : Thread nD τ) none (κ := KQ (c, q'))
      (wpE_waitDma2_eq 𝒱₀ (c : Thread nD τ) none Set.univ) (Set.mem_univ _) () (O := Owe c a b) (W := W) (R := 0) (m := 0) (T := ∅)
      (by rw [Nat.zero_add, expect_dma m c q' hq0])) $$ [Hc HO Hat Hlev]
  · isplitr; · iexact HI
    isplitl [Hc]; · iexact Hc
    isplitl [HO]; · iexact HO
    isplitl [Hlev]; · iapply hmw; iexact Hlev
    iexact Hat
  iintro ⟨HO, Hat, -, Hpay⟩
  ihave Hp := (Entails.of_eq hpay) $$ Hpay
  imod (Rounds.cell_close ER (agRd m) (Set.mem_univ (KQ (c, q'))) (fun h => h) (R := 0 + 1) (duties_later m (dmaCell c q'))) $$ [Hat] with Hz
  · isplitr; · iexact HI
    iexact Hat
  iapply Hk
  iexists (insert (SemLoc.dma q', ()) W)
  isplitl [HO]; · iexact HO
  iapply Hback
  iapply hpost
  isplitl [Hz]; · iexact Hz
  isplitl [Hp]; · iexact Hp
  iexact Hrest

private theorem lt_succ_iff_of_ne (r r' : Fin 32) (h : r' ≠ r) : (r'.val < r.val + 1) = (r'.val < r.val) := by
  have : r'.val ≠ r.val := fun e => h (Fin.ext e)
  exact propext (by omega)

theorem step_W1 (c : Dev nD) (r : Fin 32) (q : DmaSem sig) (src dst : Memref sig .tc .hbm S64x1024 .f32) {hs : src.view.WordExact} {hd : dst.view.WordExact} (hq : q = r1Q r) {α : Type} {Q : α → sProp 𝕄} {k : PUnit → Prog (TpuEff nD τ sig (Elt F) Λ₀ .tc) α} :
    iprop(records m KB KQ ∗ levAts L lv ∗ ChunksOwes m c 32 r.val (stOf 32 r.val r.val 0 0 0))
      ⊢ iprop((ChunksOwes m c 32 r.val (stOf 32 (r.val + 1) r.val 0 0 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hs hd) k) Q) := by
  subst hq
  have e0 : stOf 32 r.val r.val 0 0 0 r = 1 := by have := r.isLt; simp [stOf, this]
  have e1 : stOf 32 (r.val + 1) r.val 0 0 0 r = 2 := by have := r.isLt; simp [stOf, this]
  refine step_wait m KB KQ c r (r1Q r) (by show 33 + r.val ≠ 0; omega) src dst 32 r.val _ _
    (fun r' hr' => by simp only [stOf, lt_succ_iff_of_ne r r' hr'])
    iprop(tS2 c r ∗ tR2 c r ∗ pS1 c r ∗ pS2 c r ∗ pR2 c r ∗ cR2 c r ∗ cS1 c r ∗ dst2 c r) (r1Pay m c r)
    ?_ ?_ (rest_r1 m c r) ?_
  · rw [e0]; simp only [chunkSt]
    iintro ⟨H1, H2, H3, H4, H5, H6, H7, H8, H9, H10⟩
    iframe
  · rw [e1]; simp only [chunkSt]
    iintro ⟨Hz, Hp, H1, H2, H3, H5, H6, H8, H9, H10⟩
    iframe
  · exact mayWait_r1 c r r.val

theorem step_W2 (c : Dev nD) (r : Fin 32) (q : DmaSem sig) (src dst : Memref sig .tc .hbm S64x1024 .f32) {hs : src.view.WordExact} {hd : dst.view.WordExact} (hq : q = r2Q r) {α : Type} {Q : α → sProp 𝕄} {k : PUnit → Prog (TpuEff nD τ sig (Elt F) Λ₀ .tc) α} :
    iprop(records m KB KQ ∗ levAts L lv ∗ ChunksOwes m c 32 32 (stOf 32 32 32 r.val r.val r.val))
      ⊢ iprop((ChunksOwes m c 32 32 (stOf 32 32 32 (r.val + 1) r.val r.val) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hs hd) k) Q) := by
  subst hq
  have e0 : stOf 32 32 32 r.val r.val r.val r = 3 := by have := r.isLt; simp [stOf, this]
  have e1 : stOf 32 32 32 (r.val + 1) r.val r.val r = 4 := by have := r.isLt; simp [stOf, this]
  refine step_wait m KB KQ c r (r2Q r) (by show 97 + r.val ≠ 0; omega) src dst 32 32 _ _
    (fun r' hr' => by simp only [stOf, lt_succ_iff_of_ne r r' hr'])
    iprop(pS1 c r ∗ zR1 c r ∗ pS2 c r ∗ cS1 c r ∗ cS2 c r) (r2Pay m c r)
    ?_ ?_ (rest_r2 m c r) (mayWait_done c _)
  · rw [e0]; simp only [chunkSt]
    iintro ⟨H1, H2, H3, H4, H5, H6, H7⟩
    iframe
  · rw [e1]; simp only [chunkSt]
    iintro ⟨Hz, Hp, H1, H2, H3, H6, H7⟩
    iframe

theorem step_WS1 (c : Dev nD) (r : Fin 32) (q : DmaSem sig) (src dst : Memref sig .tc .hbm S64x1024 .f32) {hs : src.view.WordExact} {hd : dst.view.WordExact} (hq : q = s1Q r) {α : Type} {Q : α → sProp 𝕄} {k : PUnit → Prog (TpuEff nD τ sig (Elt F) Λ₀ .tc) α} :
    iprop(records m KB KQ ∗ levAts L lv ∗ ChunksOwes m c 32 32 (stOf 32 32 32 (r.val + 1) r.val r.val))
      ⊢ iprop((ChunksOwes m c 32 32 (stOf 32 32 32 (r.val + 1) (r.val + 1) r.val) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hs hd) k) Q) := by
  subst hq
  have e0 : stOf 32 32 32 (r.val + 1) r.val r.val r = 4 := by have := r.isLt; simp [stOf, this]
  have e1 : stOf 32 32 32 (r.val + 1) (r.val + 1) r.val r = 5 := by have := r.isLt; simp [stOf, this]
  refine step_wait m KB KQ c r (s1Q r) (by show 1 + r.val ≠ 0; omega) src dst 32 32 _ _
    (fun r' hr' => by simp only [stOf, lt_succ_iff_of_ne r r' hr'])
    iprop(zR1 c r ∗ pS2 c r ∗ zR2 c r ∗ cS2 c r ∗ r2Pay m c r) (s1Pay m c r)
    ?_ ?_ (rest_s1 m c r) (mayWait_done c _)
  · rw [e0]; simp only [chunkSt]
    iintro ⟨H1, H2, H3, H4, H5, H6, H7⟩
    iframe
  · rw [e1]; simp only [chunkSt]
    iintro ⟨Hz, Hp, H2, H3, H4, H6, H7⟩
    iframe

theorem step_WS2 (c : Dev nD) (r : Fin 32) (q : DmaSem sig) (src dst : Memref sig .tc .hbm S64x1024 .f32) {hs : src.view.WordExact} {hd : dst.view.WordExact} (hq : q = s2Q r) {α : Type} {Q : α → sProp 𝕄} {k : PUnit → Prog (TpuEff nD τ sig (Elt F) Λ₀ .tc) α} :
    iprop(records m KB KQ ∗ levAts L lv ∗ ChunksOwes m c 32 32 (stOf 32 32 32 (r.val + 1) (r.val + 1) r.val))
      ⊢ iprop((ChunksOwes m c 32 32 (stOf 32 32 32 (r.val + 1) (r.val + 1) (r.val + 1)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hs hd) k) Q) := by
  subst hq
  have e0 : stOf 32 32 32 (r.val + 1) (r.val + 1) r.val r = 5 := by have := r.isLt; simp [stOf, this]
  have e1 : stOf 32 32 32 (r.val + 1) (r.val + 1) (r.val + 1) r = 6 := by have := r.isLt; simp [stOf, this]
  refine step_wait m KB KQ c r (s2Q r) (by show 65 + r.val ≠ 0; omega) src dst 32 32 _ _
    (fun r' hr' => by simp only [stOf, lt_succ_iff_of_ne r r' hr'])
    iprop(zS1 c r ∗ zR1 c r ∗ zR2 c r ∗ r2Pay m c r ∗ s1Pay m c r) (r1Pay m c r)
    ?_ ?_ (rest_s2 m c r) (mayWait_done c _)
  · rw [e0]; simp only [chunkSt]
    iintro ⟨H1, H2, H3, H4, H5, H6, H7⟩
    iframe
  · rw [e1]; simp only [chunkSt]
    iintro ⟨Hz, Hp, H1, H2, H4, H6, H7⟩
    iframe

end Cert.KernelIdeal.AG

end
-- ==== Proof.AG.Dma.lean ====
import proofs.«900103_g7700000000000104_dist_ag_v7x_xy2x2_y_m4096_n1024_f32_1_alg».proof.Proof.AG.Tables

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in

theorem bigSep_fin_add (a b : ℕ) (Φ : Fin (a + b) → sProp 𝕄) :
    bigSep Finset.univ Φ
      = iprop((bigSep Finset.univ fun i : Fin a => Φ (Fin.castAdd b i)) ∗ (bigSep Finset.univ fun j : Fin b => Φ (Fin.natAdd a j))) := by
  rw [bigSep_univ_equiv finSumFinEquiv Φ, bigSep_univ_sum]
  simp only [finSumFinEquiv_apply_left, finSumFinEquiv_apply_right]
  rfl

omit [FloatOps F] in

theorem bigSep_fin5 (Ψ : Fin (1 + (32 + (32 + (32 + 32)))) → sProp 𝕄) :
    bigSep Finset.univ Ψ
      = iprop(Ψ (Fin.castAdd (32 + (32 + (32 + 32))) (0 : Fin 1))
          ∗ (bigSep Finset.univ fun r : Fin 32 => Ψ (Fin.natAdd 1 (Fin.castAdd (32 + (32 + 32)) r)))
          ∗ (bigSep Finset.univ fun r : Fin 32 => Ψ (Fin.natAdd 1 (Fin.natAdd 32 (Fin.castAdd (32 + 32) r))))
          ∗ (bigSep Finset.univ fun r : Fin 32 => Ψ (Fin.natAdd 1 (Fin.natAdd 32 (Fin.natAdd 32 (Fin.castAdd 32 r)))))
          ∗ (bigSep Finset.univ fun r : Fin 32 => Ψ (Fin.natAdd 1 (Fin.natAdd 32 (Fin.natAdd 32 (Fin.natAdd 32 r)))))) := by
  rw [bigSep_fin_add 1 (32 + (32 + (32 + 32))) Ψ,
    bigSep_fin_add 32 (32 + (32 + 32)) (fun j => Ψ (Fin.natAdd 1 j)),
    bigSep_fin_add 32 (32 + 32) (fun j => Ψ (Fin.natAdd 1 (Fin.natAdd 32 j))),
    bigSep_fin_add 32 32 (fun j => Ψ (Fin.natAdd 1 (Fin.natAdd 32 (Fin.natAdd 32 j)))),
    bigSep_univ_of_subsingleton (0 : Fin 1)]

omit [FloatOps F] in

theorem bigSep_dma (Φ : Fin 129 → sProp 𝕄) :
    bigSep Finset.univ Φ
      = iprop(Φ locQ ∗ (bigSep Finset.univ fun r : Fin 32 => Φ (s1Q r)) ∗ (bigSep Finset.univ fun r : Fin 32 => Φ (r1Q r))
          ∗ (bigSep Finset.univ fun r : Fin 32 => Φ (s2Q r)) ∗ (bigSep Finset.univ fun r : Fin 32 => Φ (r2Q r))) := by
  have h0 : Φ (Fin.castAdd (32 + (32 + (32 + 32))) (0 : Fin 1)) = Φ locQ := congrArg Φ (Fin.ext rfl)
  have h1 : (fun r : Fin 32 => Φ (Fin.natAdd 1 (Fin.castAdd (32 + (32 + 32)) r))) = fun r : Fin 32 => Φ (s1Q r) :=
    funext fun r => congrArg Φ (Fin.ext (by show 1 + r.val = 1 + r.val; rfl))
  have h2 : (fun r : Fin 32 => Φ (Fin.natAdd 1 (Fin.natAdd 32 (Fin.castAdd (32 + 32) r)))) = fun r : Fin 32 => Φ (r1Q r) :=
    funext fun r => congrArg Φ (Fin.ext (by show 1 + (32 + r.val) = 33 + r.val; omega))
  have h3 : (fun r : Fin 32 => Φ (Fin.natAdd 1 (Fin.natAdd 32 (Fin.natAdd 32 (Fin.castAdd 32 r))))) = fun r : Fin 32 => Φ (s2Q r) :=
    funext fun r => congrArg Φ (Fin.ext (by show 1 + (32 + (32 + r.val)) = 65 + r.val; omega))
  have h4 : (fun r : Fin 32 => Φ (Fin.natAdd 1 (Fin.natAdd 32 (Fin.natAdd 32 (Fin.natAdd 32 r))))) = fun r : Fin 32 => Φ (r2Q r) :=
    funext fun r => congrArg Φ (Fin.ext (by show 1 + (32 + (32 + (32 + r.val))) = 97 + r.val; omega))
  have key := bigSep_fin5 (F := F) Φ
  rw [h0, h1, h2, h3, h4] at key
  exact key

end Cert.KernelIdeal.AG

end
-- ==== Proof.AG.Glue.lean ====
import proofs.«900103_g7700000000000104_dist_ag_v7x_xy2x2_y_m4096_n1024_f32_1_alg».proof.Proof.AG.Inv
import proofs.«900103_g7700000000000104_dist_ag_v7x_xy2x2_y_m4096_n1024_f32_1_alg».proof.Proof.AG.Tables
import proofs.«900103_g7700000000000104_dist_ag_v7x_xy2x2_y_m4096_n1024_f32_1_alg».proof.Proof.AG.Dma
import proofs.«900103_g7700000000000104_dist_ag_v7x_xy2x2_y_m4096_n1024_f32_1_alg».proof.Proof.AG.Regions

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def preChunk (c : Dev nD) (r : Fin 32) : sProp 𝕄 :=
  iprop(tS1 c r ∗ tR1 c r ∗ tS2 c r ∗ tR2 c r ∗ pS1 c r ∗ pR1 c r ∗ pS2 c r ∗ pR2 c r ∗ cR1 c r ∗ cR2 c r ∗ s1Pay m c r)

theorem pre_zip (c : Dev nD) :
    iprop((bigSep Finset.univ fun r : Fin 32 => chunkToks c r) ∗ (bigSep Finset.univ fun r : Fin 32 => pS1 c r)
        ∗ (bigSep Finset.univ fun r : Fin 32 => pR1 c r) ∗ (bigSep Finset.univ fun r : Fin 32 => pS2 c r)
        ∗ (bigSep Finset.univ fun r : Fin 32 => pR2 c r) ∗ (bigSep Finset.univ fun r : Fin 32 => iprop(cR1 c r ∗ cR2 c r))
        ∗ (bigSep Finset.univ fun r : Fin 32 => s1Pay m c r))
      ⊢ (bigSep Finset.univ fun r : Fin 32 => preChunk m c r : sProp 𝕄) := by
  rw [← bigSep_sep', ← bigSep_sep', ← bigSep_sep', ← bigSep_sep', ← bigSep_sep', ← bigSep_sep']
  refine bigSep_mono fun r _ => ?_
  show (_ : sProp 𝕄) ⊢ _
  unfold chunkToks preChunk
  iintro ⟨⟨H1, H2, H3, H4⟩, H5, H6, H7, H8, ⟨H9, H10⟩, H11⟩
  iframe

theorem bigSep_ex_intro {ℓ : Fin 32 → Loc nD τ sig} (S : (r : Fin 32) → Finset (Idx (ℓ r))) (q : PosShare TreeShare)
    (f : (r : Fin 32) → Buf (Elt F) (ℓ r)) :
    (bigSep Finset.univ fun r : Fin 32 => (ℓ r ↦[S r]{q} f r : sProp 𝕄))
      ⊢ bigSep Finset.univ fun r : Fin 32 => iprop(∃ g, ℓ r ↦[S r]{q} g) :=
  bigSep_mono fun r _ => show (_ : sProp 𝕄) ⊢ _ from by iintro H; iexists (f r); iexact H

theorem glue_pre (KB : Dev nD → ℕ) (KQ : Dev nD × Fin 129 → ℕ) (c : Dev nD) :
    iprop(ghost m KB KQ c ∗ launchCreds c ∗ (((c : Thread nD τ).loc main_arg0) ↦{fullShare} xs m c) ∗ (∃ f, (((c : Thread nD τ).loc main_v1) ↦{fullShare} f)))
      ⊢ iprop(records m KB KQ
          ∗ (atPos ER (barCell c) 0 ∅ 0 ∗ cred (tallyAt (barCell c) () 2) ∗ dutyTok ER (barCell (yn c)) 0 false ∗ dutyTok ER (barCell (xn c)) 0 true)
          ∗ (atPos ER (locCell c) 0 ∅ 0 ∗ dutyTok ER (locCell c) 0 false
              ∗ ((xM : Memref sig .tc .hbm S4096x1024 .f32).view.loc (c : Thread nD τ) ↦[(xM : Memref sig .tc .hbm S4096x1024 .f32).view.set]{fullShare.left} xs m c)
              ∗ (∃ f, (oLoc c).view.loc (c : Thread nD τ) ↦[(oLoc c).view.set]{fullShare} f))
          ∗ (bigSep Finset.univ fun r : Fin 32 => iprop(∃ f, (oCh2 c r).view.loc (c : Thread nD τ) ↦[(oCh2 c r).view.set]{fullShare} f))
          ∗ (bigSep Finset.univ fun r : Fin 32 => iprop(∃ f, (oCh2 (xn c) r).view.loc (c : Thread nD τ) ↦[(oCh2 (xn c) r).view.set]{fullShare} f))
          ∗ (((c : Thread nD τ).loc main_arg0) ↦[xRest c]{fullShare.right} xs m c)
          ∗ bigSep Finset.univ fun r : Fin 32 => preChunk m c r) := by
  unfold ghost positions payToks launchCreds
  iintro ⟨⟨Hrec, ⟨Hpb, Hpq⟩, Htby, Htbx, Htl, Htc⟩, ⟨Hcb, Hcr⟩, Hx, ⟨%f, Ho⟩⟩
  ihave Hx' := (x_split c (xs m c)) $$ Hx
  icases Hx' with ⟨HxL, HxC, HxR⟩
  ihave Ho' := (out_split c f) $$ Ho
  icases Ho' with ⟨HoL, HoA, HoB⟩
  ihave Hpq' := (Entails.of_eq (bigSep_dma (F := F) (fun q => atPos ER (dmaCell c q) 0 ∅ 0))) $$ Hpq
  icases Hpq' with ⟨HpL, HpS1, HpR1, HpS2, HpR2⟩
  isplitl [Hrec]; · iexact Hrec
  isplitl [Hpb Hcb Htby Htbx]
  · isplitl [Hpb]; · iexact Hpb
    isplitl [Hcb]; · iexact Hcb
    isplitl [Htby]; · iexact Htby
    iexact Htbx
  isplitl [HpL Htl HxL HoL]
  · isplitl [HpL]; · iexact HpL
    isplitl [Htl]; · iexact Htl
    isplitl [HxL]; · iexact HxL
    iexists f; iexact HoL
  isplitl [HoA]
  · iapply (bigSep_ex_intro (F := F) (fun r : Fin 32 => (oCh2 c r).view.set) fullShare (fun _ => f)) $$ HoA
  isplitl [HoB]
  · iapply (bigSep_ex_intro (F := F) (fun r : Fin 32 => (oCh2 (xn c) r).view.set) fullShare (fun _ => f)) $$ HoB
  isplitl [HxR]; · iexact HxR
  iapply (pre_zip m c)
  isplitl [Htc]; · iexact Htc
  isplitl [HpS1]; · iexact HpS1
  isplitl [HpR1]; · iexact HpR1
  isplitl [HpS2]; · iexact HpS2
  isplitl [HpR2]; · iexact HpR2
  isplitl [Hcr]; · iexact Hcr
  iexact HxC

theorem glue_chunks (c : Dev nD) :
    iprop((bigSep Finset.univ fun r : Fin 32 => preChunk m c r) ∗ barPayY c ∗ barPayX c)
      ⊢ bigSep Finset.univ fun r : Fin 32 => chunkSt m c r (stOf 0 0 0 0 0 0 r) := by
  have hst : ∀ r : Fin 32, stOf 0 0 0 0 0 0 r = 0 := fun r => by simp [stOf]
  have hY : barPayY (F := F) c = bigSep Finset.univ fun r : Fin 32 => dst1 c r := rfl
  have hX : barPayX (F := F) c = bigSep Finset.univ fun r : Fin 32 => dst2 c r := rfl
  rw [hY, hX, ← bigSep_sep', ← bigSep_sep']
  refine bigSep_mono fun r _ => ?_
  rw [hst r]
  show iprop(preChunk m c r ∗ dst1 c r ∗ dst2 c r)
    ⊢ iprop(tS1 c r ∗ tR1 c r ∗ tS2 c r ∗ tR2 c r ∗ pS1 c r ∗ pR1 c r ∗ pS2 c r ∗ pR2 c r ∗ cR1 c r ∗ cR2 c r ∗ s1Pay m c r ∗ dst1 c r ∗ dst2 c r)
  unfold preChunk
  iintro ⟨⟨H1, H2, H3, H4, H5, H6, H7, H8, H9, H10, H11⟩, H12, H13⟩
  iframe

theorem glue_post (c : Dev nD) :
    iprop((bigSep Finset.univ fun r : Fin 32 => chunkSt m c r (stOf 32 32 32 32 32 32 r)) ∗ locPay m c ∗ semVal (locCell c) 0
        ∗ (((c : Thread nD τ).loc main_arg0) ↦[xRest c]{fullShare.right} xs m c))
      ⊢ Φ₁ m c := by
  have hst : ∀ r : Fin 32, stOf 32 32 32 32 32 32 r = 6 := fun r => by have := r.isLt; simp [stOf, this]
  have e1 : (fun r : Fin 32 => chunkSt m c r (stOf 32 32 32 32 32 32 r))
      = fun r : Fin 32 => iprop(zS1 c r ∗ zR1 c r ∗ zS2 c r ∗ zR2 c r ∗ r2Pay m c r ∗ s1Pay m c r ∗ r1Pay m c r) :=
    funext fun r => by rw [hst r]; rfl
  rw [e1, bigSep_sep', bigSep_sep', bigSep_sep', bigSep_sep', bigSep_sep', bigSep_sep']
  unfold Φ₁ locPay
  rw [x_eq c (xs m c), out_eq c (gat m c), bigSep_dma (F := F) (fun q => semVal (dmaCell c q) 0)]
  unfold r2Pay s1Pay r1Pay
  iintro ⟨⟨H1, H2, H3, H4, H5, H6, H7⟩, ⟨H8, H9⟩, H10, H11⟩
  iframe

end Cert.KernelIdeal.AG

end
-- ==== Proof.AG.Body.lean ====
import proofs.«900103_g7700000000000104_dist_ag_v7x_xy2x2_y_m4096_n1024_f32_1_alg».proof.Proof.AG.Inv
import proofs.«900103_g7700000000000104_dist_ag_v7x_xy2x2_y_m4096_n1024_f32_1_alg».proof.Proof.AG.Tables
import proofs.«900103_g7700000000000104_dist_ag_v7x_xy2x2_y_m4096_n1024_f32_1_alg».proof.Proof.AG.StepsEnds
import proofs.«900103_g7700000000000104_dist_ag_v7x_xy2x2_y_m4096_n1024_f32_1_alg».proof.Proof.AG.StepsSend
import proofs.«900103_g7700000000000104_dist_ag_v7x_xy2x2_y_m4096_n1024_f32_1_alg».proof.Proof.AG.StepsWait
import proofs.«900103_g7700000000000104_dist_ag_v7x_xy2x2_y_m4096_n1024_f32_1_alg».proof.Proof.AG.Glue
import proofs.«900103_g7700000000000104_dist_ag_v7x_xy2x2_y_m4096_n1024_f32_1_alg».proof.Proof.Gen.KernelIdeal.Skeleton

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

-- A rule for one operation, stated on the chunks' bookkeeping alone, acts under the persistent records and any frame.
theorem lift {m : (ℓ : Loc nD τ sig) → Buf (Elt F) ℓ} {KB : Dev nD → ℕ} {KQ : Dev nD × Fin 129 → ℕ} {c : Dev nD} {P P' R : sProp 𝕄} {α : Type}
    {p p' : Prog (TpuEff nD τ sig (Elt F) Λ₀ .tc) α} {Q : α → sProp 𝕄}
    (hs : iprop(records m KB KQ ∗ levAts L lv ∗ P) ⊢ iprop((P' -∗ wp frame (wpE (defs₀ (F := F)) 𝒱₀ (c : Thread nD τ) none) Set.univ p' Q) -∗ wp frame (wpE (defs₀ (F := F)) 𝒱₀ (c : Thread nD τ) none) Set.univ p Q))
    (h : iprop(records m KB KQ ∗ levAts L lv ∗ P' ∗ R) ⊢ wp frame (wpE (defs₀ (F := F)) 𝒱₀ (c : Thread nD τ) none) Set.univ p' Q) :
    iprop(records m KB KQ ∗ levAts L lv ∗ P ∗ R) ⊢ wp frame (wpE (defs₀ (F := F)) 𝒱₀ (c : Thread nD τ) none) Set.univ p Q := by
  iintro ⟨#Hr, #Hl, H, HR⟩
  iapply hs $$ [H]
  · iframe # ∗
  iintro H
  iapply h
  iframe # ∗

variable (m : (ℓ : Loc nD τ sig) → Buf (Elt F) ℓ) (KB : Dev nD → ℕ) (KQ : Dev nD × Fin 129 → ℕ) (c : Dev nD)

-- A part of the body at the launch's operands: the two whole buffers and the kernel's five semaphore arrays.
abbrev atOps.{u} {β : Sort u} (f : (a : Memref sig .tc .hbm S4096x1024 .f32) → a.IsWhole → (b : Memref sig .tc .hbm S8192x1024 .f32) → b.IsWhole →
    DmaSems sig S_ → DmaSems sig S32 → DmaSems sig S32 → DmaSems sig S32 → DmaSems sig S32 → β) : β :=
  f xM (Memref.isWhole_whole _) oM (Memref.isWhole_whole _) cc0_scratch0 cc0_scratch1 cc0_scratch2 cc0_scratch3 cc0_scratch4

def side : sProp 𝕄 :=
  iprop(cred (tallyAt (locCell c) () Nl) ∗ atPos ER (locCell c) 0 ∅ 0 ∗ (((c : Thread nD τ).loc main_arg0) ↦[xRest c]{fullShare.right} xs m c))

def bodyPre (W : Waits sig Unit) : sProp 𝕄 :=
  iprop(records m KB KQ ∗ levAts L lv ∗ owes (c : Thread nD τ) (O₀ c) W
    ∗ (atPos ER (barCell c) 0 ∅ 0 ∗ cred (tallyAt (barCell c) () 2) ∗ dutyTok ER (barCell (yn c)) 0 false ∗ dutyTok ER (barCell (xn c)) 0 true)
    ∗ (atPos ER (locCell c) 0 ∅ 0 ∗ dutyTok ER (locCell c) 0 false
        ∗ ((xM : Memref sig .tc .hbm S4096x1024 .f32).view.loc (c : Thread nD τ) ↦[(xM : Memref sig .tc .hbm S4096x1024 .f32).view.set]{fullShare.left} xs m c)
        ∗ (∃ f, (oLoc c).view.loc (c : Thread nD τ) ↦[(oLoc c).view.set]{fullShare} f))
    ∗ (bigSep Finset.univ fun r : Fin 32 => iprop(∃ f, (oCh2 c r).view.loc (c : Thread nD τ) ↦[(oCh2 c r).view.set]{fullShare} f))
    ∗ (bigSep Finset.univ fun r : Fin 32 => iprop(∃ f, (oCh2 (xn c) r).view.loc (c : Thread nD τ) ↦[(oCh2 (xn c) r).view.set]{fullShare} f))
    ∗ (((c : Thread nD τ).loc main_arg0) ↦[xRest c]{fullShare.right} xs m c)
    ∗ bigSep Finset.univ fun r : Fin 32 => preChunk m c r)

-- The three loops' bookkeeping by six counters: first-phase copies issued, landings awaited, chunks forwarded, then chunks through each of their three closing waits.
def Hd (n1 n2 n3 n4 n5 n6 : ℕ) (R : sProp 𝕄) : sProp 𝕄 :=
  iprop(records m KB KQ ∗ levAts L lv ∗ ChunksOwes m c n1 n3 (stOf n1 n2 n3 n4 n5 n6) ∗ R)

-- The program `p` takes the bookkeeping from one state of the counters to another, under any frame.
def Runs (n1 n2 n3 n4 n5 n6 k1 k2 k3 k4 k5 k6 : ℕ) {α : Type} (p : Prog (TpuEff nD τ sig (Elt F) Λ₀ .tc) α) : Prop :=
  ∀ (R : sProp 𝕄) (Q : α → sProp 𝕄), (∀ ret, Hd m KB KQ c k1 k2 k3 k4 k5 k6 R ⊢ Q ret) →
    Hd m KB KQ c n1 n2 n3 n4 n5 n6 R ⊢ wp frame (wpE (defs₀ (F := F)) 𝒱₀ (c : Thread nD τ) none) Set.univ p Q

-- Sequencing: what `p` leaves of the counters is what the continuation starts from.
variable {m KB KQ c} in
theorem Runs.seq {n1 n2 n3 n4 n5 n6 k1 k2 k3 k4 k5 k6 : ℕ} {α β : Type} {p : Prog (TpuEff nD τ sig (Elt F) Λ₀ .tc) α}
    {f : α → Prog (TpuEff nD τ sig (Elt F) Λ₀ .tc) β} {R : sProp 𝕄} {Q : β → sProp 𝕄} (hp : Runs m KB KQ c n1 n2 n3 n4 n5 n6 k1 k2 k3 k4 k5 k6 p)
    (hf : ∀ x, Hd m KB KQ c k1 k2 k3 k4 k5 k6 R ⊢ wp frame (wpE (defs₀ (F := F)) 𝒱₀ (c : Thread nD τ) none) Set.univ (f x) Q) :
    Hd m KB KQ c n1 n2 n3 n4 n5 n6 R ⊢ wp frame (wpE (defs₀ (F := F)) 𝒱₀ (c : Thread nD τ) none) Set.univ (p >>= f) Q := by
  rw [wp_bind]; exact hp R _ hf

theorem part_1 (W : Waits sig Unit)
    (Q : (Σ' (d0 : Dev nD) (v2 : BitVec 32) (v5 : BitVec 32), BitVec 32) → sProp 𝕄)
    (h : ∀ v2 v5 v23, Hd m KB KQ c 0 0 0 0 0 0 (side m c) ⊢ Q ⟨c, v2, v5, v23⟩) :
    bodyPre m KB KQ c W
      ⊢ wp frame (wpE (defs₀ (F := F)) 𝒱₀ (c : Thread nD τ) none) Set.univ
          (atOps (k0_part1 (F := F))) Q := by
  unfold atOps; rw [k0_part1_eq_skeleton]; unfold k0_part1_skel bodyPre; unfold Hd at h
  simp only [semSignalWord, semWaitWord, Prog.lift, Prog.bind_op, Prog.bind_ret, Prog.pure_eq_ret, wp_deviceId]
  iintro ⟨#Hr, #Hl, HO, ⟨Hpb, Hcb, Hty, Htx⟩, ⟨Hpl, Htl, Hxl, Hol⟩, Hy, Hx, Hrest, Hpre⟩
  iapply (step_sig1 m KB KQ c _ (dev_eq_yn c _ _ (k0_dev1_eq c)) _ rfl W) $$ [HO Hty Hy]
  · iframe # ∗
  iintro HO
  iapply (step_sig2 m KB KQ c _ (dev_eq_xn c _ _ (k0_dev2_eq c)) _ rfl W) $$ [HO Htx Hx]
  · iframe # ∗
  iintro HO
  iapply (step_barwait m KB KQ c _ rfl W) $$ [Hcb HO Hpb]
  · iframe # ∗
  iintro ⟨HO, HpY, HpX⟩
  iapply (step_locenq m KB KQ c _ rfl) $$ [Htl Hxl Hol]
  · iframe # ∗
  iintro Hcl
  iapply (le_wp_ret _ _ _ _ _)
  iapply (h _ _ _)
  isplitr; · iexact Hr
  isplitr; · iexact Hl
  isplitl [HO Hpre HpY HpX]
  · unfold ChunksOwes
    iexists _
    isplitl [HO]; · iexact HO
    iapply (glue_chunks m c)
    iframe # ∗
  unfold side
  iframe # ∗

theorem part_2 (v2 v5 : BitVec 32) :
    Runs m KB KQ c 0 0 0 0 0 0 2 0 0 0 0 0 (atOps (k0_part2 (F := F)) c v2 v5) := fun R Q h => by
  unfold atOps; rw [k0_part2_eq_skeleton]; unfold k0_part2_skel
  simp only [Prog.lift, Prog.bind_op, Prog.bind_ret, Prog.pure_eq_ret]
  refine lift (step_E1 m KB KQ c 0 _ (dev_eq_yn c _ _ (k0_dev3_eq c)) _ _ rfl rfl) ?_
  refine lift (step_E1 m KB KQ c 1 _ (dev_eq_yn c _ _ (k0_dev4_eq c)) _ _ rfl rfl) ?_
  exact (h _).trans (le_wp_ret _ _ _ _ _)

theorem part_3 (v2 v5 : BitVec 32) :
    Runs m KB KQ c 2 0 0 0 0 0 5 0 0 0 0 0 (atOps (k0_part3 (F := F)) c v2 v5) := fun R Q h => by
  unfold atOps; rw [k0_part3_eq_skeleton]; unfold k0_part3_skel
  simp only [Prog.lift, Prog.bind_op, Prog.bind_ret, Prog.pure_eq_ret]
  refine lift (step_E1 m KB KQ c 2 _ (dev_eq_yn c _ _ (k0_dev5_eq c)) _ _ rfl rfl) ?_
  refine lift (step_E1 m KB KQ c 3 _ (dev_eq_yn c _ _ (k0_dev6_eq c)) _ _ rfl rfl) ?_
  refine lift (step_E1 m KB KQ c 4 _ (dev_eq_yn c _ _ (k0_dev7_eq c)) _ _ rfl rfl) ?_
  exact (h _).trans (le_wp_ret _ _ _ _ _)

theorem part_4 (v2 v5 v94 c320_i32 : BitVec 32) :
    Runs m KB KQ c 5 0 0 0 0 0 7 0 0 0 0 0 (atOps (k0_part4 (F := F)) c v2 v5 v94 c320_i32) := fun R Q h => by
  unfold atOps; rw [k0_part4_eq_skeleton]; unfold k0_part4_skel
  simp only [Prog.lift, Prog.bind_op, Prog.bind_ret, Prog.pure_eq_ret]
  refine lift (step_E1 m KB KQ c 5 _ (dev_eq_yn c _ _ (k0_dev8_eq c)) _ _ rfl rfl) ?_
  refine lift (step_E1 m KB KQ c 6 _ (dev_eq_yn c _ _ (k0_dev9_eq c)) _ _ rfl rfl) ?_
  exact (h _).trans (le_wp_ret _ _ _ _ _)

theorem part_5 (v2 v5 v128 : BitVec 32) :
    Runs m KB KQ c 7 0 0 0 0 0 9 0 0 0 0 0 (atOps (k0_part5 (F := F)) c v2 v5 v128) := fun R Q h => by
  unfold atOps; rw [k0_part5_eq_skeleton]; unfold k0_part5_skel
  simp only [Prog.lift, Prog.bind_op, Prog.bind_ret, Prog.pure_eq_ret]
  refine lift (step_E1 m KB KQ c 7 _ (dev_eq_yn c _ _ (k0_dev10_eq c)) _ _ rfl rfl) ?_
  refine lift (step_E1 m KB KQ c 8 _ (dev_eq_yn c _ _ (k0_dev11_eq c)) _ _ rfl rfl) ?_
  exact (h _).trans (le_wp_ret _ _ _ _ _)

theorem part_6 (v2 v5 v158 v160 : BitVec 32) :
    Runs m KB KQ c 9 0 0 0 0 0 11 0 0 0 0 0 (atOps (k0_part6 (F := F)) c v2 v5 v158 v160) := fun R Q h => by
  unfold atOps; rw [k0_part6_eq_skeleton]; unfold k0_part6_skel
  simp only [Prog.lift, Prog.bind_op, Prog.bind_ret, Prog.pure_eq_ret]
  refine lift (step_E1 m KB KQ c 9 _ (dev_eq_yn c _ _ (k0_dev12_eq c)) _ _ rfl rfl) ?_
  refine lift (step_E1 m KB KQ c 10 _ (dev_eq_yn c _ _ (k0_dev13_eq c)) _ _ rfl rfl) ?_
  exact (h _).trans (le_wp_ret _ _ _ _ _)

theorem part_7 (v2 v5 : BitVec 32) :
    Runs m KB KQ c 11 0 0 0 0 0 14 0 0 0 0 0 (atOps (k0_part7 (F := F)) c v2 v5) := fun R Q h => by
  unfold atOps; rw [k0_part7_eq_skeleton]; unfold k0_part7_skel
  simp only [Prog.lift, Prog.bind_op, Prog.bind_ret, Prog.pure_eq_ret]
  refine lift (step_E1 m KB KQ c 11 _ (dev_eq_yn c _ _ (k0_dev14_eq c)) _ _ rfl rfl) ?_
  refine lift (step_E1 m KB KQ c 12 _ (dev_eq_yn c _ _ (k0_dev15_eq c)) _ _ rfl rfl) ?_
  refine lift (step_E1 m KB KQ c 13 _ (dev_eq_yn c _ _ (k0_dev16_eq c)) _ _ rfl rfl) ?_
  exact (h _).trans (le_wp_ret _ _ _ _ _)

theorem part_8 (v2 v5 : BitVec 32) :
    Runs m KB KQ c 14 0 0 0 0 0 16 0 0 0 0 0 (atOps (k0_part8 (F := F)) c v2 v5) := fun R Q h => by
  unfold atOps; rw [k0_part8_eq_skeleton]; unfold k0_part8_skel
  simp only [Prog.lift, Prog.bind_op, Prog.bind_ret, Prog.pure_eq_ret]
  refine lift (step_E1 m KB KQ c 14 _ (dev_eq_yn c _ _ (k0_dev17_eq c)) _ _ rfl rfl) ?_
  refine lift (step_E1 m KB KQ c 15 _ (dev_eq_yn c _ _ (k0_dev18_eq c)) _ _ rfl rfl) ?_
  exact (h _).trans (le_wp_ret _ _ _ _ _)

theorem part_9 (v2 v5 v260 v261 : BitVec 32) :
    Runs m KB KQ c 16 0 0 0 0 0 18 0 0 0 0 0 (atOps (k0_part9 (F := F)) c v2 v5 v260 v261) := fun R Q h => by
  unfold atOps; rw [k0_part9_eq_skeleton]; unfold k0_part9_skel
  simp only [Prog.lift, Prog.bind_op, Prog.bind_ret, Prog.pure_eq_ret]
  refine lift (step_E1 m KB KQ c 16 _ (dev_eq_yn c _ _ (k0_dev19_eq c)) _ _ rfl rfl) ?_
  refine lift (step_E1 m KB KQ c 17 _ (dev_eq_yn c _ _ (k0_dev20_eq c)) _ _ rfl rfl) ?_
  exact (h _).trans (le_wp_ret _ _ _ _ _)

theorem part_10 (v2 v5 v293 c2_i32_182 : BitVec 32) :
    Runs m KB KQ c 18 0 0 0 0 0 20 0 0 0 0 0 (atOps (k0_part10 (F := F)) c v2 v5 v293 c2_i32_182) := fun R Q h => by
  unfold atOps; rw [k0_part10_eq_skeleton]; unfold k0_part10_skel
  simp only [Prog.lift, Prog.bind_op, Prog.bind_ret, Prog.pure_eq_ret]
  refine lift (step_E1 m KB KQ c 18 _ (dev_eq_yn c _ _ (k0_dev21_eq c)) _ _ rfl rfl) ?_
  refine lift (step_E1 m KB KQ c 19 _ (dev_eq_yn c _ _ (k0_dev22_eq c)) _ _ rfl rfl) ?_
  exact (h _).trans (le_wp_ret _ _ _ _ _)

theorem part_11 (v2 v5 : BitVec 32) :
    Runs m KB KQ c 20 0 0 0 0 0 22 0 0 0 0 0 (atOps (k0_part11 (F := F)) c v2 v5) := fun R Q h => by
  unfold atOps; rw [k0_part11_eq_skeleton]; unfold k0_part11_skel
  simp only [Prog.lift, Prog.bind_op, Prog.bind_ret, Prog.pure_eq_ret]
  refine lift (step_E1 m KB KQ c 20 _ (dev_eq_yn c _ _ (k0_dev23_eq c)) _ _ rfl rfl) ?_
  refine lift (step_E1 m KB KQ c 21 _ (dev_eq_yn c _ _ (k0_dev24_eq c)) _ _ rfl rfl) ?_
  exact (h _).trans (le_wp_ret _ _ _ _ _)

theorem part_12 (v2 v5 : BitVec 32) :
    Runs m KB KQ c 22 0 0 0 0 0 25 0 0 0 0 0 (atOps (k0_part12 (F := F)) c v2 v5) := fun R Q h => by
  unfold atOps; rw [k0_part12_eq_skeleton]; unfold k0_part12_skel
  simp only [Prog.lift, Prog.bind_op, Prog.bind_ret, Prog.pure_eq_ret]
  refine lift (step_E1 m KB KQ c 22 _ (dev_eq_yn c _ _ (k0_dev25_eq c)) _ _ rfl rfl) ?_
  refine lift (step_E1 m KB KQ c 23 _ (dev_eq_yn c _ _ (k0_dev26_eq c)) _ _ rfl rfl) ?_
  refine lift (step_E1 m KB KQ c 24 _ (dev_eq_yn c _ _ (k0_dev27_eq c)) _ _ rfl rfl) ?_
  exact (h _).trans (le_wp_ret _ _ _ _ _)

theorem part_13 (v2 v5 v394 c1600_i32 : BitVec 32) :
    Runs m KB KQ c 25 0 0 0 0 0 27 0 0 0 0 0 (atOps (k0_part13 (F := F)) c v2 v5 v394 c1600_i32) := fun R Q h => by
  unfold atOps; rw [k0_part13_eq_skeleton]; unfold k0_part13_skel
  simp only [Prog.lift, Prog.bind_op, Prog.bind_ret, Prog.pure_eq_ret]
  refine lift (step_E1 m KB KQ c 25 _ (dev_eq_yn c _ _ (k0_dev28_eq c)) _ _ rfl rfl) ?_
  refine lift (step_E1 m KB KQ c 26 _ (dev_eq_yn c _ _ (k0_dev29_eq c)) _ _ rfl rfl) ?_
  exact (h _).trans (le_wp_ret _ _ _ _ _)

theorem part_14 (v2 v5 v428 : BitVec 32) :
    Runs m KB KQ c 27 0 0 0 0 0 29 0 0 0 0 0 (atOps (k0_part14 (F := F)) c v2 v5 v428) := fun R Q h => by
  unfold atOps; rw [k0_part14_eq_skeleton]; unfold k0_part14_skel
  simp only [Prog.lift, Prog.bind_op, Prog.bind_ret, Prog.pure_eq_ret]
  refine lift (step_E1 m KB KQ c 27 _ (dev_eq_yn c _ _ (k0_dev30_eq c)) _ _ rfl rfl) ?_
  refine lift (step_E1 m KB KQ c 28 _ (dev_eq_yn c _ _ (k0_dev31_eq c)) _ _ rfl rfl) ?_
  exact (h _).trans (le_wp_ret _ _ _ _ _)

theorem part_15 (v2 v5 v458 v460 : BitVec 32) :
    Runs m KB KQ c 29 0 0 0 0 0 31 0 0 0 0 0 (atOps (k0_part15 (F := F)) c v2 v5 v458 v460) := fun R Q h => by
  unfold atOps; rw [k0_part15_eq_skeleton]; unfold k0_part15_skel
  simp only [Prog.lift, Prog.bind_op, Prog.bind_ret, Prog.pure_eq_ret]
  refine lift (step_E1 m KB KQ c 29 _ (dev_eq_yn c _ _ (k0_dev32_eq c)) _ _ rfl rfl) ?_
  refine lift (step_E1 m KB KQ c 30 _ (dev_eq_yn c _ _ (k0_dev33_eq c)) _ _ rfl rfl) ?_
  exact (h _).trans (le_wp_ret _ _ _ _ _)

theorem part_16 (v2 v5 v23 v38 : BitVec 32) :
    Runs m KB KQ c 31 0 0 0 0 0 32 1 1 0 0 0 (atOps (k0_part16 (F := F)) c v2 v5 v23 v38) := fun R Q h => by
  unfold atOps; rw [k0_part16_eq_skeleton]; unfold k0_part16_skel
  simp only [Prog.lift, Prog.bind_op, Prog.bind_ret, Prog.pure_eq_ret]
  refine lift (step_E1 m KB KQ c 31 _ (dev_eq_yn c _ _ (k0_dev34_eq c)) _ _ rfl rfl) ?_
  refine lift (step_W1 m KB KQ c 0 _ _ _ rfl) ?_
  refine lift (step_E2 m KB KQ c 0 _ (dev_eq_xn c _ _ (k0_dev35_eq c)) _ _ rfl rfl) ?_
  exact (h _).trans (le_wp_ret _ _ _ _ _)

theorem part_17 (v2 v5 v53 : BitVec 32) :
    Runs m KB KQ c 32 1 1 0 0 0 32 3 2 0 0 0 (atOps (k0_part17 (F := F)) c v2 v5 v53) := fun R Q h => by
  unfold atOps; rw [k0_part17_eq_skeleton]; unfold k0_part17_skel
  simp only [Prog.lift, Prog.bind_op, Prog.bind_ret, Prog.pure_eq_ret]
  refine lift (step_W1 m KB KQ c 1 _ _ _ rfl) ?_
  refine lift (step_E2 m KB KQ c 1 _ (dev_eq_xn c _ _ (k0_dev36_eq c)) _ _ rfl rfl) ?_
  refine lift (step_W1 m KB KQ c 2 _ _ _ rfl) ?_
  exact (h _).trans (le_wp_ret _ _ _ _ _)

theorem part_18 (v2 v5 v68 v558 c128_i32_352 : BitVec 32) :
    Runs m KB KQ c 32 3 2 0 0 0 32 4 3 0 0 0 (atOps (k0_part18 (F := F)) c v2 v5 v68 v558 c128_i32_352) := fun R Q h => by
  unfold atOps; rw [k0_part18_eq_skeleton]; unfold k0_part18_skel
  simp only [Prog.lift, Prog.bind_op, Prog.bind_ret, Prog.pure_eq_ret]
  refine lift (step_E2 m KB KQ c 2 _ (dev_eq_xn c _ _ (k0_dev37_eq c)) _ _ rfl rfl) ?_
  refine lift (step_W1 m KB KQ c 3 _ _ _ rfl) ?_
  exact (h _).trans (le_wp_ret _ _ _ _ _)

theorem part_19 (v2 v5 v83 v98 : BitVec 32) :
    Runs m KB KQ c 32 4 3 0 0 0 32 5 5 0 0 0 (atOps (k0_part19 (F := F)) c v2 v5 v83 v98) := fun R Q h => by
  unfold atOps; rw [k0_part19_eq_skeleton]; unfold k0_part19_skel
  simp only [Prog.lift, Prog.bind_op, Prog.bind_ret, Prog.pure_eq_ret]
  refine lift (step_E2 m KB KQ c 3 _ (dev_eq_xn c _ _ (k0_dev38_eq c)) _ _ rfl rfl) ?_
  refine lift (step_W1 m KB KQ c 4 _ _ _ rfl) ?_
  refine lift (step_E2 m KB KQ c 4 _ (dev_eq_xn c _ _ (k0_dev39_eq c)) _ _ rfl rfl) ?_
  exact (h _).trans (le_wp_ret _ _ _ _ _)

theorem part_20 (v2 v5 v113 : BitVec 32) :
    Runs m KB KQ c 32 5 5 0 0 0 32 7 6 0 0 0 (atOps (k0_part20 (F := F)) c v2 v5 v113) := fun R Q h => by
  unfold atOps; rw [k0_part20_eq_skeleton]; unfold k0_part20_skel
  simp only [Prog.lift, Prog.bind_op, Prog.bind_ret, Prog.pure_eq_ret]
  refine lift (step_W1 m KB KQ c 5 _ _ _ rfl) ?_
  refine lift (step_E2 m KB KQ c 5 _ (dev_eq_xn c _ _ (k0_dev40_eq c)) _ _ rfl rfl) ?_
  refine lift (step_W1 m KB KQ c 6 _ _ _ rfl) ?_
  exact (h _).trans (le_wp_ret _ _ _ _ _)

theorem part_21 (v2 v5 v128 v654 c384_i32_428 : BitVec 32) :
    Runs m KB KQ c 32 7 6 0 0 0 32 8 7 0 0 0 (atOps (k0_part21 (F := F)) c v2 v5 v128 v654 c384_i32_428) := fun R Q h => by
  unfold atOps; rw [k0_part21_eq_skeleton]; unfold k0_part21_skel
  simp only [Prog.lift, Prog.bind_op, Prog.bind_ret, Prog.pure_eq_ret]
  refine lift (step_E2 m KB KQ c 6 _ (dev_eq_xn c _ _ (k0_dev41_eq c)) _ _ rfl rfl) ?_
  refine lift (step_W1 m KB KQ c 7 _ _ _ rfl) ?_
  exact (h _).trans (le_wp_ret _ _ _ _ _)

theorem part_22 (v2 v5 v143 v158 : BitVec 32) :
    Runs m KB KQ c 32 8 7 0 0 0 32 9 9 0 0 0 (atOps (k0_part22 (F := F)) c v2 v5 v143 v158) := fun R Q h => by
  unfold atOps; rw [k0_part22_eq_skeleton]; unfold k0_part22_skel
  simp only [Prog.lift, Prog.bind_op, Prog.bind_ret, Prog.pure_eq_ret]
  refine lift (step_E2 m KB KQ c 7 _ (dev_eq_xn c _ _ (k0_dev42_eq c)) _ _ rfl rfl) ?_
  refine lift (step_W1 m KB KQ c 8 _ _ _ rfl) ?_
  refine lift (step_E2 m KB KQ c 8 _ (dev_eq_xn c _ _ (k0_dev43_eq c)) _ _ rfl rfl) ?_
  exact (h _).trans (le_wp_ret _ _ _ _ _)

theorem part_23 (v2 v5 v173 : BitVec 32) :
    Runs m KB KQ c 32 9 9 0 0 0 32 11 10 0 0 0 (atOps (k0_part23 (F := F)) c v2 v5 v173) := fun R Q h => by
  unfold atOps; rw [k0_part23_eq_skeleton]; unfold k0_part23_skel
  simp only [Prog.lift, Prog.bind_op, Prog.bind_ret, Prog.pure_eq_ret]
  refine lift (step_W1 m KB KQ c 9 _ _ _ rfl) ?_
  refine lift (step_E2 m KB KQ c 9 _ (dev_eq_xn c _ _ (k0_dev44_eq c)) _ _ rfl rfl) ?_
  refine lift (step_W1 m KB KQ c 10 _ _ _ rfl) ?_
  exact (h _).trans (le_wp_ret _ _ _ _ _)

theorem part_24 (v2 v5 v188 v750 c640_i32_504 : BitVec 32) :
    Runs m KB KQ c 32 11 10 0 0 0 32 12 11 0 0 0 (atOps (k0_part24 (F := F)) c v2 v5 v188 v750 c640_i32_504) := fun R Q h => by
  unfold atOps; rw [k0_part24_eq_skeleton]; unfold k0_part24_skel
  simp only [Prog.lift, Prog.bind_op, Prog.bind_ret, Prog.pure_eq_ret]
  refine lift (step_E2 m KB KQ c 10 _ (dev_eq_xn c _ _ (k0_dev45_eq c)) _ _ rfl rfl) ?_
  refine lift (step_W1 m KB KQ c 11 _ _ _ rfl) ?_
  exact (h _).trans (le_wp_ret _ _ _ _ _)

theorem part_25 (v2 v5 v203 v218 : BitVec 32) :
    Runs m KB KQ c 32 12 11 0 0 0 32 13 13 0 0 0 (atOps (k0_part25 (F := F)) c v2 v5 v203 v218) := fun R Q h => by
  unfold atOps; rw [k0_part25_eq_skeleton]; unfold k0_part25_skel
  simp only [Prog.lift, Prog.bind_op, Prog.bind_ret, Prog.pure_eq_ret]
  refine lift (step_E2 m KB KQ c 11 _ (dev_eq_xn c _ _ (k0_dev46_eq c)) _ _ rfl rfl) ?_
  refine lift (step_W1 m KB KQ c 12 _ _ _ rfl) ?_
  refine lift (step_E2 m KB KQ c 12 _ (dev_eq_xn c _ _ (k0_dev47_eq c)) _ _ rfl rfl) ?_
  exact (h _).trans (le_wp_ret _ _ _ _ _)

theorem part_26 (v2 v5 v233 : BitVec 32) :
    Runs m KB KQ c 32 13 13 0 0 0 32 15 14 0 0 0 (atOps (k0_part26 (F := F)) c v2 v5 v233) := fun R Q h => by
  unfold atOps; rw [k0_part26_eq_skeleton]; unfold k0_part26_skel
  simp only [Prog.lift, Prog.bind_op, Prog.bind_ret, Prog.pure_eq_ret]
  refine lift (step_W1 m KB KQ c 13 _ _ _ rfl) ?_
  refine lift (step_E2 m KB KQ c 13 _ (dev_eq_xn c _ _ (k0_dev48_eq c)) _ _ rfl rfl) ?_
  refine lift (step_W1 m KB KQ c 14 _ _ _ rfl) ?_
  exact (h _).trans (le_wp_ret _ _ _ _ _)

theorem part_27 (v2 v5 v248 v846 c896_i32_580 : BitVec 32) :
    Runs m KB KQ c 32 15 14 0 0 0 32 16 15 0 0 0 (atOps (k0_part27 (F := F)) c v2 v5 v248 v846 c896_i32_580) := fun R Q h => by
  unfold atOps; rw [k0_part27_eq_skeleton]; unfold k0_part27_skel
  simp only [Prog.lift, Prog.bind_op, Prog.bind_ret, Prog.pure_eq_ret]
  refine lift (step_E2 m KB KQ c 14 _ (dev_eq_xn c _ _ (k0_dev49_eq c)) _ _ rfl rfl) ?_
  refine lift (step_W1 m KB KQ c 15 _ _ _ rfl) ?_
  exact (h _).trans (le_wp_ret _ _ _ _ _)

theorem part_28 (v2 v5 v263 v278 : BitVec 32) :
    Runs m KB KQ c 32 16 15 0 0 0 32 17 17 0 0 0 (atOps (k0_part28 (F := F)) c v2 v5 v263 v278) := fun R Q h => by
  unfold atOps; rw [k0_part28_eq_skeleton]; unfold k0_part28_skel
  simp only [Prog.lift, Prog.bind_op, Prog.bind_ret, Prog.pure_eq_ret]
  refine lift (step_E2 m KB KQ c 15 _ (dev_eq_xn c _ _ (k0_dev50_eq c)) _ _ rfl rfl) ?_
  refine lift (step_W1 m KB KQ c 16 _ _ _ rfl) ?_
  refine lift (step_E2 m KB KQ c 16 _ (dev_eq_xn c _ _ (k0_dev51_eq c)) _ _ rfl rfl) ?_
  exact (h _).trans (le_wp_ret _ _ _ _ _)

theorem part_29 (v2 v5 v293 : BitVec 32) :
    Runs m KB KQ c 32 17 17 0 0 0 32 19 18 0 0 0 (atOps (k0_part29 (F := F)) c v2 v5 v293) := fun R Q h => by
  unfold atOps; rw [k0_part29_eq_skeleton]; unfold k0_part29_skel
  simp only [Prog.lift, Prog.bind_op, Prog.bind_ret, Prog.pure_eq_ret]
  refine lift (step_W1 m KB KQ c 17 _ _ _ rfl) ?_
  refine lift (step_E2 m KB KQ c 17 _ (dev_eq_xn c _ _ (k0_dev52_eq c)) _ _ rfl rfl) ?_
  refine lift (step_W1 m KB KQ c 18 _ _ _ rfl) ?_
  exact (h _).trans (le_wp_ret _ _ _ _ _)

theorem part_30 (v2 v5 v308 v942 c1152_i32_656 : BitVec 32) :
    Runs m KB KQ c 32 19 18 0 0 0 32 20 19 0 0 0 (atOps (k0_part30 (F := F)) c v2 v5 v308 v942 c1152_i32_656) := fun R Q h => by
  unfold atOps; rw [k0_part30_eq_skeleton]; unfold k0_part30_skel
  simp only [Prog.lift, Prog.bind_op, Prog.bind_ret, Prog.pure_eq_ret]
  refine lift (step_E2 m KB KQ c 18 _ (dev_eq_xn c _ _ (k0_dev53_eq c)) _ _ rfl rfl) ?_
  refine lift (step_W1 m KB KQ c 19 _ _ _ rfl) ?_
  exact (h _).trans (le_wp_ret _ _ _ _ _)

theorem part_31 (v2 v5 v323 v338 : BitVec 32) :
    Runs m KB KQ c 32 20 19 0 0 0 32 21 21 0 0 0 (atOps (k0_part31 (F := F)) c v2 v5 v323 v338) := fun R Q h => by
  unfold atOps; rw [k0_part31_eq_skeleton]; unfold k0_part31_skel
  simp only [Prog.lift, Prog.bind_op, Prog.bind_ret, Prog.pure_eq_ret]
  refine lift (step_E2 m KB KQ c 19 _ (dev_eq_xn c _ _ (k0_dev54_eq c)) _ _ rfl rfl) ?_
  refine lift (step_W1 m KB KQ c 20 _ _ _ rfl) ?_
  refine lift (step_E2 m KB KQ c 20 _ (dev_eq_xn c _ _ (k0_dev55_eq c)) _ _ rfl rfl) ?_
  exact (h _).trans (le_wp_ret _ _ _ _ _)

theorem part_32 (v2 v5 v353 : BitVec 32) :
    Runs m KB KQ c 32 21 21 0 0 0 32 23 22 0 0 0 (atOps (k0_part32 (F := F)) c v2 v5 v353) := fun R Q h => by
  unfold atOps; rw [k0_part32_eq_skeleton]; unfold k0_part32_skel
  simp only [Prog.lift, Prog.bind_op, Prog.bind_ret, Prog.pure_eq_ret]
  refine lift (step_W1 m KB KQ c 21 _ _ _ rfl) ?_
  refine lift (step_E2 m KB KQ c 21 _ (dev_eq_xn c _ _ (k0_dev56_eq c)) _ _ rfl rfl) ?_
  refine lift (step_W1 m KB KQ c 22 _ _ _ rfl) ?_
  exact (h _).trans (le_wp_ret _ _ _ _ _)

theorem part_33 (v2 v5 v368 v1038 c1408_i32_732 : BitVec 32) :
    Runs m KB KQ c 32 23 22 0 0 0 32 24 23 0 0 0 (atOps (k0_part33 (F := F)) c v2 v5 v368 v1038 c1408_i32_732) := fun R Q h => by
  unfold atOps; rw [k0_part33_eq_skeleton]; unfold k0_part33_skel
  simp only [Prog.lift, Prog.bind_op, Prog.bind_ret, Prog.pure_eq_ret]
  refine lift (step_E2 m KB KQ c 22 _ (dev_eq_xn c _ _ (k0_dev57_eq c)) _ _ rfl rfl) ?_
  refine lift (step_W1 m KB KQ c 23 _ _ _ rfl) ?_
  exact (h _).trans (le_wp_ret _ _ _ _ _)

theorem part_34 (v2 v5 v383 v398 : BitVec 32) :
    Runs m KB KQ c 32 24 23 0 0 0 32 25 25 0 0 0 (atOps (k0_part34 (F := F)) c v2 v5 v383 v398) := fun R Q h => by
  unfold atOps; rw [k0_part34_eq_skeleton]; unfold k0_part34_skel
  simp only [Prog.lift, Prog.bind_op, Prog.bind_ret, Prog.pure_eq_ret]
  refine lift (step_E2 m KB KQ c 23 _ (dev_eq_xn c _ _ (k0_dev58_eq c)) _ _ rfl rfl) ?_
  refine lift (step_W1 m KB KQ c 24 _ _ _ rfl) ?_
  refine lift (step_E2 m KB KQ c 24 _ (dev_eq_xn c _ _ (k0_dev59_eq c)) _ _ rfl rfl) ?_
  exact (h _).trans (le_wp_ret _ _ _ _ _)

theorem part_35 (v2 v5 v413 : BitVec 32) :
    Runs m KB KQ c 32 25 25 0 0 0 32 27 26 0 0 0 (atOps (k0_part35 (F := F)) c v2 v5 v413) := fun R Q h => by
  unfold atOps; rw [k0_part35_eq_skeleton]; unfold k0_part35_skel
  simp only [Prog.lift, Prog.bind_op, Prog.bind_ret, Prog.pure_eq_ret]
  refine lift (step_W1 m KB KQ c 25 _ _ _ rfl) ?_
  refine lift (step_E2 m KB KQ c 25 _ (dev_eq_xn c _ _ (k0_dev60_eq c)) _ _ rfl rfl) ?_
  refine lift (step_W1 m KB KQ c 26 _ _ _ rfl) ?_
  exact (h _).trans (le_wp_ret _ _ _ _ _)

theorem part_36 (v2 v5 v428 v1134 c1664_i32_808 : BitVec 32) :
    Runs m KB KQ c 32 27 26 0 0 0 32 28 27 0 0 0 (atOps (k0_part36 (F := F)) c v2 v5 v428 v1134 c1664_i32_808) := fun R Q h => by
  unfold atOps; rw [k0_part36_eq_skeleton]; unfold k0_part36_skel
  simp only [Prog.lift, Prog.bind_op, Prog.bind_ret, Prog.pure_eq_ret]
  refine lift (step_E2 m KB KQ c 26 _ (dev_eq_xn c _ _ (k0_dev61_eq c)) _ _ rfl rfl) ?_
  refine lift (step_W1 m KB KQ c 27 _ _ _ rfl) ?_
  exact (h _).trans (le_wp_ret _ _ _ _ _)

theorem part_37 (v2 v5 v443 v458 : BitVec 32) :
    Runs m KB KQ c 32 28 27 0 0 0 32 29 29 0 0 0 (atOps (k0_part37 (F := F)) c v2 v5 v443 v458) := fun R Q h => by
  unfold atOps; rw [k0_part37_eq_skeleton]; unfold k0_part37_skel
  simp only [Prog.lift, Prog.bind_op, Prog.bind_ret, Prog.pure_eq_ret]
  refine lift (step_E2 m KB KQ c 27 _ (dev_eq_xn c _ _ (k0_dev62_eq c)) _ _ rfl rfl) ?_
  refine lift (step_W1 m KB KQ c 28 _ _ _ rfl) ?_
  refine lift (step_E2 m KB KQ c 28 _ (dev_eq_xn c _ _ (k0_dev63_eq c)) _ _ rfl rfl) ?_
  exact (h _).trans (le_wp_ret _ _ _ _ _)

theorem part_38 (v2 v5 v473 : BitVec 32) :
    Runs m KB KQ c 32 29 29 0 0 0 32 31 30 0 0 0 (atOps (k0_part38 (F := F)) c v2 v5 v473) := fun R Q h => by
  unfold atOps; rw [k0_part38_eq_skeleton]; unfold k0_part38_skel
  simp only [Prog.lift, Prog.bind_op, Prog.bind_ret, Prog.pure_eq_ret]
  refine lift (step_W1 m KB KQ c 29 _ _ _ rfl) ?_
  refine lift (step_E2 m KB KQ c 29 _ (dev_eq_xn c _ _ (k0_dev64_eq c)) _ _ rfl rfl) ?_
  refine lift (step_W1 m KB KQ c 30 _ _ _ rfl) ?_
  exact (h _).trans (le_wp_ret _ _ _ _ _)

theorem part_39 (v2 v5 v488 v1230 c1920_i32_884 : BitVec 32) :
    Runs m KB KQ c 32 31 30 0 0 0 32 32 31 0 0 0 (atOps (k0_part39 (F := F)) c v2 v5 v488 v1230 c1920_i32_884) := fun R Q h => by
  unfold atOps; rw [k0_part39_eq_skeleton]; unfold k0_part39_skel
  simp only [Prog.lift, Prog.bind_op, Prog.bind_ret, Prog.pure_eq_ret]
  refine lift (step_E2 m KB KQ c 30 _ (dev_eq_xn c _ _ (k0_dev65_eq c)) _ _ rfl rfl) ?_
  refine lift (step_W1 m KB KQ c 31 _ _ _ rfl) ?_
  exact (h _).trans (le_wp_ret _ _ _ _ _)

theorem part_40 (v5 v512 v536 : BitVec 32) :
    Runs m KB KQ c 32 32 31 0 0 0 32 32 32 2 1 1 (atOps (k0_part40 (F := F)) c v5 v512 v536) := fun R Q h => by
  unfold atOps; rw [k0_part40_eq_skeleton]; unfold k0_part40_skel
  simp only [Prog.lift, Prog.bind_op, Prog.bind_ret, Prog.pure_eq_ret]
  refine lift (step_E2 m KB KQ c 31 _ (dev_eq_xn c _ _ (k0_dev66_eq c)) _ _ rfl rfl) ?_
  refine lift (step_W2 m KB KQ c 0 _ _ _ rfl) ?_
  refine lift (step_WS1 m KB KQ c 0 _ _ _ rfl) ?_
  refine lift (step_WS2 m KB KQ c 0 _ _ _ rfl) ?_
  refine lift (step_W2 m KB KQ c 1 _ _ _ rfl) ?_
  exact (h _).trans (le_wp_ret _ _ _ _ _)

theorem part_41 (v5 v560 v584 : BitVec 32) :
    Runs m KB KQ c 32 32 32 2 1 1 32 32 32 3 3 3 (atOps (k0_part41 (F := F)) c v5 v560 v584) := fun R Q h => by
  unfold atOps; rw [k0_part41_eq_skeleton]; unfold k0_part41_skel
  simp only [Prog.lift, Prog.bind_op, Prog.bind_ret, Prog.pure_eq_ret]
  refine lift (step_WS1 m KB KQ c 1 _ _ _ rfl) ?_
  refine lift (step_WS2 m KB KQ c 1 _ _ _ rfl) ?_
  refine lift (step_W2 m KB KQ c 2 _ _ _ rfl) ?_
  refine lift (step_WS1 m KB KQ c 2 _ _ _ rfl) ?_
  refine lift (step_WS2 m KB KQ c 2 _ _ _ rfl) ?_
  exact (h _).trans (le_wp_ret _ _ _ _ _)

theorem part_42 (v5 v608 v1316 : BitVec 32) :
    Runs m KB KQ c 32 32 32 3 3 3 32 32 32 5 5 4 (atOps (k0_part42 (F := F)) c v5 v608 v1316) := fun R Q h => by
  unfold atOps; rw [k0_part42_eq_skeleton]; unfold k0_part42_skel
  simp only [Prog.lift, Prog.bind_op, Prog.bind_ret, Prog.pure_eq_ret]
  refine lift (step_W2 m KB KQ c 3 _ _ _ rfl) ?_
  refine lift (step_WS1 m KB KQ c 3 _ _ _ rfl) ?_
  refine lift (step_WS2 m KB KQ c 3 _ _ _ rfl) ?_
  refine lift (step_W2 m KB KQ c 4 _ _ _ rfl) ?_
  refine lift (step_WS1 m KB KQ c 4 _ _ _ rfl) ?_
  exact (h _).trans (le_wp_ret _ _ _ _ _)

theorem part_43 (v5 v632 v656 : BitVec 32) :
    Runs m KB KQ c 32 32 32 5 5 4 32 32 32 7 6 6 (atOps (k0_part43 (F := F)) c v5 v632 v656) := fun R Q h => by
  unfold atOps; rw [k0_part43_eq_skeleton]; unfold k0_part43_skel
  simp only [Prog.lift, Prog.bind_op, Prog.bind_ret, Prog.pure_eq_ret]
  refine lift (step_WS2 m KB KQ c 4 _ _ _ rfl) ?_
  refine lift (step_W2 m KB KQ c 5 _ _ _ rfl) ?_
  refine lift (step_WS1 m KB KQ c 5 _ _ _ rfl) ?_
  refine lift (step_WS2 m KB KQ c 5 _ _ _ rfl) ?_
  refine lift (step_W2 m KB KQ c 6 _ _ _ rfl) ?_
  exact (h _).trans (le_wp_ret _ _ _ _ _)

theorem part_44 (v5 v680 v704 : BitVec 32) :
    Runs m KB KQ c 32 32 32 7 6 6 32 32 32 8 8 8 (atOps (k0_part44 (F := F)) c v5 v680 v704) := fun R Q h => by
  unfold atOps; rw [k0_part44_eq_skeleton]; unfold k0_part44_skel
  simp only [Prog.lift, Prog.bind_op, Prog.bind_ret, Prog.pure_eq_ret]
  refine lift (step_WS1 m KB KQ c 6 _ _ _ rfl) ?_
  refine lift (step_WS2 m KB KQ c 6 _ _ _ rfl) ?_
  refine lift (step_W2 m KB KQ c 7 _ _ _ rfl) ?_
  refine lift (step_WS1 m KB KQ c 7 _ _ _ rfl) ?_
  refine lift (step_WS2 m KB KQ c 7 _ _ _ rfl) ?_
  exact (h _).trans (le_wp_ret _ _ _ _ _)

theorem part_45 (v5 v728 v1396 : BitVec 32) :
    Runs m KB KQ c 32 32 32 8 8 8 32 32 32 10 10 9 (atOps (k0_part45 (F := F)) c v5 v728 v1396) := fun R Q h => by
  unfold atOps; rw [k0_part45_eq_skeleton]; unfold k0_part45_skel
  simp only [Prog.lift, Prog.bind_op, Prog.bind_ret, Prog.pure_eq_ret]
  refine lift (step_W2 m KB KQ c 8 _ _ _ rfl) ?_
  refine lift (step_WS1 m KB KQ c 8 _ _ _ rfl) ?_
  refine lift (step_WS2 m KB KQ c 8 _ _ _ rfl) ?_
  refine lift (step_W2 m KB KQ c 9 _ _ _ rfl) ?_
  refine lift (step_WS1 m KB KQ c 9 _ _ _ rfl) ?_
  exact (h _).trans (le_wp_ret _ _ _ _ _)

theorem part_46 (v5 v752 v776 : BitVec 32) :
    Runs m KB KQ c 32 32 32 10 10 9 32 32 32 12 11 11 (atOps (k0_part46 (F := F)) c v5 v752 v776) := fun R Q h => by
  unfold atOps; rw [k0_part46_eq_skeleton]; unfold k0_part46_skel
  simp only [Prog.lift, Prog.bind_op, Prog.bind_ret, Prog.pure_eq_ret]
  refine lift (step_WS2 m KB KQ c 9 _ _ _ rfl) ?_
  refine lift (step_W2 m KB KQ c 10 _ _ _ rfl) ?_
  refine lift (step_WS1 m KB KQ c 10 _ _ _ rfl) ?_
  refine lift (step_WS2 m KB KQ c 10 _ _ _ rfl) ?_
  refine lift (step_W2 m KB KQ c 11 _ _ _ rfl) ?_
  exact (h _).trans (le_wp_ret _ _ _ _ _)

theorem part_47 (v5 v800 v824 : BitVec 32) :
    Runs m KB KQ c 32 32 32 12 11 11 32 32 32 13 13 13 (atOps (k0_part47 (F := F)) c v5 v800 v824) := fun R Q h => by
  unfold atOps; rw [k0_part47_eq_skeleton]; unfold k0_part47_skel
  simp only [Prog.lift, Prog.bind_op, Prog.bind_ret, Prog.pure_eq_ret]
  refine lift (step_WS1 m KB KQ c 11 _ _ _ rfl) ?_
  refine lift (step_WS2 m KB KQ c 11 _ _ _ rfl) ?_
  refine lift (step_W2 m KB KQ c 12 _ _ _ rfl) ?_
  refine lift (step_WS1 m KB KQ c 12 _ _ _ rfl) ?_
  refine lift (step_WS2 m KB KQ c 12 _ _ _ rfl) ?_
  exact (h _).trans (le_wp_ret _ _ _ _ _)

theorem part_48 (v5 v848 v1476 : BitVec 32) :
    Runs m KB KQ c 32 32 32 13 13 13 32 32 32 15 15 14 (atOps (k0_part48 (F := F)) c v5 v848 v1476) := fun R Q h => by
  unfold atOps; rw [k0_part48_eq_skeleton]; unfold k0_part48_skel
  simp only [Prog.lift, Prog.bind_op, Prog.bind_ret, Prog.pure_eq_ret]
  refine lift (step_W2 m KB KQ c 13 _ _ _ rfl) ?_
  refine lift (step_WS1 m KB KQ c 13 _ _ _ rfl) ?_
  refine lift (step_WS2 m KB KQ c 13 _ _ _ rfl) ?_
  refine lift (step_W2 m KB KQ c 14 _ _ _ rfl) ?_
  refine lift (step_WS1 m KB KQ c 14 _ _ _ rfl) ?_
  exact (h _).trans (le_wp_ret _ _ _ _ _)

theorem part_49 (v5 v872 v896 : BitVec 32) :
    Runs m KB KQ c 32 32 32 15 15 14 32 32 32 17 16 16 (atOps (k0_part49 (F := F)) c v5 v872 v896) := fun R Q h => by
  unfold atOps; rw [k0_part49_eq_skeleton]; unfold k0_part49_skel
  simp only [Prog.lift, Prog.bind_op, Prog.bind_ret, Prog.pure_eq_ret]
  refine lift (step_WS2 m KB KQ c 14 _ _ _ rfl) ?_
  refine lift (step_W2 m KB KQ c 15 _ _ _ rfl) ?_
  refine lift (step_WS1 m KB KQ c 15 _ _ _ rfl) ?_
  refine lift (step_WS2 m KB KQ c 15 _ _ _ rfl) ?_
  refine lift (step_W2 m KB KQ c 16 _ _ _ rfl) ?_
  exact (h _).trans (le_wp_ret _ _ _ _ _)

theorem part_50 (v5 v920 v944 : BitVec 32) :
    Runs m KB KQ c 32 32 32 17 16 16 32 32 32 18 18 18 (atOps (k0_part50 (F := F)) c v5 v920 v944) := fun R Q h => by
  unfold atOps; rw [k0_part50_eq_skeleton]; unfold k0_part50_skel
  simp only [Prog.lift, Prog.bind_op, Prog.bind_ret, Prog.pure_eq_ret]
  refine lift (step_WS1 m KB KQ c 16 _ _ _ rfl) ?_
  refine lift (step_WS2 m KB KQ c 16 _ _ _ rfl) ?_
  refine lift (step_W2 m KB KQ c 17 _ _ _ rfl) ?_
  refine lift (step_WS1 m KB KQ c 17 _ _ _ rfl) ?_
  refine lift (step_WS2 m KB KQ c 17 _ _ _ rfl) ?_
  exact (h _).trans (le_wp_ret _ _ _ _ _)

theorem part_51 (v5 v968 v1556 : BitVec 32) :
    Runs m KB KQ c 32 32 32 18 18 18 32 32 32 20 20 19 (atOps (k0_part51 (F := F)) c v5 v968 v1556) := fun R Q h => by
  unfold atOps; rw [k0_part51_eq_skeleton]; unfold k0_part51_skel
  simp only [Prog.lift, Prog.bind_op, Prog.bind_ret, Prog.pure_eq_ret]
  refine lift (step_W2 m KB KQ c 18 _ _ _ rfl) ?_
  refine lift (step_WS1 m KB KQ c 18 _ _ _ rfl) ?_
  refine lift (step_WS2 m KB KQ c 18 _ _ _ rfl) ?_
  refine lift (step_W2 m KB KQ c 19 _ _ _ rfl) ?_
  refine lift (step_WS1 m KB KQ c 19 _ _ _ rfl) ?_
  exact (h _).trans (le_wp_ret _ _ _ _ _)

theorem part_52 (v5 v992 v1016 : BitVec 32) :
    Runs m KB KQ c 32 32 32 20 20 19 32 32 32 22 21 21 (atOps (k0_part52 (F := F)) c v5 v992 v1016) := fun R Q h => by
  unfold atOps; rw [k0_part52_eq_skeleton]; unfold k0_part52_skel
  simp only [Prog.lift, Prog.bind_op, Prog.bind_ret, Prog.pure_eq_ret]
  refine lift (step_WS2 m KB KQ c 19 _ _ _ rfl) ?_
  refine lift (step_W2 m KB KQ c 20 _ _ _ rfl) ?_
  refine lift (step_WS1 m KB KQ c 20 _ _ _ rfl) ?_
  refine lift (step_WS2 m KB KQ c 20 _ _ _ rfl) ?_
  refine lift (step_W2 m KB KQ c 21 _ _ _ rfl) ?_
  exact (h _).trans (le_wp_ret _ _ _ _ _)

theorem part_53 (v5 v1040 v1064 : BitVec 32) :
    Runs m KB KQ c 32 32 32 22 21 21 32 32 32 23 23 23 (atOps (k0_part53 (F := F)) c v5 v1040 v1064) := fun R Q h => by
  unfold atOps; rw [k0_part53_eq_skeleton]; unfold k0_part53_skel
  simp only [Prog.lift, Prog.bind_op, Prog.bind_ret, Prog.pure_eq_ret]
  refine lift (step_WS1 m KB KQ c 21 _ _ _ rfl) ?_
  refine lift (step_WS2 m KB KQ c 21 _ _ _ rfl) ?_
  refine lift (step_W2 m KB KQ c 22 _ _ _ rfl) ?_
  refine lift (step_WS1 m KB KQ c 22 _ _ _ rfl) ?_
  refine lift (step_WS2 m KB KQ c 22 _ _ _ rfl) ?_
  exact (h _).trans (le_wp_ret _ _ _ _ _)

theorem part_54 (v5 v1088 v1636 : BitVec 32) :
    Runs m KB KQ c 32 32 32 23 23 23 32 32 32 25 25 24 (atOps (k0_part54 (F := F)) c v5 v1088 v1636) := fun R Q h => by
  unfold atOps; rw [k0_part54_eq_skeleton]; unfold k0_part54_skel
  simp only [Prog.lift, Prog.bind_op, Prog.bind_ret, Prog.pure_eq_ret]
  refine lift (step_W2 m KB KQ c 23 _ _ _ rfl) ?_
  refine lift (step_WS1 m KB KQ c 23 _ _ _ rfl) ?_
  refine lift (step_WS2 m KB KQ c 23 _ _ _ rfl) ?_
  refine lift (step_W2 m KB KQ c 24 _ _ _ rfl) ?_
  refine lift (step_WS1 m KB KQ c 24 _ _ _ rfl) ?_
  exact (h _).trans (le_wp_ret _ _ _ _ _)

theorem part_55 (v5 v1112 v1136 : BitVec 32) :
    Runs m KB KQ c 32 32 32 25 25 24 32 32 32 27 26 26 (atOps (k0_part55 (F := F)) c v5 v1112 v1136) := fun R Q h => by
  unfold atOps; rw [k0_part55_eq_skeleton]; unfold k0_part55_skel
  simp only [Prog.lift, Prog.bind_op, Prog.bind_ret, Prog.pure_eq_ret]
  refine lift (step_WS2 m KB KQ c 24 _ _ _ rfl) ?_
  refine lift (step_W2 m KB KQ c 25 _ _ _ rfl) ?_
  refine lift (step_WS1 m KB KQ c 25 _ _ _ rfl) ?_
  refine lift (step_WS2 m KB KQ c 25 _ _ _ rfl) ?_
  refine lift (step_W2 m KB KQ c 26 _ _ _ rfl) ?_
  exact (h _).trans (le_wp_ret _ _ _ _ _)

theorem part_56 (v5 v1160 v1184 : BitVec 32) :
    Runs m KB KQ c 32 32 32 27 26 26 32 32 32 28 28 28 (atOps (k0_part56 (F := F)) c v5 v1160 v1184) := fun R Q h => by
  unfold atOps; rw [k0_part56_eq_skeleton]; unfold k0_part56_skel
  simp only [Prog.lift, Prog.bind_op, Prog.bind_ret, Prog.pure_eq_ret]
  refine lift (step_WS1 m KB KQ c 26 _ _ _ rfl) ?_
  refine lift (step_WS2 m KB KQ c 26 _ _ _ rfl) ?_
  refine lift (step_W2 m KB KQ c 27 _ _ _ rfl) ?_
  refine lift (step_WS1 m KB KQ c 27 _ _ _ rfl) ?_
  refine lift (step_WS2 m KB KQ c 27 _ _ _ rfl) ?_
  exact (h _).trans (le_wp_ret _ _ _ _ _)

theorem part_57 (v5 v1208 v1716 : BitVec 32) :
    Runs m KB KQ c 32 32 32 28 28 28 32 32 32 30 30 29 (atOps (k0_part57 (F := F)) c v5 v1208 v1716) := fun R Q h => by
  unfold atOps; rw [k0_part57_eq_skeleton]; unfold k0_part57_skel
  simp only [Prog.lift, Prog.bind_op, Prog.bind_ret, Prog.pure_eq_ret]
  refine lift (step_W2 m KB KQ c 28 _ _ _ rfl) ?_
  refine lift (step_WS1 m KB KQ c 28 _ _ _ rfl) ?_
  refine lift (step_WS2 m KB KQ c 28 _ _ _ rfl) ?_
  refine lift (step_W2 m KB KQ c 29 _ _ _ rfl) ?_
  refine lift (step_WS1 m KB KQ c 29 _ _ _ rfl) ?_
  exact (h _).trans (le_wp_ret _ _ _ _ _)

theorem part_58 (v5 v1232 v1256 : BitVec 32) :
    Runs m KB KQ c 32 32 32 30 30 29 32 32 32 32 31 31 (atOps (k0_part58 (F := F)) c v5 v1232 v1256) := fun R Q h => by
  unfold atOps; rw [k0_part58_eq_skeleton]; unfold k0_part58_skel
  simp only [Prog.lift, Prog.bind_op, Prog.bind_ret, Prog.pure_eq_ret]
  refine lift (step_WS2 m KB KQ c 29 _ _ _ rfl) ?_
  refine lift (step_W2 m KB KQ c 30 _ _ _ rfl) ?_
  refine lift (step_WS1 m KB KQ c 30 _ _ _ rfl) ?_
  refine lift (step_WS2 m KB KQ c 30 _ _ _ rfl) ?_
  refine lift (step_W2 m KB KQ c 31 _ _ _ rfl) ?_
  exact (h _).trans (le_wp_ret _ _ _ _ _)

theorem part_59 (W : Waits sig Unit)
    (Q : Dev nD → sProp 𝕄)
    (h : Hd m KB KQ c 32 32 32 32 31 31 (side m c) ⊢ Q c) :
    bodyPre m KB KQ c W
      ⊢ wp frame (wpE (defs₀ (F := F)) 𝒱₀ (c : Thread nD τ) none) Set.univ
          (atOps (k0_part59 (F := F))) Q := by
  unfold atOps; rw [k0_part59_eq_skeleton]; unfold k0_part59_skel
  rw [wp_bind]
  refine part_1 m KB KQ c W _ (fun v2 v5 v23 => ?_)
  dsimp only
  exact (part_2 m KB KQ c v2 v5).seq fun ⟨v38, v53⟩ =>
    (part_3 m KB KQ c v2 v5).seq fun ⟨v68, v83, v94, c320_i32⟩ =>
    (part_4 m KB KQ c v2 v5 v94 c320_i32).seq fun ⟨v98, v113, v128⟩ =>
    (part_5 m KB KQ c v2 v5 v128).seq fun ⟨v143, v158, v160⟩ =>
    (part_6 m KB KQ c v2 v5 v158 v160).seq fun ⟨v173, v188⟩ =>
    (part_7 m KB KQ c v2 v5).seq fun ⟨v203, v218⟩ =>
    (part_8 m KB KQ c v2 v5).seq fun ⟨v233, v248, v260, v261⟩ =>
    (part_9 m KB KQ c v2 v5 v260 v261).seq fun ⟨v263, v278, v293, c2_i32_182⟩ =>
    (part_10 m KB KQ c v2 v5 v293 c2_i32_182).seq fun ⟨v308, v323⟩ =>
    (part_11 m KB KQ c v2 v5).seq fun ⟨v338, v353⟩ =>
    (part_12 m KB KQ c v2 v5).seq fun ⟨v368, v383, v394, c1600_i32⟩ =>
    (part_13 m KB KQ c v2 v5 v394 c1600_i32).seq fun ⟨v398, v413, v428⟩ =>
    (part_14 m KB KQ c v2 v5 v428).seq fun ⟨v443, v458, v460⟩ =>
    (part_15 m KB KQ c v2 v5 v458 v460).seq fun ⟨v473, v488⟩ =>
    (part_16 m KB KQ c v2 v5 v23 v38).seq fun v512 =>
    (part_17 m KB KQ c v2 v5 v53).seq fun ⟨v536, v558, c128_i32_352⟩ =>
    (part_18 m KB KQ c v2 v5 v68 v558 c128_i32_352).seq fun ⟨v560, v584⟩ =>
    (part_19 m KB KQ c v2 v5 v83 v98).seq fun v608 =>
    (part_20 m KB KQ c v2 v5 v113).seq fun ⟨v632, v654, c384_i32_428⟩ =>
    (part_21 m KB KQ c v2 v5 v128 v654 c384_i32_428).seq fun ⟨v656, v680⟩ =>
    (part_22 m KB KQ c v2 v5 v143 v158).seq fun v704 =>
    (part_23 m KB KQ c v2 v5 v173).seq fun ⟨v728, v750, c640_i32_504⟩ =>
    (part_24 m KB KQ c v2 v5 v188 v750 c640_i32_504).seq fun ⟨v752, v776⟩ =>
    (part_25 m KB KQ c v2 v5 v203 v218).seq fun v800 =>
    (part_26 m KB KQ c v2 v5 v233).seq fun ⟨v824, v846, c896_i32_580⟩ =>
    (part_27 m KB KQ c v2 v5 v248 v846 c896_i32_580).seq fun ⟨v848, v872⟩ =>
    (part_28 m KB KQ c v2 v5 v263 v278).seq fun v896 =>
    (part_29 m KB KQ c v2 v5 v293).seq fun ⟨v920, v942, c1152_i32_656⟩ =>
    (part_30 m KB KQ c v2 v5 v308 v942 c1152_i32_656).seq fun ⟨v944, v968⟩ =>
    (part_31 m KB KQ c v2 v5 v323 v338).seq fun v992 =>
    (part_32 m KB KQ c v2 v5 v353).seq fun ⟨v1016, v1038, c1408_i32_732⟩ =>
    (part_33 m KB KQ c v2 v5 v368 v1038 c1408_i32_732).seq fun ⟨v1040, v1064⟩ =>
    (part_34 m KB KQ c v2 v5 v383 v398).seq fun v1088 =>
    (part_35 m KB KQ c v2 v5 v413).seq fun ⟨v1112, v1134, c1664_i32_808⟩ =>
    (part_36 m KB KQ c v2 v5 v428 v1134 c1664_i32_808).seq fun ⟨v1136, v1160⟩ =>
    (part_37 m KB KQ c v2 v5 v443 v458).seq fun v1184 =>
    (part_38 m KB KQ c v2 v5 v473).seq fun ⟨v1208, v1230, c1920_i32_884⟩ =>
    (part_39 m KB KQ c v2 v5 v488 v1230 c1920_i32_884).seq fun ⟨v1232, v1256⟩ =>
    (part_40 m KB KQ c v5 v512 v536).seq fun _ =>
    (part_41 m KB KQ c v5 v560 v584).seq fun v1316 =>
    (part_42 m KB KQ c v5 v608 v1316).seq fun _ =>
    (part_43 m KB KQ c v5 v632 v656).seq fun _ =>
    (part_44 m KB KQ c v5 v680 v704).seq fun v1396 =>
    (part_45 m KB KQ c v5 v728 v1396).seq fun _ =>
    (part_46 m KB KQ c v5 v752 v776).seq fun _ =>
    (part_47 m KB KQ c v5 v800 v824).seq fun v1476 =>
    (part_48 m KB KQ c v5 v848 v1476).seq fun _ =>
    (part_49 m KB KQ c v5 v872 v896).seq fun _ =>
    (part_50 m KB KQ c v5 v920 v944).seq fun v1556 =>
    (part_51 m KB KQ c v5 v968 v1556).seq fun _ =>
    (part_52 m KB KQ c v5 v992 v1016).seq fun _ =>
    (part_53 m KB KQ c v5 v1040 v1064).seq fun v1636 =>
    (part_54 m KB KQ c v5 v1088 v1636).seq fun _ =>
    (part_55 m KB KQ c v5 v1112 v1136).seq fun _ =>
    (part_56 m KB KQ c v5 v1160 v1184).seq fun v1716 =>
    (part_57 m KB KQ c v5 v1208 v1716).seq fun _ =>
    (part_58 m KB KQ c v5 v1232 v1256).seq fun _ =>
    h.trans (le_wp_ret _ _ _ _ _)

theorem body_run (W : Waits sig Unit) (Q : PUnit → sProp 𝕄)
    (h : ∀ W' : Waits sig Unit, iprop(Φ₁ m c ∗ owes (c : Thread nD τ) (Owe c 32 32) W') ⊢ Q ⟨⟩) :
    bodyPre m KB KQ c W
      ⊢ wp frame (wpE (defs₀ (F := F)) 𝒱₀ (c : Thread nD τ) none) Set.univ
          (atOps (cc0_body (F := F))) Q := by
  unfold atOps; rw [cc0_body_eq_skeleton]; unfold cc0_body_skel
  rw [wp_bind]
  refine part_59 m KB KQ c W _ ?_
  dsimp only
  simp only [Prog.lift, Prog.bind_op, Prog.bind_ret, Prog.pure_eq_ret]
  refine lift (step_WS1 m KB KQ c 31 _ _ _ rfl) ?_
  refine lift (step_WS2 m KB KQ c 31 _ _ _ rfl) ?_
  unfold ChunksOwes side
  iintro ⟨#Hr, #Hl, ⟨%W', HO, Hch⟩, Hcl, Hpl, Hrest⟩
  iapply (step_locwait m KB KQ c _ rfl _ _ W') $$ [Hcl HO Hpl]
  · iframe # ∗
  iintro ⟨HO, Hpay, Hz⟩
  iapply (le_wp_ret _ _ _ _ _)
  iapply (h _)
  isplitr [HO]
  · iapply (glue_post m c)
    isplitl [Hch]; · iexact Hch
    isplitl [Hpay]; · iexact Hpay
    isplitl [Hz]; · iexact Hz
    iexact Hrest
  iexact HO

omit [FloatOps F] in
theorem bigSep_W (Φ : Fin cfg0.W → sProp 𝕄) : bigSep Finset.univ Φ = (iprop(emp) : sProp 𝕄) := by
  have h : (Finset.univ : Finset (Fin cfg0.W)) = ∅ := by decide
  rw [h]; rfl

theorem body_obligation : BodyObligation (dats (F := F) m 0 c) (defs₀ (F := F)) 𝒱₀ () Set.univ := fun t => by
  rw [fin_N t]
  rw [bigSep_W, bigSep_W]
  show iprop(Φ₀ m c ∗ (dats (F := F) m 0 c).owesAt () t₀.castSucc ∗ emp)
    ⊢ wp frame (wpE (defs₀ (F := F)) 𝒱₀ (c : Thread nD τ) none) Set.univ
        (atOps (cc0_body (F := F)))
        (fun _ => iprop(Φ₁ m c ∗ (dats (F := F) m 0 c).owesAt () t₀.succ ∗ emp))
  unfold Φ₀ start Dat.owesAt Pipeline.owesWithin
  rw [show (dats (F := F) m 0 c).owed t₀.castSucc = O₀ c from rfl, show (dats (F := F) m 0 c).owed t₀.succ = 0 from rfl]
  iintro ⟨⟨⟨⟨%KB, %KQ, Hg⟩, Hlc, #Hl⟩, Hx, Hout⟩, ⟨%W, -, HO⟩, -⟩
  ihave Hpre := (glue_pre m KB KQ c) $$ [Hg Hlc Hx Hout]
  · iframe # ∗
  icases Hpre with ⟨#Hr, Hbar, Hloc, Hy, Hxn, Hrest, Hch⟩
  iapply (body_run m KB KQ c W _ fun W' => by
    rw [Owe_done]
    iintro ⟨HΦ, HO⟩
    isplitl [HΦ]; · iexact HΦ
    isplitl [HO]
    · iexists W'
      isplitr; · ipureintro; exact fun _ _ => Or.inl trivial
      iexact HO
    iempintro)
  unfold bodyPre
  iframe # ∗

end Cert.KernelIdeal.AG

end
-- ==== Proof.AG.Launch.lean ====
import proofs.«900103_g7700000000000104_dist_ag_v7x_xy2x2_y_m4096_n1024_f32_1_alg».proof.Proof.AG.Body
import proofs.«900103_g7700000000000104_dist_ag_v7x_xy2x2_y_m4096_n1024_f32_1_alg».proof.Proof.AG.Dma

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

set_option maxRecDepth 16384 in
theorem ownSemFacts : Pipeline.OwnSemFacts cfg0.spec osem :=
  ⟨by decide, fun _ _ h => SemLoc.dma.inj h, fun _ w _ => w.elim0⟩

theorem share_eq (c : Dev nD) (w : Fin cfg0.W) : (dats m 0 c).share w = fullShare := w.elim0

abbrev cellAt : Dev nD ⊕ (Dev nD × Fin 129) → GSem nD τ sig := Sum.elim barCell fun dq => dmaCell dq.1 dq.2

theorem cellAt_injective : Function.Injective cellAt := by
  rintro (a | ⟨a, q⟩) (b | ⟨b, q'⟩) h
  · exact congrArg Sum.inl (Fin.ext (congrArg (fun g : GSem nD τ sig => g.1.1.val) h))
  · exact absurd (congrArg Prod.snd h) (fun h' => by cases h')
  · exact absurd (congrArg Prod.snd h) (fun h' => by cases h')
  · have h1 : a = b := Fin.ext (congrArg (fun g : GSem nD τ sig => g.1.1.val) h)
    have h2 : q = q' := SemLoc.dma.inj (congrArg Prod.snd h)
    rw [h1, h2]

def agCells : Finset (GSem nD τ sig) := Finset.univ.map ⟨cellAt, cellAt_injective⟩

abbrev tokAt : (Dev nD × Bool) ⊕ (Dev nD × Fin 129) → GSem nD τ sig × ℕ × Bool :=
  Sum.elim (fun db => (barCell db.1, 0, db.2)) fun dq => (dmaCell dq.1 dq.2, 0, false)

theorem tokAt_injective : Function.Injective tokAt := by
  rintro (⟨a, x⟩ | ⟨a, q⟩) (⟨b, y⟩ | ⟨b, q'⟩) h
  · have h1 : a = b := Fin.ext (congrArg (fun t : GSem nD τ sig × ℕ × Bool => t.1.1.1.val) h)
    have h2 : x = y := congrArg (fun t : GSem nD τ sig × ℕ × Bool => t.2.2) h
    rw [h1, h2]
  · exact absurd (congrArg (fun t : GSem nD τ sig × ℕ × Bool => t.1.2) h) (fun h' => by cases h')
  · exact absurd (congrArg (fun t : GSem nD τ sig × ℕ × Bool => t.1.2) h) (fun h' => by cases h')
  · have h1 : a = b := Fin.ext (congrArg (fun t : GSem nD τ sig × ℕ × Bool => t.1.1.1.val) h)
    have h2 : q = q' := SemLoc.dma.inj (congrArg (fun t : GSem nD τ sig × ℕ × Bool => t.1.2) h)
    rw [h1, h2]

def agToks : Finset (GSem nD τ sig × ℕ × Bool) := Finset.univ.map ⟨tokAt, tokAt_injective⟩

def u₀ : UU :=
  (initOf (Pipeline.cells cfgs cellOf_inj) (Pipeline.launchToks cfgs cellOf_inj), initOf agCells agToks)

def toks (c : Dev nD) : sProp 𝕄 :=
  iprop((dutyTok ER (barCell c) 0 false ∗ dutyTok ER (barCell c) 0 true) ∗ bigSep Finset.univ fun q : Fin 129 => dutyTok ER (dmaCell c q) 0 false)

def G (c : Dev nD) : sProp 𝕄 :=
  iprop((roundState ER (agRd m) (barCell c) 0 ∗ bigSep Finset.univ fun q : Fin 129 => roundState ER (agRd m) (dmaCell c q) 0)
    ∗ ((atPos ER (barCell c) 0 ∅ 0 ∗ bigSep Finset.univ fun q : Fin 129 => atPos ER (dmaCell c q) 0 ∅ 0)
      ∗ (reached ER (barCell c) 0 ∗ bigSep Finset.univ fun q : Fin 129 => reached ER (dmaCell c q) 0))
    ∗ toks c)

def G' (c : Dev nD) : sProp 𝕄 := iprop(∃ KB KQ, ghost m KB KQ c)

theorem bigSep_bool (Φ : Bool → sProp 𝕄) : bigSep Finset.univ Φ = iprop(Φ false ∗ Φ true) := by
  rw [show (Finset.univ : Finset Bool) = {false, true} from by decide, bigSep_insert (by decide), bigSep_singleton]; rfl

theorem bigSep_cells (Φ : GSem nD τ sig → sProp 𝕄) : bigSep agCells Φ
    = iprop((bigSep Finset.univ fun d : Dev nD => Φ (barCell d)) ∗ bigSep Finset.univ fun d : Dev nD => bigSep Finset.univ fun q : Fin 129 => Φ (dmaCell d q)) := by
  unfold agCells; rw [bigSep_map, bigSep_univ_sum, bigSep_univ_prod]; rfl

theorem bigSep_toks : bigSep agToks (fun x => (dutyTok ER x.1 x.2.1 x.2.2 : sProp 𝕄)) = bigSep Finset.univ fun c : Dev nD => toks c := by
  have e1 : bigSep agToks (fun x => (dutyTok ER x.1 x.2.1 x.2.2 : sProp 𝕄))
      = iprop((bigSep Finset.univ fun d : Dev nD => bigSep Finset.univ fun b : Bool => dutyTok ER (barCell d) 0 b)
          ∗ bigSep Finset.univ fun d : Dev nD => bigSep Finset.univ fun q : Fin 129 => dutyTok ER (dmaCell d q) 0 false) := by
    unfold agToks; rw [bigSep_map, bigSep_univ_sum, bigSep_univ_prod, bigSep_univ_prod]; rfl
  rw [e1, ← bigSep_sep']
  exact bigSep_congr fun d _ => by unfold toks; rw [bigSep_bool]

theorem fund_ag : BI.own (ER (initOf agCells agToks)) ⊢ (|==> bigSep Finset.univ (G m) : sProp 𝕄) := by
  iintro HX
  imod (Rounds.fund ER (agRd m) agCells agToks) $$ HX with ⟨Hst, Hr, Hat, Htok⟩
  imodintro
  ihave Hst' := (Entails.of_eq (bigSep_cells fun g => roundState ER (agRd m) g 0)) $$ Hst
  ihave Hat' := (Entails.of_eq (bigSep_cells fun g => atPos ER g 0 ∅ 0)) $$ Hat
  ihave Hr' := (Entails.of_eq (bigSep_cells fun g => reached ER g 0)) $$ Hr
  ihave Htok' := (Entails.of_eq bigSep_toks) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSep Finset.univ fun q : Fin 129 => semVal (dmaCell c q) 0 := rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop(((∃ κ : ℕ, cellInv ER (agRd m) κ (barCell c)) ∗ bigSep Finset.univ fun q : Fin 129 => iprop(∃ κ : ℕ, cellInv ER (agRd m) κ (dmaCell c q)))
          ∗ ((atPos ER (barCell c) 0 ∅ 0 ∗ bigSep Finset.univ fun q : Fin 129 => atPos ER (dmaCell c q) 0 ∅ 0)
            ∗ (reached ER (barCell c) 0 ∗ bigSep Finset.univ fun q : Fin 129 => reached ER (dmaCell c q) 0))
          ∗ toks c) := by
  rw [ownSems0_eq, unscopedSems0_eq]
  unfold G
  iintro ⟨Hos, Hus, ⟨HsB, HsQ⟩, Hat, Htok⟩
  imod ((Rounds.body_intro ER (agRd m) (barCell c)).trans inv_alloc) $$ [Hus HsB] with HiB
  · isplitl [Hus] <;> iassumption
  imod (show iprop((bigSep Finset.univ fun q : Fin 129 => semVal (dmaCell c q) 0) ∗ bigSep Finset.univ fun q : Fin 129 => roundState ER (agRd m) (dmaCell c q) 0)
      ⊢ (|={Set.univ}=> bigSep Finset.univ fun q : Fin 129 => iprop(∃ κ : ℕ, cellInv ER (agRd m) κ (dmaCell c q)) : sProp 𝕄) from by
        rw [← bigSep_sep']
        exact (bigSep_mono fun q _ => (Rounds.body_intro ER (agRd m) (dmaCell c q)).trans inv_alloc).trans (bigSep_fupd _ _)) $$ [Hos HsQ] with HiQ
  · isplitl [Hos] <;> iassumption
  imodintro
  isplitl [HiB HiQ]
  · isplitl [HiB] <;> iassumption
  iframe # ∗

abbrev yE : Dev nD ≃ Dev nD := ⟨yn, yn, yn_yn, yn_yn⟩
abbrev xE : Dev nD ≃ Dev nD := ⟨xn, xn, xn_xn, xn_xn⟩

theorem toks_around : (bigSep Finset.univ fun c : Dev nD => (toks c : sProp 𝕄)) ⊢ bigSep Finset.univ fun c : Dev nD => payToks c := by
  unfold toks payToks chunkToks
  simp only [bigSep_dma, bigSep_sep']
  rw [bigSep_univ_equiv yE (fun c : Dev nD => (dutyTok ER (barCell c) 0 false : sProp 𝕄)),
    bigSep_univ_equiv xE (fun c : Dev nD => (dutyTok ER (barCell c) 0 true : sProp 𝕄)),
    bigSep_univ_equiv yE (fun c : Dev nD => bigSep Finset.univ fun r : Fin 32 => (dutyTok ER (r1Cell c r) 0 false : sProp 𝕄)),
    bigSep_univ_equiv xE (fun c : Dev nD => bigSep Finset.univ fun r : Fin 32 => (dutyTok ER (r2Cell c r) 0 false : sProp 𝕄))]
  iintro ⟨⟨HBF, HBT⟩, HL, HS1, HR1, HS2, HR2⟩
  iframe # ∗

theorem ghost_intro (KB : Dev nD → ℕ) (KQ : Dev nD × Fin 129 → ℕ) (c : Dev nD) :
    iprop(records m KB KQ ∗ positions c ∗ payToks c) ⊢ G' m c := by
  unfold G' ghost
  iintro H
  iexists KB; iexists KQ
  iexact H

theorem regroup :
    (bigSep Finset.univ fun c : Dev nD => iprop(((∃ κ : ℕ, cellInv ER (agRd m) κ (barCell c)) ∗ bigSep Finset.univ fun q : Fin 129 => iprop(∃ κ : ℕ, cellInv ER (agRd m) κ (dmaCell c q)))
          ∗ ((atPos ER (barCell c) 0 ∅ 0 ∗ bigSep Finset.univ fun q : Fin 129 => atPos ER (dmaCell c q) 0 ∅ 0)
            ∗ (reached ER (barCell c) 0 ∗ bigSep Finset.univ fun q : Fin 129 => reached ER (dmaCell c q) 0))
          ∗ toks c) : sProp 𝕄)
      ⊢ bigSep Finset.univ (G' m) := by
  have hpos : (bigSep Finset.univ fun c : Dev nD => (positions c : sProp 𝕄))
      = iprop((bigSep Finset.univ fun c : Dev nD => atPos ER (barCell c) 0 ∅ 0)
          ∗ bigSep Finset.univ fun c : Dev nD => bigSep Finset.univ fun q : Fin 129 => atPos ER (dmaCell c q) 0 ∅ 0) := by
    unfold positions; rw [bigSep_sep']
  simp only [bigSep_sep']
  rw [← bigSep_univ_prod (fun dq : Dev nD × Fin 129 => iprop(∃ κ : ℕ, cellInv ER (agRd m) κ (dmaCell dq.1 dq.2))),
    ← bigSep_univ_prod (fun dq : Dev nD × Fin 129 => (reached ER (dmaCell dq.1 dq.2) 0 : sProp 𝕄))]
  iintro ⟨⟨HIB, HIQ⟩, ⟨⟨HaB, HaQ⟩, #HrB, #HrQ⟩, Htok⟩
  ihave HKB := (BI.bigSep_exists_pi Finset.univ (fun (d : Dev nD) (κ : ℕ) => (cellInv ER (agRd m) κ (barCell d) : sProp 𝕄))) $$ HIB
  icases HKB with ⟨%KB, #HIB⟩
  ihave HKQ := (BI.bigSep_exists_pi Finset.univ (fun (dq : Dev nD × Fin 129) (κ : ℕ) => (cellInv ER (agRd m) κ (dmaCell dq.1 dq.2) : sProp 𝕄))) $$ HIQ
  icases HKQ with ⟨%KQ, #HIQ⟩
  ihave Htk := (toks_around (F := F)) $$ Htok
  iapply (bigSep_with_persistent (R := records m KB KQ) fun c _ => ghost_intro m KB KQ c)
  isplitr
  · unfold records
    iframe # ∗
  · iapply (Entails.of_eq (bigSep_sep' Finset.univ (fun c : Dev nD => (positions c : sProp 𝕄)) payToks).symm)
    isplitl [HaB HaQ]
    · iapply (Entails.of_eq hpos.symm)
      isplitl [HaB] <;> iassumption
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem cred_owe1 (c : Dev nD) :
    (Pipeline.launchCred (fun d : Dev nD => owe1 d 0) c : sProp 𝕄) ⊢ bigSep Finset.univ fun r : Fin 32 => cred (tallyAt (r1Cell c r) () Nc) := by
  have e : (fun d : Dev nD => owe1 d 0) = fun d : Dev nD => ∑ r ∈ (Finset.univ : Finset (Fin 32)), (tallyAt (r1Cell (yn d) r) () Nc : CellTallies nD τ sig Unit) := by
    funext d; unfold owe1; rw [Finset.filter_true_of_mem fun r _ => Nat.zero_le _]
  rw [e, Pipeline.launchCred_sum Finset.univ (fun (r : Fin 32) (d : Dev nD) => (tallyAt (r1Cell (yn d) r) () Nc : CellTallies nD τ sig Unit)) c]
  exact bigSep_mono fun r _ => Pipeline.launchCred_tallyAt (.dma (r1Q r)) yn yn yn_yn yn_yn () Nc c

theorem cred_owe2 (c : Dev nD) :
    (Pipeline.launchCred (fun d : Dev nD => owe2 d 0) c : sProp 𝕄) ⊢ bigSep Finset.univ fun r : Fin 32 => cred (tallyAt (r2Cell c r) () Nc) := by
  have e : (fun d : Dev nD => owe2 d 0) = fun d : Dev nD => ∑ r ∈ (Finset.univ : Finset (Fin 32)), (tallyAt (r2Cell (xn d) r) () Nc : CellTallies nD τ sig Unit) := by
    funext d; unfold owe2; rw [Finset.filter_true_of_mem fun r _ => Nat.zero_le _]
  rw [e, Pipeline.launchCred_sum Finset.univ (fun (r : Fin 32) (d : Dev nD) => (tallyAt (r2Cell (xn d) r) () Nc : CellTallies nD τ sig Unit)) c]
  exact bigSep_mono fun r _ => Pipeline.launchCred_tallyAt (.dma (r2Q r)) xn xn xn_xn xn_xn () Nc c

theorem bar_two (c : Dev nD) :
    iprop(cred (tallyAt (barCell c) () 1) ∗ cred (tallyAt (barCell c) () 1)) ⊢ (cred (tallyAt (barCell c) () 2) : sProp 𝕄) := by
  rw [show (tallyAt (barCell c) () 2 : CellTallies nD τ sig Unit) = tallyAt (barCell c) () 1 + tallyAt (barCell c) () 1 from (tallyAt_add (barCell c) () 1 1).symm]
  exact (cred_add _ _).2

theorem creds (c : Dev nD) : (Pipeline.launchCred O₀ c : sProp 𝕄) ⊢ launchCreds c := by
  have e : (O₀ : Dev nD → CellTallies nD τ sig Unit)
      = fun d => ((owe1 d 0 + owe2 d 0) + tallyAt (barCell (xn d)) () 1) + tallyAt (barCell (yn d)) () 1 := rfl
  rw [e, Pipeline.launchCred_add (fun d : Dev nD => (owe1 d 0 + owe2 d 0) + tallyAt (barCell (xn d)) () 1) (fun d : Dev nD => tallyAt (barCell (yn d)) () 1) c,
    Pipeline.launchCred_add (fun d : Dev nD => owe1 d 0 + owe2 d 0) (fun d : Dev nD => tallyAt (barCell (xn d)) () 1) c,
    Pipeline.launchCred_add (fun d : Dev nD => owe1 d 0) (fun d : Dev nD => owe2 d 0) c]
  unfold launchCreds
  rw [bigSep_sep']
  iintro ⟨⟨⟨H1, H2⟩, HX⟩, HY⟩
  ihave H1' := (cred_owe1 (F := F) c) $$ H1
  ihave H2' := (cred_owe2 (F := F) c) $$ H2
  ihave HX' := (Pipeline.launchCred_tallyAt (.reg barS) xn xn xn_xn xn_xn () 1 c) $$ HX
  ihave HY' := (Pipeline.launchCred_tallyAt (.reg barS) yn yn yn_yn yn_yn () 1 c) $$ HY
  isplitl [HX' HY']
  · iapply (bar_two (F := F) c)
    isplitl [HX'] <;> iassumption
  isplitl [H1'] <;> iassumption

def X (c : Dev nD) : sProp 𝕄 :=
  iprop(start m c ∗ (((c : Thread nD τ).loc main_arg0) ↦{fullShare} xs m c) ∗ (((c : Thread nD τ).loc main_v1) ↦{fullShare} m ((c : Thread nD τ).loc main_v1)))
def Y (c : Dev nD) : sProp 𝕄 :=
  iprop((((c : Thread nD τ).loc main_arg0) ↦{fullShare} xs m c) ∗ (((c : Thread nD τ).loc main_v1) ↦{fullShare} gat m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨⟨Hx, Ho⟩, Hlev, Hcr, -, HG⟩
  ihave Hc := (creds (F := F) c) $$ Hcr
  imodintro
  unfold X start G'
  isplitl
  · isplitl [HG Hc Hlev]
    · iframe # ∗
    iframe # ∗
  · iempintro

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀ X
  iintro ⟨⟨Hs, Hx, Ho⟩, -, -⟩
  isplitl [Hs]; · iexact Hs
  isplitl [Hx]; · iexact Hx
  iexists _; iexact Ho

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq]
  unfold Φ₁ Y
  iintro ⟨Hx, Ho, Hz⟩
  isplitl [Hx Ho]
  · isplitl [Hx] <;> iassumption
  isplitl [Hz]; · iexact Hz
  iempintro

theorem waits (c : Dev nD) : (levAts L lv : sProp 𝕄) ⊢ Pipeline.cellsWaits cfgs (dats m) () 0 c :=
  Pipeline.cellsWaits_intro cfgs (dats m) () 0 c fun w => w.elim0

set_option maxRecDepth 100000 in
-- The four bodies, each from its share of the launch state, run to the end: every argument block unchanged, every result gathered.
theorem run_main :
    θ_run (defs (F := F)) (onTc (τ := τ) (main (F := F))) ⟨m, fun _ => 0, ρ⟩ (fun r => ∀ c : Dev nD,
      r.2.mem ((c : Thread nD τ).loc main_v1) = outFinal (fun d => m ((d : Thread nD τ).loc main_arg0)) c
      ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ag m) $$ HX with HG
      imodintro
      isplitl [HP] <;> iassumption)
    (hglob := glob m)
    (hA := fun _ w => w.elim0) (hpf := fun _ k => k.elim0)
    (X := X m) (Y := Y m) (Z := fun _ => iprop(emp))
    (hX := start_intro m ρ) (hin := phi0_intro m) (hout := phi1_exit m)
    (QY := fun c s => s.mem ((c : Thread nD τ).loc main_v1) = gat m c ∧ s.mem ((c : Thread nD τ).loc main_arg0) = xs m c)
    (hY := fun c s' => by
      unfold Y
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun _ h c => (h c).2.2)

end Cert.KernelIdeal.AG

end
-- ==== Proof.AGK.Geom.lean ====
import proofs.«900103_g7700000000000104_dist_ag_v7x_xy2x2_y_m4096_n1024_f32_1_alg».proof.Proof.Gen.Kernel
import Idealize.ShloMosaic.Lib.ValueIdx

noncomputable section

namespace Cert.Kernel.AG

open Cert.Kernel Cert.Kernel.Gen
open Idealize.ShloMosaic Idealize.ShloMosaic.TcCoe

variable {F : FTy → Type}

-- Device `c` sits at mesh coordinates (c / 2, c % 2); `yn c` is its neighbour along y, `xn c` its neighbour along x.
def yn (c : Dev nD) : Dev nD := ⟨(2 * (c.val / 2) + 1) - c.val % 2, by have : c.val < 4 := c.isLt; show _ < 4; omega⟩

def xn (c : Dev nD) : Dev nD := ⟨(c.val % 2 + 2) - 2 * (c.val / 2), by have : c.val < 4 := c.isLt; show _ < 4; omega⟩

theorem yn_yn (c : Dev nD) : yn (yn c) = c := by revert c; decide
theorem xn_xn (c : Dev nD) : xn (xn c) = c := by revert c; decide
theorem yn_xn (c : Dev nD) : yn (xn c) = xn (yn c) := by revert c; decide
theorem yn_ne (c : Dev nD) : yn c ≠ c := by revert c; decide
theorem xn_ne (c : Dev nD) : xn c ≠ c := by revert c; decide
theorem xn_ne_yn (c : Dev nD) : xn c ≠ yn c := by revert c; decide
theorem yn_val (c : Dev nD) : (yn c).val = (2 * (c.val / 2) + 1) - c.val % 2 := rfl
theorem xn_val (c : Dev nD) : (xn c).val = (c.val % 2 + 2) - 2 * (c.val / 2) := rfl

theorem dev_eq_yn (c : Dev nD) (n : ℕ) (h : n < nD) (hn : n = (2 * (c.val / 2) + 1) - c.val % 2) : (⟨n, h⟩ : Dev nD) = yn c := Fin.ext hn
theorem dev_eq_xn (c : Dev nD) (n : ℕ) (h : n < nD) (hn : n = (c.val % 2 + 2) - 2 * (c.val / 2)) : (⟨n, h⟩ : Dev nD) = xn c := Fin.ext hn

abbrev xM : Memref sig .tc .hbm S4096x1024 .f32 := Memref.whole main_arg0
abbrev oM : Memref sig .tc .hbm S8192x1024 .f32 := Memref.whole main_v1

abbrev wOf (r : Fin 32) : BitVec 32 := BitVec.ofNat 32 (64 * r.val)

abbrev xCh (c : Dev nD) (r : Fin 32) : Memref sig .tc .hbm S64x1024 .f32 :=
  xM.slice (Rect.unit (s := S4096x1024) (k0_off3 c (wOf r)) S64x1024.size (k0_off3_inb c r)) (fun _ => rfl)

abbrev oCh1 (c : Dev nD) (r : Fin 32) : Memref sig .tc .hbm S64x1024 .f32 :=
  oM.slice (Rect.unit (s := S8192x1024) (k0_off2 c (wOf r)) S64x1024.size (k0_off2_inb c r)) (fun _ => rfl)

abbrev oCh2 (c : Dev nD) (r : Fin 32) : Memref sig .tc .hbm S64x1024 .f32 :=
  oM.slice (Rect.unit (s := S8192x1024) (k0_off4 c (wOf r)) S64x1024.size (k0_off4_inb c r)) (fun _ => rfl)

abbrev oLoc (c : Dev nD) : Memref sig .tc .hbm S4096x1024 .f32 :=
  oM.slice (Rect.unit (s := S8192x1024) (k0_off1 c) S4096x1024.size (k0_off1_inb c)) (fun _ => rfl)

def xIdx (i : S8192x1024.Idx) : S4096x1024.Idx :=
  ValueIdx.ix2 ⟨(i 0).val % 4096, Nat.mod_lt _ (by decide)⟩ ⟨(i 1).val, (i 1).isLt⟩

def srcDev (c : Dev nD) (i : S8192x1024.Idx) : Dev nD :=
  if (i 0).val / 4096 = c.val % 2 then c else if ((i 0).val % 4096) / 2048 = c.val / 2 then yn c else yn (xn c)

def outFinal (xs : (d : Dev nD) → Buf (Elt F) ((d : Thread nD τ).loc main_arg0)) (c : Dev nD) : Buf (Elt F) ((c : Thread nD τ).loc main_v1) :=
  fun i => xs (srcDev c i) (xIdx i)

end Cert.Kernel.AG

end
-- ==== Proof.AGK.Core.lean ====
import proofs.«900103_g7700000000000104_dist_ag_v7x_xy2x2_y_m4096_n1024_f32_1_alg».proof.Proof.AGK.Geom
import proofs.«900103_g7700000000000104_dist_ag_v7x_xy2x2_y_m4096_n1024_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

abbrev xs (d : Dev nD) : Buf (Elt F) ((d : Thread nD τ).loc main_arg0) := m ((d : Thread nD τ).loc main_arg0)
abbrev gat (c : Dev nD) : Buf (Elt F) ((c : Thread nD τ).loc main_v1) := outFinal (xs m) c

abbrev barS : Sem sig := (SemArray.scalar (sig.barrier 0 rfl) : Sems sig S_).sem

abbrev locQ : DmaSem sig := ⟨0, by decide⟩
abbrev s1Q (r : Fin 32) : DmaSem sig := ⟨1 + r.val, by have := r.isLt; show _ < 129; omega⟩
abbrev r1Q (r : Fin 32) : DmaSem sig := ⟨33 + r.val, by have := r.isLt; show _ < 129; omega⟩
abbrev s2Q (r : Fin 32) : DmaSem sig := ⟨65 + r.val, by have := r.isLt; show _ < 129; omega⟩
abbrev r2Q (r : Fin 32) : DmaSem sig := ⟨97 + r.val, by have := r.isLt; show _ < 129; omega⟩

abbrev barCell (c : Dev nD) : GSem nD τ sig := ((c : Thread nD τ), .reg barS)
abbrev dmaCell (c : Dev nD) (q : DmaSem sig) : GSem nD τ sig := ((c : Thread nD τ), .dma q)
abbrev locCell (c : Dev nD) : GSem nD τ sig := dmaCell c locQ
abbrev s1Cell (c : Dev nD) (r : Fin 32) : GSem nD τ sig := dmaCell c (s1Q r)
abbrev r1Cell (c : Dev nD) (r : Fin 32) : GSem nD τ sig := dmaCell c (r1Q r)
abbrev s2Cell (c : Dev nD) (r : Fin 32) : GSem nD τ sig := dmaCell c (s2Q r)
abbrev r2Cell (c : Dev nD) (r : Fin 32) : GSem nD τ sig := dmaCell c (r2Q r)

abbrev osem : Fin 129 → SemLoc sig := fun q => .dma q

abbrev csem : Fin 130 → SemLoc sig := fun j => if h : j.val = 0 then .reg barS else .dma ⟨j.val - 1, by have := j.isLt; show _ < 129; omega⟩
abbrev kcell (cj : Dev nD × Fin 130) : GSem nD τ sig := ((cj.1 : Thread nD τ), csem cj.2)

abbrev Nc : ℕ := (oCh1 (0 : Dev nD) (0 : Fin 32)).view.dmaCredit
abbrev Nl : ℕ := (oLoc (0 : Dev nD)).view.dmaCredit
theorem Nc_pos : 0 < Nc := View.dmaCredit_pos _ (by decide)
theorem Nl_pos : 0 < Nl := View.dmaCredit_pos _ (by decide)

def chunkOf (q : DmaSem sig) : Fin 32 := ⟨(q.val - 1) % 32, Nat.mod_lt _ (by decide)⟩
def famOf (q : DmaSem sig) : ℕ := (q.val - 1) / 32

def barPayY (c : Dev nD) : sProp 𝕄 :=
  bigSep Finset.univ fun r : Fin 32 => iprop(∃ f, (oCh1 c r).view.loc (yn c : Thread nD τ) ↦[(oCh1 c r).view.set]{fullShare} f)

def barPayX (c : Dev nD) : sProp 𝕄 :=
  bigSep Finset.univ fun r : Fin 32 => iprop(∃ f, (oCh2 c r).view.loc (xn c : Thread nD τ) ↦[(oCh2 c r).view.set]{fullShare} f)

def locPay (c : Dev nD) : sProp 𝕄 :=
  iprop(((oLoc c).view.loc (c : Thread nD τ) ↦[(oLoc c).view.set]{fullShare} gat m c)
    ∗ (xM.view.loc (c : Thread nD τ) ↦[xM.view.set]{fullShare.left} xs m c))

def s1Pay (c : Dev nD) (r : Fin 32) : sProp 𝕄 :=
  (xCh c r).view.loc (c : Thread nD τ) ↦[(xCh c r).view.set]{fullShare.right} xs m c

def r1Pay (c : Dev nD) (r : Fin 32) : sProp 𝕄 :=
  (oCh2 c r).view.loc (c : Thread nD τ) ↦[(oCh2 c r).view.set]{fullShare} gat m c

def r2Pay (c : Dev nD) (r : Fin 32) : sProp 𝕄 :=
  (oCh2 (xn c) r).view.loc (c : Thread nD τ) ↦[(oCh2 (xn c) r).view.set]{fullShare} gat m c

def dmaPay (c : Dev nD) (q : DmaSem sig) : sProp 𝕄 :=
  if q.val = 0 then locPay m c
  else if famOf q = 0 then s1Pay m c (chunkOf q)
  else if famOf q = 1 then r1Pay m c (chunkOf q)
  else if famOf q = 2 then r1Pay m c (chunkOf q)
  else r2Pay m c (chunkOf q)

-- One round on every semaphore: two unit duties on a barrier cell, one duty of its transfer's credit on every other cell.
def agRd : Rounds.Schedule (GSem nD τ sig) Bool 𝕄 where
  duties g r := if r = 0 ∧ g.1.2 = .tc then (match g.2 with | .reg s => if s = barS then Finset.univ else ∅ | .dma _ => {false}) else ∅
  unitless _ := False
  amount g _ _ := match g.2 with | .reg _ => 1 | .dma q => if q.val = 0 then Nl else Nc
  payload g _ d := match g.2 with
    | .reg _ => if d then barPayX g.1.1 else barPayY g.1.1
    | .dma q => dmaPay m g.1.1 q
  amount_pos g _ _ _ := by
    show 0 < (match g.2 with | .reg _ => 1 | .dma q => if q.val = 0 then Nl else Nc)
    split
    · exact Nat.one_pos
    · split
      · exact Nl_pos
      · exact Nc_pos

instance agRd_payload_storable (g : GSem nD τ sig) (r : ℕ) (d : Bool) :
    BI.Storable (upEmb : UEmb _ 𝕄) ((agRd (F := F) m).payload g r d) := by
  show BI.Storable upEmb (match g.2 with
    | .reg _ => if d then barPayX g.1.1 else barPayY g.1.1
    | .dma q => dmaPay m g.1.1 q)
  unfold dmaPay barPayX barPayY locPay s1Pay r1Pay r2Pay
  (repeat' split) <;> infer_instance

def owe1 (c : Dev nD) (a : ℕ) : CellTallies nD τ sig Unit :=
  ∑ r ∈ Finset.univ.filter (fun r : Fin 32 => a ≤ r.val), tallyAt (r1Cell (yn c) r) () Nc
def owe2 (c : Dev nD) (b : ℕ) : CellTallies nD τ sig Unit :=
  ∑ r ∈ Finset.univ.filter (fun r : Fin 32 => b ≤ r.val), tallyAt (r2Cell (xn c) r) () Nc
def Owe (c : Dev nD) (a b : ℕ) : CellTallies nD τ sig Unit := owe1 c a + owe2 c b

def O₁ (c : Dev nD) : CellTallies nD τ sig Unit := Owe c 0 0 + tallyAt (barCell (xn c)) () 1
def O₀ (c : Dev nD) : CellTallies nD τ sig Unit := O₁ c + tallyAt (barCell (yn c)) () 1

def L (g : GSem nD τ sig) : Finset Unit := if g.1.2 = .tc then {()} else ∅

-- Barrier cells at level 1, first-phase landings at 2, second-phase landings at 3: a device waits only below everything it still owes.
def lv (g : GSem nD τ sig) (_ : Unit) : ℕ :=
  match g.2 with
  | .reg _ => 1
  | .dma q => if 97 ≤ q.val then 3 else if 33 ≤ q.val ∧ q.val < 65 then 2 else 0

def records (KB : Dev nD → ℕ) (KQ : Dev nD × Fin 129 → ℕ) : sProp 𝕄 :=
  iprop((bigSep Finset.univ fun d : Dev nD => cellInv ER (agRd m) (KB d) (barCell d))
    ∗ (bigSep Finset.univ fun dq : Dev nD × Fin 129 => cellInv ER (agRd m) (KQ dq) (dmaCell dq.1 dq.2))
    ∗ (bigSep Finset.univ fun d : Dev nD => reached ER (barCell d) 0)
    ∗ (bigSep Finset.univ fun dq : Dev nD × Fin 129 => reached ER (dmaCell dq.1 dq.2) 0))

instance records_persistent (KB : Dev nD → ℕ) (KQ : Dev nD × Fin 129 → ℕ) : BI.Persistent (records m KB KQ) := by
  unfold records; infer_instance

def positions (c : Dev nD) : sProp 𝕄 :=
  iprop(atPos ER (barCell c) 0 ∅ 0 ∗ bigSep Finset.univ fun q : Fin 129 => atPos ER (dmaCell c q) 0 ∅ 0)

def chunkToks (c : Dev nD) (r : Fin 32) : sProp 𝕄 :=
  iprop(dutyTok ER (s1Cell c r) 0 false ∗ dutyTok ER (r1Cell (yn c) r) 0 false ∗ dutyTok ER (s2Cell c r) 0 false ∗ dutyTok ER (r2Cell (xn c) r) 0 false)
def payToks (c : Dev nD) : sProp 𝕄 :=
  iprop(dutyTok ER (barCell (yn c)) 0 false ∗ dutyTok ER (barCell (xn c)) 0 true ∗ dutyTok ER (locCell c) 0 false
    ∗ bigSep Finset.univ fun r : Fin 32 => chunkToks c r)

def ghost (KB : Dev nD → ℕ) (KQ : Dev nD × Fin 129 → ℕ) (c : Dev nD) : sProp 𝕄 :=
  iprop(records m KB KQ ∗ positions c ∗ payToks c)

def launchCreds (c : Dev nD) : sProp 𝕄 :=
  iprop(cred (tallyAt (barCell c) () 2)
    ∗ bigSep Finset.univ fun r : Fin 32 => iprop(cred (tallyAt (r1Cell c r) () Nc) ∗ cred (tallyAt (r2Cell c r) () Nc)))

def start (c : Dev nD) : sProp 𝕄 :=
  iprop((∃ KB KQ, ghost m KB KQ c) ∗ launchCreds c ∗ levAts L lv)

def Φ₀ (c : Dev nD) : sProp 𝕄 :=
  iprop(start m c ∗ (((c : Thread nD τ).loc main_arg0) ↦{fullShare} xs m c) ∗ ∃ f, (((c : Thread nD τ).loc main_v1) ↦{fullShare} f))

def Φ₁ (c : Dev nD) : sProp 𝕄 :=
  iprop((((c : Thread nD τ).loc main_arg0) ↦{fullShare} xs m c) ∗ (((c : Thread nD τ).loc main_v1) ↦{fullShare} gat m c)
    ∗ bigSep Finset.univ fun q : Fin 129 => semVal (dmaCell c q) 0)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.AG

end
-- ==== Proof.AGK.Inv.lean ====
import proofs.«900103_g7700000000000104_dist_ag_v7x_xy2x2_y_m4096_n1024_f32_1_alg».proof.Proof.AGK.Core

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def dst1 (c : Dev nD) (r : Fin 32) : sProp 𝕄 := iprop(∃ f, (oCh1 c r).view.loc (yn c : Thread nD τ) ↦[(oCh1 c r).view.set]{fullShare} f)
def dst2 (c : Dev nD) (r : Fin 32) : sProp 𝕄 := iprop(∃ f, (oCh2 c r).view.loc (xn c : Thread nD τ) ↦[(oCh2 c r).view.set]{fullShare} f)

abbrev pS1 (c : Dev nD) (r : Fin 32) : sProp 𝕄 := atPos ER (s1Cell c r) 0 ∅ 0
abbrev pR1 (c : Dev nD) (r : Fin 32) : sProp 𝕄 := atPos ER (r1Cell c r) 0 ∅ 0
abbrev pS2 (c : Dev nD) (r : Fin 32) : sProp 𝕄 := atPos ER (s2Cell c r) 0 ∅ 0
abbrev pR2 (c : Dev nD) (r : Fin 32) : sProp 𝕄 := atPos ER (r2Cell c r) 0 ∅ 0
abbrev zS1 (c : Dev nD) (r : Fin 32) : sProp 𝕄 := semVal (s1Cell c r) 0
abbrev zR1 (c : Dev nD) (r : Fin 32) : sProp 𝕄 := semVal (r1Cell c r) 0
abbrev zS2 (c : Dev nD) (r : Fin 32) : sProp 𝕄 := semVal (s2Cell c r) 0
abbrev zR2 (c : Dev nD) (r : Fin 32) : sProp 𝕄 := semVal (r2Cell c r) 0
abbrev cS1 (c : Dev nD) (r : Fin 32) : sProp 𝕄 := cred (tallyAt (s1Cell c r) () Nc)
abbrev cR1 (c : Dev nD) (r : Fin 32) : sProp 𝕄 := cred (tallyAt (r1Cell c r) () Nc)
abbrev cS2 (c : Dev nD) (r : Fin 32) : sProp 𝕄 := cred (tallyAt (s2Cell c r) () Nc)
abbrev cR2 (c : Dev nD) (r : Fin 32) : sProp 𝕄 := cred (tallyAt (r2Cell c r) () Nc)
abbrev tS1 (c : Dev nD) (r : Fin 32) : sProp 𝕄 := dutyTok ER (s1Cell c r) 0 false
abbrev tR1 (c : Dev nD) (r : Fin 32) : sProp 𝕄 := dutyTok ER (r1Cell (yn c) r) 0 false
abbrev tS2 (c : Dev nD) (r : Fin 32) : sProp 𝕄 := dutyTok ER (s2Cell c r) 0 false
abbrev tR2 (c : Dev nD) (r : Fin 32) : sProp 𝕄 := dutyTok ER (r2Cell (xn c) r) 0 false

-- What the device holds of chunk `r` after `k` of the six operations it performs on it: issue, landing, forwarding, forwarded landing, the two departures.
def chunkSt (c : Dev nD) (r : Fin 32) : ℕ → sProp 𝕄
  | 0 => iprop(tS1 c r ∗ tR1 c r ∗ tS2 c r ∗ tR2 c r ∗ pS1 c r ∗ pR1 c r ∗ pS2 c r ∗ pR2 c r ∗ cR1 c r ∗ cR2 c r ∗ s1Pay m c r ∗ dst1 c r ∗ dst2 c r)
  | 1 => iprop(tS2 c r ∗ tR2 c r ∗ pS1 c r ∗ pR1 c r ∗ pS2 c r ∗ pR2 c r ∗ cR1 c r ∗ cR2 c r ∗ cS1 c r ∗ dst2 c r)
  | 2 => iprop(tS2 c r ∗ tR2 c r ∗ pS1 c r ∗ zR1 c r ∗ pS2 c r ∗ pR2 c r ∗ cR2 c r ∗ cS1 c r ∗ dst2 c r ∗ r1Pay m c r)
  | 3 => iprop(pS1 c r ∗ zR1 c r ∗ pS2 c r ∗ pR2 c r ∗ cR2 c r ∗ cS1 c r ∗ cS2 c r)
  | 4 => iprop(pS1 c r ∗ zR1 c r ∗ pS2 c r ∗ zR2 c r ∗ cS1 c r ∗ cS2 c r ∗ r2Pay m c r)
  | 5 => iprop(zS1 c r ∗ zR1 c r ∗ pS2 c r ∗ zR2 c r ∗ cS2 c r ∗ r2Pay m c r ∗ s1Pay m c r)
  | 6 => iprop(zS1 c r ∗ zR1 c r ∗ zS2 c r ∗ zR2 c r ∗ r2Pay m c r ∗ s1Pay m c r ∗ r1Pay m c r)
  | _ + 7 => iprop(emp)

def ChunksOwes (c : Dev nD) (a b : ℕ) (st : Fin 32 → ℕ) : sProp 𝕄 :=
  iprop(∃ W : Waits sig Unit, owes (c : Thread nD τ) (Owe c a b) W ∗ bigSep Finset.univ fun r : Fin 32 => chunkSt m c r (st r))

-- Every counter that has passed chunk `r` adds one stage to it.
def stOf (n1 n2 n3 n4 n5 n6 : ℕ) : Fin 32 → ℕ := fun r =>
  (if r.val < n1 then 1 else 0) + (if r.val < n2 then 1 else 0) + (if r.val < n3 then 1 else 0)
    + (if r.val < n4 then 1 else 0) + (if r.val < n5 then 1 else 0) + (if r.val < n6 then 1 else 0)

theorem chunk_acc (c : Dev nD) (r : Fin 32) (st st' : Fin 32 → ℕ) (h : ∀ r' : Fin 32, r' ≠ r → st' r' = st r') :
    (bigSep Finset.univ fun r' : Fin 32 => chunkSt m c r' (st r'))
      ⊢ iprop(chunkSt m c r (st r) ∗ (chunkSt m c r (st' r) -∗ bigSep Finset.univ fun r' : Fin 32 => chunkSt m c r' (st' r'))) := by
  rw [bigSep_univ_at (fun r' : Fin 32 => chunkSt m c r' (st r')) r, bigSep_univ_at (fun r' : Fin 32 => chunkSt m c r' (st' r')) r,
    bigSep_congr (s := Finset.univ.erase r) (Φ := fun r' : Fin 32 => chunkSt m c r' (st' r')) (Ψ := fun r' : Fin 32 => chunkSt m c r' (st r'))
      (fun i hi => by rw [h i (Finset.ne_of_mem_erase hi)])]
  iintro ⟨H, Hrest⟩
  isplitl [H]
  · iexact H
  · iintro H'
    isplitl [H']
    · iexact H'
    · iexact Hrest

end Cert.Kernel.AG

end
-- ==== Proof.AGK.Tables.lean ====
import proofs.«900103_g7700000000000104_dist_ag_v7x_xy2x2_y_m4096_n1024_f32_1_alg».proof.Proof.AGK.Core

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem chunkOf_s1 (r : Fin 32) : chunkOf (s1Q r) = r := Fin.ext (by have := r.isLt; show (1 + r.val - 1) % 32 = r.val; omega)
theorem chunkOf_r1 (r : Fin 32) : chunkOf (r1Q r) = r := Fin.ext (by have := r.isLt; show (33 + r.val - 1) % 32 = r.val; omega)
theorem chunkOf_s2 (r : Fin 32) : chunkOf (s2Q r) = r := Fin.ext (by have := r.isLt; show (65 + r.val - 1) % 32 = r.val; omega)
theorem chunkOf_r2 (r : Fin 32) : chunkOf (r2Q r) = r := Fin.ext (by have := r.isLt; show (97 + r.val - 1) % 32 = r.val; omega)
theorem famOf_s1 (r : Fin 32) : famOf (s1Q r) = 0 := by have := r.isLt; show (1 + r.val - 1) / 32 = 0; omega
theorem famOf_r1 (r : Fin 32) : famOf (r1Q r) = 1 := by have := r.isLt; show (33 + r.val - 1) / 32 = 1; omega
theorem famOf_s2 (r : Fin 32) : famOf (s2Q r) = 2 := by have := r.isLt; show (65 + r.val - 1) / 32 = 2; omega
theorem famOf_r2 (r : Fin 32) : famOf (r2Q r) = 3 := by have := r.isLt; show (97 + r.val - 1) / 32 = 3; omega

omit [FloatOps F] in
theorem dmaPay_loc (c : Dev nD) : dmaPay m c locQ = locPay m c := by
  unfold dmaPay; exact if_pos rfl
omit [FloatOps F] in
theorem dmaPay_s1 (c : Dev nD) (r : Fin 32) : dmaPay m c (s1Q r) = s1Pay m c r := by
  have h0 : ¬ (s1Q r).val = 0 := by show ¬ (1 + r.val = 0); omega
  unfold dmaPay
  rw [if_neg h0, if_pos (famOf_s1 r), chunkOf_s1]
omit [FloatOps F] in
theorem dmaPay_r1 (c : Dev nD) (r : Fin 32) : dmaPay m c (r1Q r) = r1Pay m c r := by
  have h0 : ¬ (r1Q r).val = 0 := by show ¬ (33 + r.val = 0); omega
  have h1 : ¬ famOf (r1Q r) = 0 := by rw [famOf_r1]; decide
  unfold dmaPay
  rw [if_neg h0, if_neg h1, if_pos (famOf_r1 r), chunkOf_r1]
omit [FloatOps F] in
theorem dmaPay_s2 (c : Dev nD) (r : Fin 32) : dmaPay m c (s2Q r) = r1Pay m c r := by
  have h0 : ¬ (s2Q r).val = 0 := by show ¬ (65 + r.val = 0); omega
  have h1 : ¬ famOf (s2Q r) = 0 := by rw [famOf_s2]; decide
  have h2 : ¬ famOf (s2Q r) = 1 := by rw [famOf_s2]; decide
  unfold dmaPay
  rw [if_neg h0, if_neg h1, if_neg h2, if_pos (famOf_s2 r), chunkOf_s2]
omit [FloatOps F] in
theorem dmaPay_r2 (c : Dev nD) (r : Fin 32) : dmaPay m c (r2Q r) = r2Pay m c r := by
  have h0 : ¬ (r2Q r).val = 0 := by show ¬ (97 + r.val = 0); omega
  have h1 : ¬ famOf (r2Q r) = 0 := by rw [famOf_r2]; decide
  have h2 : ¬ famOf (r2Q r) = 1 := by rw [famOf_r2]; decide
  have h3 : ¬ famOf (r2Q r) = 2 := by rw [famOf_r2]; decide
  unfold dmaPay
  rw [if_neg h0, if_neg h1, if_neg h2, if_neg h3, chunkOf_r2]

section Tables
variable (c : Dev nD) (r : Fin 32)

omit [FloatOps F] in
theorem duties_bar : (agRd (F := F) m).duties (barCell c) 0 = Finset.univ := by
  dsimp only [agRd]; rw [if_pos ⟨rfl, rfl⟩]; exact if_pos rfl
omit [FloatOps F] in
theorem duties_dma (q : DmaSem sig) : (agRd (F := F) m).duties (dmaCell c q) 0 = {false} := by
  dsimp only [agRd]; exact if_pos ⟨rfl, rfl⟩
omit [FloatOps F] in
theorem duties_later (g : GSem nD τ sig) : ∀ r, 1 ≤ r → (agRd (F := F) m).duties g r = ∅ := fun r hr => by
  dsimp only [agRd]; exact if_neg fun h => by omega

omit [FloatOps F] in
theorem amount_bar (d : Bool) : (agRd (F := F) m).amount (barCell c) 0 d = 1 := by dsimp only [agRd]
omit [FloatOps F] in
theorem amount_loc (d : Bool) : (agRd (F := F) m).amount (locCell c) 0 d = Nl := by
  dsimp only [agRd]; exact if_pos rfl
omit [FloatOps F] in
theorem amount_dma (q : DmaSem sig) (hq : q.val ≠ 0) (d : Bool) : (agRd (F := F) m).amount (dmaCell c q) 0 d = Nc := by
  dsimp only [agRd]; exact if_neg hq
omit [FloatOps F] in
theorem expect_bar : (agRd (F := F) m).expect (barCell c) 0 = 2 := by
  unfold Schedule.expect Schedule.amountOf
  rw [duties_bar, Finset.sum_congr rfl fun d _ => amount_bar m c d, Finset.sum_const, Finset.card_univ, Fintype.card_bool, smul_eq_mul]
omit [FloatOps F] in

theorem amount_dma0 (q : DmaSem sig) (hq : q.val = 0) (d : Bool) : (agRd (F := F) m).amount (dmaCell c q) 0 d = Nl := by
  dsimp only [agRd]; exact if_pos hq
omit [FloatOps F] in
theorem expect_dma0 (q : DmaSem sig) (hq : q.val = 0) : (agRd (F := F) m).expect (dmaCell c q) 0 = Nl := by
  unfold Schedule.expect Schedule.amountOf; rw [duties_dma, Finset.sum_singleton, amount_dma0 m c q hq]
omit [FloatOps F] in
theorem expect_loc : (agRd (F := F) m).expect (locCell c) 0 = Nl := expect_dma0 m c locQ rfl
omit [FloatOps F] in
theorem expect_dma (q : DmaSem sig) (hq : q.val ≠ 0) : (agRd (F := F) m).expect (dmaCell c q) 0 = Nc := by
  unfold Schedule.expect Schedule.amountOf; rw [duties_dma, Finset.sum_singleton, amount_dma m c q hq]

omit [FloatOps F] in
theorem payload_bar_false : (agRd (F := F) m).payload (barCell c) 0 false = barPayY c := by
  dsimp only [agRd]; exact if_neg Bool.false_ne_true
omit [FloatOps F] in
theorem payload_bar_true : (agRd (F := F) m).payload (barCell c) 0 true = barPayX c := by
  dsimp only [agRd]; exact if_pos rfl
omit [FloatOps F] in
theorem payload_loc (d : Bool) : (agRd (F := F) m).payload (locCell c) 0 d = locPay m c := by
  dsimp only [agRd]; exact dmaPay_loc m c
omit [FloatOps F] in
theorem payload_s1 (d : Bool) : (agRd (F := F) m).payload (s1Cell c r) 0 d = s1Pay m c r := by
  dsimp only [agRd]; exact dmaPay_s1 m c r
omit [FloatOps F] in
theorem payload_r1 (d : Bool) : (agRd (F := F) m).payload (r1Cell c r) 0 d = r1Pay m c r := by
  dsimp only [agRd]; exact dmaPay_r1 m c r
omit [FloatOps F] in
theorem payload_s2 (d : Bool) : (agRd (F := F) m).payload (s2Cell c r) 0 d = r1Pay m c r := by
  dsimp only [agRd]; exact dmaPay_s2 m c r
omit [FloatOps F] in
theorem payload_r2 (d : Bool) : (agRd (F := F) m).payload (r2Cell c r) 0 d = r2Pay m c r := by
  dsimp only [agRd]; exact dmaPay_r2 m c r

omit [FloatOps F] in
theorem rest_bar : bigSep ((agRd (F := F) m).duties (barCell c) 0 \ ∅) (fun d => (agRd (F := F) m).payload (barCell c) 0 d) = iprop(barPayY c ∗ barPayX c) := by
  rw [Finset.sdiff_empty, duties_bar, bigSep_univ_eq_bigSepL [false, true] (by decide) (by decide), bigSepL_cons_cons, bigSepL_singleton,
    payload_bar_false, payload_bar_true]
  rfl
omit [FloatOps F] in
theorem rest_loc : bigSep ((agRd (F := F) m).duties (locCell c) 0 \ ∅) (fun d => (agRd (F := F) m).payload (locCell c) 0 d) = locPay m c := by
  rw [Finset.sdiff_empty, duties_dma, bigSep_singleton, payload_loc]
omit [FloatOps F] in
theorem rest_s1 : bigSep ((agRd (F := F) m).duties (s1Cell c r) 0 \ ∅) (fun d => (agRd (F := F) m).payload (s1Cell c r) 0 d) = s1Pay m c r := by
  rw [Finset.sdiff_empty, duties_dma, bigSep_singleton, payload_s1]
omit [FloatOps F] in
theorem rest_r1 : bigSep ((agRd (F := F) m).duties (r1Cell c r) 0 \ ∅) (fun d => (agRd (F := F) m).payload (r1Cell c r) 0 d) = r1Pay m c r := by
  rw [Finset.sdiff_empty, duties_dma, bigSep_singleton, payload_r1]
omit [FloatOps F] in
theorem rest_s2 : bigSep ((agRd (F := F) m).duties (s2Cell c r) 0 \ ∅) (fun d => (agRd (F := F) m).payload (s2Cell c r) 0 d) = r1Pay m c r := by
  rw [Finset.sdiff_empty, duties_dma, bigSep_singleton, payload_s2]
omit [FloatOps F] in
theorem rest_r2 : bigSep ((agRd (F := F) m).duties (r2Cell c r) 0 \ ∅) (fun d => (agRd (F := F) m).payload (r2Cell c r) 0 d) = r2Pay m c r := by
  rw [Finset.sdiff_empty, duties_dma, bigSep_singleton, payload_r2]

end Tables

theorem filter_le_peel (r : Fin 32) :
    (Finset.univ.filter fun x : Fin 32 => r.val ≤ x.val) = insert r (Finset.univ.filter fun x : Fin 32 => r.val + 1 ≤ x.val) := by
  ext x
  simp only [Finset.mem_filter, Finset.mem_univ, true_and, Finset.mem_insert]
  constructor
  · intro h
    by_cases hx : x = r
    · exact Or.inl hx
    · exact Or.inr (by have : x.val ≠ r.val := fun e => hx (Fin.ext e); omega)
  · rintro (rfl | h)
    · exact Nat.le_refl _
    · omega

theorem not_mem_filter_succ (r : Fin 32) : r ∉ Finset.univ.filter fun x : Fin 32 => r.val + 1 ≤ x.val := fun h => by
  have := (Finset.mem_filter.mp h).2; omega

theorem filter_ge_32 : (Finset.univ.filter fun x : Fin 32 => 32 ≤ x.val) = ∅ :=
  Finset.filter_eq_empty_iff.mpr fun x _ => by have := x.isLt; omega

theorem owe1_peel (c : Dev nD) (r : Fin 32) : owe1 c r.val = owe1 c (r.val + 1) + tallyAt (r1Cell (yn c) r) () Nc := by
  unfold owe1; rw [filter_le_peel, Finset.sum_insert (not_mem_filter_succ r), add_comm]
theorem owe2_peel (c : Dev nD) (r : Fin 32) : owe2 c r.val = owe2 c (r.val + 1) + tallyAt (r2Cell (xn c) r) () Nc := by
  unfold owe2; rw [filter_le_peel, Finset.sum_insert (not_mem_filter_succ r), add_comm]

theorem sum_tally_pos {s : Finset (Fin 32)} {f : Fin 32 → GSem nD τ sig} {g : GSem nD τ sig} {u : Unit}
    (h : 0 < (∑ r ∈ s, tallyAt (f r) () Nc) g u) : ∃ r ∈ s, g = f r := by
  classical
  induction s using Finset.induction_on with
  | empty => rw [Finset.sum_empty] at h; exact absurd h (Nat.lt_irrefl 0)
  | insert x s hx ih =>
    rw [Finset.sum_insert hx, Pi.add_apply, Finsupp.add_apply, tallyAt_apply] at h
    by_cases hg : g = f x ∧ u = ()
    · exact ⟨x, Finset.mem_insert_self _ _, hg.1⟩
    · rw [if_neg hg, Nat.zero_add] at h
      obtain ⟨r, hr, e⟩ := ih h
      exact ⟨r, Finset.mem_insert_of_mem hr, e⟩

theorem Owe_peel1 (c : Dev nD) (r : Fin 32) (b : ℕ) : Owe c r.val b = Owe c (r.val + 1) b + tallyAt (r1Cell (yn c) r) () Nc := by
  unfold Owe; rw [owe1_peel c r, add_right_comm]
theorem Owe_peel2 (c : Dev nD) (a : ℕ) (r : Fin 32) : Owe c a r.val = Owe c a (r.val + 1) + tallyAt (r2Cell (xn c) r) () Nc := by
  unfold Owe; rw [owe2_peel c r, add_assoc]
theorem Owe_done (c : Dev nD) : Owe c 32 32 = 0 := by
  unfold Owe owe1 owe2; simp only [filter_ge_32, Finset.sum_empty, add_zero]

theorem Owe_pos {c : Dev nD} {a b : ℕ} {g : GSem nD τ sig} {u : Unit} (h : 0 < Owe c a b g u) :
    (∃ r : Fin 32, a ≤ r.val ∧ g = r1Cell (yn c) r) ∨ (∃ r : Fin 32, b ≤ r.val ∧ g = r2Cell (xn c) r) := by
  unfold Owe at h
  rw [Pi.add_apply, Finsupp.add_apply] at h
  by_cases h1 : 0 < owe1 c a g u
  · obtain ⟨r, hr, e⟩ := sum_tally_pos (f := fun r => r1Cell (yn c) r) h1
    exact Or.inl ⟨r, (Finset.mem_filter.mp hr).2, e⟩
  · have h2 : 0 < owe2 c b g u := by omega
    obtain ⟨r, hr, e⟩ := sum_tally_pos (f := fun r => r2Cell (xn c) r) h2
    exact Or.inr ⟨r, (Finset.mem_filter.mp hr).2, e⟩

theorem L_of_ne (g : GSem nD τ sig) (h : g.1.2 ≠ .tc) : L g = ∅ := if_neg h
theorem L_tc (c : Dev nD) (sm : SemLoc sig) : L ((c : Thread nD τ), sm) = {()} := if_pos rfl

theorem lv_r1 (c : Dev nD) (r : Fin 32) (u : Unit) : lv (r1Cell c r) u = 2 := by
  have hr := r.isLt
  show (if 97 ≤ 33 + r.val then 3 else if 33 ≤ 33 + r.val ∧ 33 + r.val < 65 then 2 else 0) = 2
  rw [if_neg (by omega), if_pos (by omega)]
theorem lv_r2 (c : Dev nD) (r : Fin 32) (u : Unit) : lv (r2Cell c r) u = 3 := by
  show (if 97 ≤ 97 + r.val then 3 else if 33 ≤ 97 + r.val ∧ 97 + r.val < 65 then 2 else 0) = 3
  exact if_pos (Nat.le_add_right 97 r.val)

omit [FloatOps F] in

theorem mayWait_bar (c : Dev nD) (a b : ℕ) :
    (levAts L lv : sProp 𝕄) ⊢ MayWait (c : Thread nD τ) (.reg barS) () (Owe c a b) :=
  MayOwe.of_cut (L := L) (lev := lv) 1
    (fun p hp => by rw [Finset.mem_singleton.mp hp, L_tc]; exact Finset.mem_singleton_self _)
    (fun g u hg => by
      rcases Owe_pos hg with ⟨r, -, rfl⟩ | ⟨r, -, rfl⟩
      · rw [L_tc]; exact Finset.mem_singleton_self _
      · rw [L_tc]; exact Finset.mem_singleton_self _)
    (fun p hp => by rw [Finset.mem_singleton.mp hp]; exact Nat.le_refl 1)
    (fun g u hg => by
      rcases Owe_pos hg with ⟨r, -, rfl⟩ | ⟨r, -, rfl⟩
      · rw [lv_r1]; decide
      · rw [lv_r2]; decide)
omit [FloatOps F] in

theorem mayWait_r1 (c : Dev nD) (r : Fin 32) (b : ℕ) :
    (levAts L lv : sProp 𝕄) ⊢ MayWait (c : Thread nD τ) (.dma (r1Q r)) () (Owe c 32 b) :=
  MayOwe.of_cut (L := L) (lev := lv) 2
    (fun p hp => by rw [Finset.mem_singleton.mp hp, L_tc]; exact Finset.mem_singleton_self _)
    (fun g u hg => by
      rcases Owe_pos hg with ⟨r', -, rfl⟩ | ⟨r', -, rfl⟩
      · rw [L_tc]; exact Finset.mem_singleton_self _
      · rw [L_tc]; exact Finset.mem_singleton_self _)
    (fun p hp => by rw [Finset.mem_singleton.mp hp]; exact le_of_eq (lv_r1 c r ()))
    (fun g u hg => by
      rcases Owe_pos hg with ⟨r', h32, rfl⟩ | ⟨r', -, rfl⟩
      · exact absurd h32 (by have := r'.isLt; omega)
      · rw [lv_r2]; decide)
omit [FloatOps F] in

theorem mayWait_done (c : Dev nD) (sm : SemLoc sig) :
    (levAts L lv : sProp 𝕄) ⊢ MayWait (c : Thread nD τ) sm () (Owe c 32 32) := by
  rw [Owe_done, MayWait_zero]; iintro -; iempintro

end Cert.Kernel.AG

end
-- ==== Proof.AGK.Regions.lean ====
import proofs.«900103_g7700000000000104_dist_ag_v7x_xy2x2_y_m4096_n1024_f32_1_alg».proof.Proof.AGK.Geom
import Idealize.ShloMosaic.Lib.Pipeline.Value

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem

theorem off2_yn (c : Dev nD) (r : Fin 32) : k0_off2 (yn c) (wOf r) = k0_off4 c (wOf r) := by
  have hc : c.val < 4 := c.isLt
  have hr : r.val < 32 := r.isLt
  rw [show wOf r = BitVec.ofNat 32 (64 * r.val) from rfl, k0_off2_eq, k0_off4_eq, yn_val]
  have : 4096 * (((2 * (c.val / 2) + 1) - c.val % 2) % 2) + 2048 * (((2 * (c.val / 2) + 1) - c.val % 2) / 2) + 64 * r.val
      = (2048 * (c.val / 2) + 64 * r.val + 4096) - 4096 * (c.val % 2) := by omega
  rw [this]

theorem oM_slice_congr {off off' : Fin 2 → Nat} (h : off = off') (inb : ∀ a, off a + S64x1024.size a ≤ S8192x1024.size a)
    (inb' : ∀ a, off' a + S64x1024.size a ≤ S8192x1024.size a) :
    (oM.slice (Rect.unit (s := S8192x1024) off S64x1024.size inb) (fun _ => rfl) : Memref sig .tc .hbm S64x1024 .f32)
      = oM.slice (Rect.unit (s := S8192x1024) off' S64x1024.size inb') (fun _ => rfl) := by
  subst h; rfl

theorem oCh1_yn (c : Dev nD) (r : Fin 32) : oCh1 (yn c) r = oCh2 c r :=
  oM_slice_congr (off2_yn c r) _ _

theorem mem_unit_rows {N n A : ℕ} {off : Fin 2 → ℕ} (hoff : off = ![A, 0])
    (inb : ∀ a, off a + (⟨2, ![n, 1024]⟩ : Shape).size a ≤ (⟨2, ![N, 1024]⟩ : Shape).size a) (i : (⟨2, ![N, 1024]⟩ : Shape).Idx) :
    i ∈ (Rect.unit (s := ⟨2, ![N, 1024]⟩) off (⟨2, ![n, 1024]⟩ : Shape).size inb).set ↔ A ≤ (i 0).val ∧ (i 0).val < A + n := by
  subst hoff
  rw [Rect.mem_set_unit]
  have h1 : (i 1).val < 1024 := (i 1).isLt
  refine ⟨fun h => h (0 : Fin 2), fun h a => ?_⟩
  match a with
  | ⟨0, _⟩ => exact h
  | ⟨1, _⟩ => exact ⟨Nat.zero_le _, by show (i 1).val < 0 + 1024; omega⟩

theorem mem_oCh1 (c : Dev nD) (r : Fin 32) (i : S8192x1024.Idx) :
    i ∈ (oCh1 c r).view.set ↔ 4096 * (c.val % 2) + 2048 * (c.val / 2) + 64 * r.val ≤ (i 0).val
      ∧ (i 0).val < 4096 * (c.val % 2) + 2048 * (c.val / 2) + 64 * r.val + 64 := by
  show i ∈ ((View.whole main_v1).slice (Rect.unit (s := S8192x1024) (k0_off2 c (wOf r)) S64x1024.size (k0_off2_inb c r))).set ↔ _
  rw [View.set_slice_whole]
  exact mem_unit_rows (k0_off2_eq c r) _ i

theorem mem_oCh2 (c : Dev nD) (r : Fin 32) (i : S8192x1024.Idx) :
    i ∈ (oCh2 c r).view.set ↔ (2048 * (c.val / 2) + 64 * r.val + 4096) - 4096 * (c.val % 2) ≤ (i 0).val
      ∧ (i 0).val < (2048 * (c.val / 2) + 64 * r.val + 4096) - 4096 * (c.val % 2) + 64 := by
  show i ∈ ((View.whole main_v1).slice (Rect.unit (s := S8192x1024) (k0_off4 c (wOf r)) S64x1024.size (k0_off4_inb c r))).set ↔ _
  rw [View.set_slice_whole]
  exact mem_unit_rows (k0_off4_eq c r) _ i

theorem mem_oLoc (c : Dev nD) (i : S8192x1024.Idx) :
    i ∈ (oLoc c).view.set ↔ 4096 * (c.val % 2) ≤ (i 0).val ∧ (i 0).val < 4096 * (c.val % 2) + 4096 := by
  show i ∈ ((View.whole main_v1).slice (Rect.unit (s := S8192x1024) (k0_off1 c) S4096x1024.size (k0_off1_inb c))).set ↔ _
  rw [View.set_slice_whole]
  exact mem_unit_rows (k0_off1_eq c) _ i

theorem mem_xCh (c : Dev nD) (r : Fin 32) (i : S4096x1024.Idx) :
    i ∈ (xCh c r).view.set ↔ 2048 * (c.val / 2) + 64 * r.val ≤ (i 0).val ∧ (i 0).val < 2048 * (c.val / 2) + 64 * r.val + 64 := by
  show i ∈ ((View.whole main_arg0).slice (Rect.unit (s := S4096x1024) (k0_off3 c (wOf r)) S64x1024.size (k0_off3_inb c r))).set ↔ _
  rw [View.set_slice_whole]
  exact mem_unit_rows (k0_off3_eq c r) _ i

theorem eq_on_set_of_emb {κ : Kind} {sp : Space} {S : Shape} {e : EltTy} {Val : EltTy → Type} (v : View sig κ sp S e)
    (f g : v.ty.Contents Val) (h : ∀ x : S.Idx, f (v.emb x) = g (v.emb x)) : ∀ i ∈ v.set, f i = g i := by
  intro i hi
  obtain ⟨y, rfl⟩ := View.exists_emb_of_mem_set v hi
  exact h y

theorem outFinal_apply_of {F : FTy → Type} (xs : (d : Dev nD) → Buf (Elt F) ((d : Thread nD τ).loc main_arg0)) (c d : Dev nD)
    (i : S8192x1024.Idx) (y : S4096x1024.Idx) (hd : srcDev c i = d) (hy : xIdx i = y) : outFinal xs c i = xs d y := by
  subst hd hy; rfl

theorem oLoc_emb0 (c : Dev nD) (x : S4096x1024.Idx) :
    (((oLoc c).view.emb x : S8192x1024.Idx) 0).val = 4096 * (c.val % 2) + (x 0).val := by
  have h : (((oLoc c).view.emb x : S8192x1024.Idx) 0).val = k0_off1 c 0 + 1 * (x 0).val := rfl
  rw [h, k0_off1_eq]; show 4096 * (c.val % 2) + 1 * (x 0).val = _; omega
theorem oLoc_emb1 (c : Dev nD) (x : S4096x1024.Idx) :
    (((oLoc c).view.emb x : S8192x1024.Idx) 1).val = (x 1).val := by
  have h : (((oLoc c).view.emb x : S8192x1024.Idx) 1).val = k0_off1 c 1 + 1 * (x 1).val := rfl
  rw [h, k0_off1_eq]; show 0 + 1 * (x 1).val = _; omega

theorem oCh1_emb0 (c : Dev nD) (r : Fin 32) (x : S64x1024.Idx) :
    (((oCh1 c r).view.emb x : S8192x1024.Idx) 0).val = 4096 * (c.val % 2) + 2048 * (c.val / 2) + 64 * r.val + (x 0).val := by
  have h : (((oCh1 c r).view.emb x : S8192x1024.Idx) 0).val = k0_off2 c (BitVec.ofNat 32 (64 * r.val)) 0 + 1 * (x 0).val := rfl
  rw [h, k0_off2_eq]; show 4096 * (c.val % 2) + 2048 * (c.val / 2) + 64 * r.val + 1 * (x 0).val = _; omega
theorem oCh1_emb1 (c : Dev nD) (r : Fin 32) (x : S64x1024.Idx) :
    (((oCh1 c r).view.emb x : S8192x1024.Idx) 1).val = (x 1).val := by
  have h : (((oCh1 c r).view.emb x : S8192x1024.Idx) 1).val = k0_off2 c (BitVec.ofNat 32 (64 * r.val)) 1 + 1 * (x 1).val := rfl
  rw [h, k0_off2_eq]; show 0 + 1 * (x 1).val = _; omega

theorem oCh2_emb0 (c : Dev nD) (r : Fin 32) (x : S64x1024.Idx) :
    (((oCh2 c r).view.emb x : S8192x1024.Idx) 0).val = (2048 * (c.val / 2) + 64 * r.val + 4096) - 4096 * (c.val % 2) + (x 0).val := by
  have h : (((oCh2 c r).view.emb x : S8192x1024.Idx) 0).val = k0_off4 c (BitVec.ofNat 32 (64 * r.val)) 0 + 1 * (x 0).val := rfl
  rw [h, k0_off4_eq]; show (2048 * (c.val / 2) + 64 * r.val + 4096) - 4096 * (c.val % 2) + 1 * (x 0).val = _; omega

theorem xCh_emb0 (c : Dev nD) (r : Fin 32) (x : S64x1024.Idx) :
    (((xCh c r).view.emb x : S4096x1024.Idx) 0).val = 2048 * (c.val / 2) + 64 * r.val + (x 0).val := by
  have h : (((xCh c r).view.emb x : S4096x1024.Idx) 0).val = k0_off3 c (BitVec.ofNat 32 (64 * r.val)) 0 + 1 * (x 0).val := rfl
  rw [h, k0_off3_eq]; show 2048 * (c.val / 2) + 64 * r.val + 1 * (x 0).val = _; omega
theorem xCh_emb1 (c : Dev nD) (r : Fin 32) (x : S64x1024.Idx) :
    (((xCh c r).view.emb x : S4096x1024.Idx) 1).val = (x 1).val := by
  have h : (((xCh c r).view.emb x : S4096x1024.Idx) 1).val = k0_off3 c (BitVec.ofNat 32 (64 * r.val)) 1 + 1 * (x 1).val := rfl
  rw [h, k0_off3_eq]; show 0 + 1 * (x 1).val = _; omega

theorem xIdx_ext (a b : S4096x1024.Idx) (h0 : (a 0).val = (b 0).val) (h1 : (a 1).val = (b 1).val) : a = b := by
  funext d
  match d with
  | ⟨0, _⟩ => exact Fin.ext h0
  | ⟨1, _⟩ => exact Fin.ext h1

theorem xIdx_val0 (i : S8192x1024.Idx) : ((xIdx i) 0).val = (i 0).val % 4096 := rfl
theorem xIdx_val1 (i : S8192x1024.Idx) : ((xIdx i) 1).val = (i 1).val := rfl

theorem land_loc {F : FTy → Type} {Ix : Type} [DecidableEq Ix] {Name : Type} [DecidableEq Name] {U : Type} [URA U] {Lvl : Type}
    (xs : (d : Dev nD) → Buf (Elt F) ((d : Thread nD τ).loc main_arg0)) (c : Dev nD)
    (fd : Buf (Elt F) ((oLoc c).view.loc (c : Thread nD τ))) :
    (((oLoc c).view.loc (c : Thread nD τ) ↦[(oLoc c).view.set]{fullShare}
        ((oLoc c).view.write (Elt F) fd (xM.view.read (Elt F) (xs c)) Finset.univ)) : sProp (MT nD τ sig Ix (Elt F) Name U Lvl))
      ⊢ ((oLoc c).view.loc (c : Thread nD τ) ↦[(oLoc c).view.set]{fullShare} outFinal xs c) := by
  refine Entails.of_eq (BI.Region.is_congr (eq_on_set_of_emb (oLoc c).view _ _ fun x => ?_))
  have hc : c.val < 4 := c.isLt
  have hx0 : (x 0).val < 4096 := (x 0).isLt
  have e0 := oLoc_emb0 c x
  have e1 := oLoc_emb1 c x
  rw [View.write_emb_of_mem _ _ (Finset.mem_univ x), View.read_apply, cast_cast, cast_eq]
  refine (outFinal_apply_of xs c c _ _ ?_ ?_).symm
  · unfold srcDev; rw [if_pos (by omega)]
  · exact xIdx_ext _ _ (by rw [xIdx_val0]; show _ = (x 0).val; omega) (by rw [xIdx_val1]; show _ = (x 1).val; omega)

theorem land_p1 {F : FTy → Type} {Ix : Type} [DecidableEq Ix] {Name : Type} [DecidableEq Name] {U : Type} [URA U] {Lvl : Type}
    (xs : (d : Dev nD) → Buf (Elt F) ((d : Thread nD τ).loc main_arg0)) (c : Dev nD) (r : Fin 32)
    (fd : Buf (Elt F) ((oCh1 c r).view.loc (yn c : Thread nD τ))) :
    (((oCh1 c r).view.loc (yn c : Thread nD τ) ↦[(oCh1 c r).view.set]{fullShare}
        ((oCh1 c r).view.write (Elt F) fd ((xCh c r).view.read (Elt F) (xs c)) Finset.univ)) : sProp (MT nD τ sig Ix (Elt F) Name U Lvl))
      ⊢ ((oCh1 c r).view.loc (yn c : Thread nD τ) ↦[(oCh1 c r).view.set]{fullShare} outFinal xs (yn c)) := by
  refine Entails.of_eq (BI.Region.is_congr (eq_on_set_of_emb (oCh1 c r).view _ _ fun x => ?_))
  have hc : c.val < 4 := c.isLt
  have h4 : c.val = 0 ∨ c.val = 1 ∨ c.val = 2 ∨ c.val = 3 := by omega
  have hr : r.val < 32 := r.isLt
  have hx0 : (x 0).val < 64 := (x 0).isLt
  have e0 := oCh1_emb0 c r x
  have e1 := oCh1_emb1 c r x
  have s0 := xCh_emb0 c r x
  have s1 := xCh_emb1 c r x
  have hy := yn_val c
  rw [View.write_emb_of_mem _ _ (Finset.mem_univ x), View.read_apply, cast_cast, cast_eq]
  refine (outFinal_apply_of xs (yn c) c _ _ ?_ ?_).symm
  · unfold srcDev; rw [if_neg (by omega), if_pos (by omega), yn_yn]
  · exact xIdx_ext _ _ (by rw [xIdx_val0, s0]; omega) (by rw [xIdx_val1, s1]; omega)

theorem land_p2 {F : FTy → Type} {Ix : Type} [DecidableEq Ix] {Name : Type} [DecidableEq Name] {U : Type} [URA U] {Lvl : Type}
    (xs : (d : Dev nD) → Buf (Elt F) ((d : Thread nD τ).loc main_arg0)) (c : Dev nD) (r : Fin 32)
    (fd : Buf (Elt F) ((oCh2 c r).view.loc (xn c : Thread nD τ))) :
    (((oCh2 c r).view.loc (xn c : Thread nD τ) ↦[(oCh2 c r).view.set]{fullShare}
        ((oCh2 c r).view.write (Elt F) fd ((oCh2 c r).view.read (Elt F) (outFinal xs c)) Finset.univ)) : sProp (MT nD τ sig Ix (Elt F) Name U Lvl))
      ⊢ ((oCh2 c r).view.loc (xn c : Thread nD τ) ↦[(oCh2 c r).view.set]{fullShare} outFinal xs (xn c)) := by
  refine Entails.of_eq (BI.Region.is_congr (eq_on_set_of_emb (oCh2 c r).view _ _ fun x => ?_))
  have hc : c.val < 4 := c.isLt
  have h4 : c.val = 0 ∨ c.val = 1 ∨ c.val = 2 ∨ c.val = 3 := by omega
  have hr : r.val < 32 := r.isLt
  have hx0 : (x 0).val < 64 := (x 0).isLt
  have e0 := oCh2_emb0 c r x
  have hxn := xn_val c
  rw [View.write_emb_of_mem _ _ (Finset.mem_univ x), View.read_apply, cast_cast, cast_eq]
  have h1 : srcDev c ((oCh2 c r).view.emb x) = yn c := by
    unfold srcDev; rw [if_neg (by omega), if_pos (by omega)]
  have h2 : srcDev (xn c) ((oCh2 c r).view.emb x) = yn c := by
    unfold srcDev; rw [if_neg (by omega), if_neg (by omega), xn_xn]
  exact (outFinal_apply_of xs c (yn c) _ _ h1 rfl).trans (outFinal_apply_of xs (xn c) (yn c) _ _ h2 rfl).symm

theorem disj_oLoc_oCh2 (c : Dev nD) (r : Fin 32) : Disjoint (oLoc c).view.set (oCh2 c r).view.set :=
  Finset.disjoint_left.mpr fun i hi hj => by
    have hc : c.val < 4 := c.isLt
    have h4 : c.val = 0 ∨ c.val = 1 ∨ c.val = 2 ∨ c.val = 3 := by omega
    have hr : r.val < 32 := r.isLt
    have h1 := (mem_oLoc c i).mp hi
    have h2 := (mem_oCh2 c r i).mp hj
    omega

theorem disj_oLoc_oCh2x (c : Dev nD) (r : Fin 32) : Disjoint (oLoc c).view.set (oCh2 (xn c) r).view.set :=
  Finset.disjoint_left.mpr fun i hi hj => by
    have hc : c.val < 4 := c.isLt
    have h4 : c.val = 0 ∨ c.val = 1 ∨ c.val = 2 ∨ c.val = 3 := by omega
    have hr : r.val < 32 := r.isLt
    have hxn := xn_val c
    have h1 := (mem_oLoc c i).mp hi
    have h2 := (mem_oCh2 (xn c) r i).mp hj
    omega

theorem disj_oCh2_oCh2x (c : Dev nD) (r r' : Fin 32) : Disjoint (oCh2 c r).view.set (oCh2 (xn c) r').view.set :=
  Finset.disjoint_left.mpr fun i hi hj => by
    have hc : c.val < 4 := c.isLt
    have h4 : c.val = 0 ∨ c.val = 1 ∨ c.val = 2 ∨ c.val = 3 := by omega
    have hr : r.val < 32 := r.isLt
    have hr' : r'.val < 32 := r'.isLt
    have hxn := xn_val c
    have h1 := (mem_oCh2 c r i).mp hi
    have h2 := (mem_oCh2 (xn c) r' i).mp hj
    omega

theorem disj_oCh2 (c : Dev nD) (r r' : Fin 32) (h : r ≠ r') : Disjoint (oCh2 c r).view.set (oCh2 c r').view.set :=
  Finset.disjoint_left.mpr fun i hi hj => by
    have hne : r.val ≠ r'.val := fun e => h (Fin.ext e)
    have h1 := (mem_oCh2 c r i).mp hi
    have h2 := (mem_oCh2 c r' i).mp hj
    omega

theorem out_cover (c : Dev nD) (i : S8192x1024.Idx) :
    i ∈ (oLoc c).view.set ∨ (∃ r : Fin 32, i ∈ (oCh2 c r).view.set) ∨ (∃ r : Fin 32, i ∈ (oCh2 (xn c) r).view.set) := by
  have hc : c.val < 4 := c.isLt
  have h4 : c.val = 0 ∨ c.val = 1 ∨ c.val = 2 ∨ c.val = 3 := by omega
  have hi : (i 0).val < 8192 := (i 0).isLt
  have hxn := xn_val c
  obtain ⟨r, hr⟩ : ∃ r : Fin 32, r.val = ((i 0).val % 2048) / 64 := ⟨⟨((i 0).val % 2048) / 64, by omega⟩, rfl⟩
  by_cases h1 : (i 0).val / 4096 = c.val % 2
  · exact .inl ((mem_oLoc c i).mpr ⟨by omega, by omega⟩)
  · by_cases h2 : ((i 0).val % 4096) / 2048 = c.val / 2
    · exact .inr (.inl ⟨r, (mem_oCh2 c r i).mpr ⟨by omega, by omega⟩⟩)
    · exact .inr (.inr ⟨r, (mem_oCh2 (xn c) r i).mpr ⟨by omega, by omega⟩⟩)

theorem out_sets (c : Dev nD) :
    (Finset.univ : Finset (Idx ((c : Thread nD τ).loc main_v1)))
      = (oLoc c).view.set ∪ ((Finset.univ.biUnion fun r : Fin 32 => (oCh2 c r).view.set)
          ∪ (Finset.univ.biUnion fun r : Fin 32 => (oCh2 (xn c) r).view.set)) := by
  ext i
  simp only [Finset.mem_univ, Finset.mem_union, Finset.mem_biUnion, true_and, true_iff]
  exact out_cover c i

theorem disj_out_loc (c : Dev nD) :
    Disjoint (oLoc c).view.set ((Finset.univ.biUnion fun r : Fin 32 => (oCh2 c r).view.set)
          ∪ (Finset.univ.biUnion fun r : Fin 32 => (oCh2 (xn c) r).view.set)) :=
  Finset.disjoint_union_right.mpr
    ⟨(Finset.disjoint_biUnion_right _ _ _).mpr fun r _ => disj_oLoc_oCh2 c r,
     (Finset.disjoint_biUnion_right _ _ _).mpr fun r _ => disj_oLoc_oCh2x c r⟩

theorem disj_out_recv (c : Dev nD) :
    Disjoint (Finset.univ.biUnion fun r : Fin 32 => (oCh2 c r).view.set : Finset (Idx ((c : Thread nD τ).loc main_v1)))
          (Finset.univ.biUnion fun r : Fin 32 => (oCh2 (xn c) r).view.set) :=
  (Finset.disjoint_biUnion_left _ _ _).mpr fun r _ => (Finset.disjoint_biUnion_right _ _ _).mpr fun r' _ => disj_oCh2_oCh2x c r r'

theorem out_eq {F : FTy → Type} {Ix : Type} [DecidableEq Ix] {Name : Type} [DecidableEq Name] {U : Type} [URA U] {Lvl : Type}
    (c : Dev nD) (f : Buf (Elt F) ((c : Thread nD τ).loc main_v1)) :
    (((c : Thread nD τ).loc main_v1 ↦{fullShare} f) : sProp (MT nD τ sig Ix (Elt F) Name U Lvl))
      = iprop(((oLoc c).view.loc (c : Thread nD τ) ↦[(oLoc c).view.set]{fullShare} f)
          ∗ (bigSep Finset.univ fun r : Fin 32 => ((oCh2 c r).view.loc (c : Thread nD τ) ↦[(oCh2 c r).view.set]{fullShare} f))
          ∗ (bigSep Finset.univ fun r : Fin 32 => ((oCh2 (xn c) r).view.loc (c : Thread nD τ) ↦[(oCh2 (xn c) r).view.set]{fullShare} f))) := by
  rw [out_sets c]
  rw [BI.equiv_iff.mp ⟨(pointsTo_union (disj_out_loc c)).1, (pointsTo_union (disj_out_loc c)).2⟩,
    BI.equiv_iff.mp ⟨(pointsTo_union (disj_out_recv c)).1, (pointsTo_union (disj_out_recv c)).2⟩,
    pointsTo_biUnion Finset.univ _ (fun r _ r' _ h => disj_oCh2 c r r' h),
    pointsTo_biUnion Finset.univ _ (fun r _ r' _ h => disj_oCh2 (xn c) r r' h)]

theorem out_split {F : FTy → Type} {Ix : Type} [DecidableEq Ix] {Name : Type} [DecidableEq Name] {U : Type} [URA U] {Lvl : Type}
    (c : Dev nD) (f : Buf (Elt F) ((c : Thread nD τ).loc main_v1)) :
    (((c : Thread nD τ).loc main_v1 ↦{fullShare} f) : sProp (MT nD τ sig Ix (Elt F) Name U Lvl))
      ⊢ iprop(((oLoc c).view.loc (c : Thread nD τ) ↦[(oLoc c).view.set]{fullShare} f)
          ∗ (bigSep Finset.univ fun r : Fin 32 => ((oCh2 c r).view.loc (c : Thread nD τ) ↦[(oCh2 c r).view.set]{fullShare} f))
          ∗ (bigSep Finset.univ fun r : Fin 32 => ((oCh2 (xn c) r).view.loc (c : Thread nD τ) ↦[(oCh2 (xn c) r).view.set]{fullShare} f))) :=
  Entails.of_eq (out_eq c f)

theorem out_join {F : FTy → Type} {Ix : Type} [DecidableEq Ix] {Name : Type} [DecidableEq Name] {U : Type} [URA U] {Lvl : Type}
    (c : Dev nD) (f : Buf (Elt F) ((c : Thread nD τ).loc main_v1)) :
    (iprop(((oLoc c).view.loc (c : Thread nD τ) ↦[(oLoc c).view.set]{fullShare} f)
          ∗ (bigSep Finset.univ fun r : Fin 32 => ((oCh2 c r).view.loc (c : Thread nD τ) ↦[(oCh2 c r).view.set]{fullShare} f))
          ∗ (bigSep Finset.univ fun r : Fin 32 => ((oCh2 (xn c) r).view.loc (c : Thread nD τ) ↦[(oCh2 (xn c) r).view.set]{fullShare} f)))
        : sProp (MT nD τ sig Ix (Elt F) Name U Lvl))
      ⊢ ((c : Thread nD τ).loc main_v1 ↦{fullShare} f) :=
  Entails.of_eq (out_eq c f).symm

theorem disj_xCh (c : Dev nD) (r r' : Fin 32) (h : r ≠ r') : Disjoint (xCh c r).view.set (xCh c r').view.set :=
  Finset.disjoint_left.mpr fun i hi hj => by
    have hne : r.val ≠ r'.val := fun e => h (Fin.ext e)
    have h1 := (mem_xCh c r i).mp hi
    have h2 := (mem_xCh c r' i).mp hj
    omega

def xRest (c : Dev nD) : Finset (Idx ((c : Thread nD τ).loc main_arg0)) :=
  Finset.univ \ Finset.univ.biUnion fun r : Fin 32 => (xCh c r).view.set

theorem x_eq {F : FTy → Type} {Ix : Type} [DecidableEq Ix] {Name : Type} [DecidableEq Name] {U : Type} [URA U] {Lvl : Type}
    (c : Dev nD) (f : Buf (Elt F) ((c : Thread nD τ).loc main_arg0)) :
    (((c : Thread nD τ).loc main_arg0 ↦{fullShare} f) : sProp (MT nD τ sig Ix (Elt F) Name U Lvl))
      = iprop((xM.view.loc (c : Thread nD τ) ↦[xM.view.set]{fullShare.left} f)
          ∗ (bigSep Finset.univ fun r : Fin 32 => ((xCh c r).view.loc (c : Thread nD τ) ↦[(xCh c r).view.set]{fullShare.right} f))
          ∗ ((c : Thread nD τ).loc main_arg0 ↦[xRest c]{fullShare.right} f)) := by
  have hsh := PosShare.mem_left_op_right fullShare
  have hset : (xM : Memref sig .tc .hbm S4096x1024 .f32).view.set = Finset.univ := View.set_whole _
  have hsub : (Finset.univ.biUnion fun r : Fin 32 => (xCh c r).view.set) ⊆ (Finset.univ : Finset (Idx ((c : Thread nD τ).loc main_arg0))) :=
    Finset.subset_univ _
  rw [hset, BI.equiv_iff.mp ⟨(pointsTo_share hsh).1, (pointsTo_share hsh).2⟩,
    BI.equiv_iff.mp ⟨(pointsTo_split_subset (q := fullShare.right) hsub).1, (pointsTo_split_subset (q := fullShare.right) hsub).2⟩,
    pointsTo_biUnion Finset.univ _ (fun r _ r' _ h => disj_xCh c r r' h)]
  rfl

theorem x_split {F : FTy → Type} {Ix : Type} [DecidableEq Ix] {Name : Type} [DecidableEq Name] {U : Type} [URA U] {Lvl : Type}
    (c : Dev nD) (f : Buf (Elt F) ((c : Thread nD τ).loc main_arg0)) :
    (((c : Thread nD τ).loc main_arg0 ↦{fullShare} f) : sProp (MT nD τ sig Ix (Elt F) Name U Lvl))
      ⊢ iprop((xM.view.loc (c : Thread nD τ) ↦[xM.view.set]{fullShare.left} f)
          ∗ (bigSep Finset.univ fun r : Fin 32 => ((xCh c r).view.loc (c : Thread nD τ) ↦[(xCh c r).view.set]{fullShare.right} f))
          ∗ ((c : Thread nD τ).loc main_arg0 ↦[xRest c]{fullShare.right} f)) :=
  Entails.of_eq (x_eq c f)

theorem x_join {F : FTy → Type} {Ix : Type} [DecidableEq Ix] {Name : Type} [DecidableEq Name] {U : Type} [URA U] {Lvl : Type}
    (c : Dev nD) (f : Buf (Elt F) ((c : Thread nD τ).loc main_arg0)) :
    (iprop((xM.view.loc (c : Thread nD τ) ↦[xM.view.set]{fullShare.left} f)
          ∗ (bigSep Finset.univ fun r : Fin 32 => ((xCh c r).view.loc (c : Thread nD τ) ↦[(xCh c r).view.set]{fullShare.right} f))
          ∗ ((c : Thread nD τ).loc main_arg0 ↦[xRest c]{fullShare.right} f))
        : sProp (MT nD τ sig Ix (Elt F) Name U Lvl))
      ⊢ ((c : Thread nD τ).loc main_arg0 ↦{fullShare} f) :=
  Entails.of_eq (x_eq c f).symm

end Cert.Kernel.AG
-- ==== Proof.AGK.StepsEnds.lean ====
import proofs.«900103_g7700000000000104_dist_ag_v7x_xy2x2_y_m4096_n1024_f32_1_alg».proof.Proof.AGK.Inv
import proofs.«900103_g7700000000000104_dist_ag_v7x_xy2x2_y_m4096_n1024_f32_1_alg».proof.Proof.AGK.Tables
import proofs.«900103_g7700000000000104_dist_ag_v7x_xy2x2_y_m4096_n1024_f32_1_alg».proof.Proof.AGK.Regions

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (KB : Dev nD → ℕ) (KQ : Dev nD × Fin 129 → ℕ)

omit [FloatOps F] in
theorem records_bar (d : Dev nD) :
    records m KB KQ ⊢ iprop(cellInv ER (agRd m) (KB d) (barCell d) ∗ reached ER (barCell d) 0) := by
  unfold records
  iintro ⟨HIb, -, HRb, -⟩
  isplitl [HIb]
  · iapply (show (bigSep Finset.univ fun d : Dev nD => cellInv ER (agRd m) (KB d) (barCell d)) ⊢ cellInv ER (agRd m) (KB d) (barCell d)
      from bigSep_elim (Finset.mem_univ d))
    iexact HIb
  · iapply (show (bigSep Finset.univ fun d : Dev nD => (reached ER (barCell d) 0 : sProp 𝕄)) ⊢ reached ER (barCell d) 0
      from bigSep_elim (Finset.mem_univ d))
    iexact HRb

omit [FloatOps F] in
theorem records_dma (d : Dev nD) (q : Fin 129) :
    records m KB KQ ⊢ iprop(cellInv ER (agRd m) (KQ (d, q)) (dmaCell d q) ∗ reached ER (dmaCell d q) 0) := by
  unfold records
  iintro ⟨-, HIq, -, HRq⟩
  isplitl [HIq]
  · iapply (show (bigSep Finset.univ fun dq : Dev nD × Fin 129 => cellInv ER (agRd m) (KQ dq) (dmaCell dq.1 dq.2))
        ⊢ cellInv ER (agRd m) (KQ (d, q)) (dmaCell d q)
      from bigSep_elim (Finset.mem_univ (d, q)))
    iexact HIq
  · iapply (show (bigSep Finset.univ fun dq : Dev nD × Fin 129 => (reached ER (dmaCell dq.1 dq.2) 0 : sProp 𝕄)) ⊢ reached ER (dmaCell d q) 0
      from bigSep_elim (Finset.mem_univ (d, q)))
    iexact HRq

omit [FloatOps F] in

theorem barPayY_yn (c : Dev nD) :
    (barPayY (F := F) (yn c) : sProp 𝕄)
      = bigSep Finset.univ fun r : Fin 32 => iprop(∃ f, (oCh2 c r).view.loc (c : Thread nD τ) ↦[(oCh2 c r).view.set]{fullShare} f) := by
  unfold barPayY
  rw [yn_yn]
  refine congrArg (bigSep Finset.univ) (funext fun r => ?_)
  rw [oCh1_yn]

omit [FloatOps F] in
theorem barPayX_xn (c : Dev nD) :
    (barPayX (F := F) (xn c) : sProp 𝕄)
      = bigSep Finset.univ fun r : Fin 32 => iprop(∃ f, (oCh2 (xn c) r).view.loc (c : Thread nD τ) ↦[(oCh2 (xn c) r).view.set]{fullShare} f) := by
  unfold barPayX
  rw [xn_xn]

theorem step_sig1 (c : Dev nD) (n : Dev nD) (hn : n = yn c) (k' : ℕ) (hk' : k' = 1) (W : Waits sig Unit) {α : Type} {Q : α → sProp 𝕄} {k : PUnit → Prog (TpuEff nD τ sig (Elt F) Λ₀ .tc) α} :
    iprop(records m KB KQ ∗ owes (c : Thread nD τ) (O₀ c) W ∗ dutyTok ER (barCell (yn c)) 0 false
        ∗ (bigSep Finset.univ fun r : Fin 32 => iprop(∃ f, (oCh2 c r).view.loc (c : Thread nD τ) ↦[(oCh2 c r).view.set]{fullShare} f)))
      ⊢ iprop((owes (c : Thread nD τ) (O₁ c) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS k') k) Q) := by
  subst hn hk'
  iintro ⟨#Hrec, HO, Htok, Hpay⟩ Hk
  ihave #HIR := (records_bar m KB KQ (yn c)) $$ Hrec
  icases HIR with ⟨#HI, #HR⟩
  iapply (Rounds.wp_signal 𝒱₀ ER (agRd m) (c : Thread nD τ) none (dst := (yn c : Thread nD τ)) (κ := KB (yn c))
      (d := false) (by rw [duties_bar]; exact Finset.mem_univ _) (amount_bar m (yn c) false) () (O₁ c) rfl) $$ [HO Htok Hpay]
  · isplitr; · iexact HI
    isplitl [HO]; · iexact HO
    isplitl [Htok]; · iexact Htok
    isplitl [Hpay]
    · rw [payload_bar_false, barPayY_yn]; iexact Hpay
    · iexact HR
  iexact Hk

theorem step_sig2 (c : Dev nD) (n : Dev nD) (hn : n = xn c) (k' : ℕ) (hk' : k' = 1) (W : Waits sig Unit) {α : Type} {Q : α → sProp 𝕄} {k : PUnit → Prog (TpuEff nD τ sig (Elt F) Λ₀ .tc) α} :
    iprop(records m KB KQ ∗ owes (c : Thread nD τ) (O₁ c) W ∗ dutyTok ER (barCell (xn c)) 0 true
        ∗ (bigSep Finset.univ fun r : Fin 32 => iprop(∃ f, (oCh2 (xn c) r).view.loc (c : Thread nD τ) ↦[(oCh2 (xn c) r).view.set]{fullShare} f)))
      ⊢ iprop((owes (c : Thread nD τ) (Owe c 0 0) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS k') k) Q) := by
  subst hn hk'
  iintro ⟨#Hrec, HO, Htok, Hpay⟩ Hk
  ihave #HIR := (records_bar m KB KQ (xn c)) $$ Hrec
  icases HIR with ⟨#HI, #HR⟩
  iapply (Rounds.wp_signal 𝒱₀ ER (agRd m) (c : Thread nD τ) none (dst := (xn c : Thread nD τ)) (κ := KB (xn c))
      (d := true) (by rw [duties_bar]; exact Finset.mem_univ _) (amount_bar m (xn c) true) () (Owe c 0 0) rfl) $$ [HO Htok Hpay]
  · isplitr; · iexact HI
    isplitl [HO]; · iexact HO
    isplitl [Htok]; · iexact Htok
    isplitl [Hpay]
    · rw [payload_bar_true, barPayX_xn]; iexact Hpay
    · iexact HR
  iexact Hk

theorem step_barwait (c : Dev nD) (k' : ℕ) (hk' : k' = 2) (W : Waits sig Unit) {α : Type} {Q : α → sProp 𝕄} {k : PUnit → Prog (TpuEff nD τ sig (Elt F) Λ₀ .tc) α} :
    iprop(records m KB KQ ∗ levAts L lv ∗ cred (tallyAt (barCell c) () 2) ∗ owes (c : Thread nD τ) (Owe c 0 0) W ∗ atPos ER (barCell c) 0 ∅ 0)
      ⊢ iprop(((owes (c : Thread nD τ) (Owe c 0 0) (insert (SemLoc.reg barS, ()) W) ∗ barPayY c ∗ barPayX c) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  iintro ⟨#Hrec, #Hlev, Hc, HO, Hat⟩ Hk
  ihave #HIR := (records_bar m KB KQ (c)) $$ Hrec
  icases HIR with ⟨#HI, #HR⟩
  iapply (Rounds.wp_wait_rest_token 𝒱₀ ER (agRd m) (c : Thread nD τ) none (κ := KB c)
      (wpE_semWait_eq 𝒱₀ (c : Thread nD τ) none Set.univ) (Set.mem_univ _) () (O := Owe c 0 0) (W := W) (R := 0) (m := 0) (T := ∅)
      (by rw [expect_bar])) $$ [Hc HO Hat]
  · isplitr; · iexact HI
    isplitl [Hc]; · iexact Hc
    isplitl [HO]; · iexact HO
    isplitr; · iapply (mayWait_bar c 0 0); iexact Hlev
    iexact Hat
  iintro ⟨HO, -, -, Hpay⟩
  ihave Hp := (Entails.of_eq (rest_bar m c)) $$ Hpay
  iapply Hk
  iframe # ∗

theorem step_locenq (c : Dev nD) (q : DmaSem sig) (hq : q = locQ)
    {hsrc : (xM : Memref sig .tc .hbm S4096x1024 .f32).view.WordExact} {hdst : (oLoc c).view.WordExact}
    {hsem : DmaTarget.Typed (nD := nD) .hbm (.dma q) (DmaTarget.here (nD := nD) (τ := τ) (p := ((c : Thread nD τ)).2) (oLoc c))} {α : Type} {Q : α → sProp 𝕄} {k : PUnit → Prog (TpuEff nD τ sig (Elt F) Λ₀ .tc) α} :
    iprop(records m KB KQ ∗ dutyTok ER (locCell c) 0 false
        ∗ ((xM : Memref sig .tc .hbm S4096x1024 .f32).view.loc (c : Thread nD τ) ↦[(xM : Memref sig .tc .hbm S4096x1024 .f32).view.set]{fullShare.left} xs m c)
        ∗ (∃ f, (oLoc c).view.loc (c : Thread nD τ) ↦[(oLoc c).view.set]{fullShare} f))
      ⊢ iprop((cred (tallyAt (locCell c) () Nl) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma xM (.here (oLoc c)) (.dma q) hsrc hdst hsem) k) Q) := by
  subst hq
  iintro ⟨#Hrec, Htok, Hsrc, ⟨%fd, Hdst⟩⟩ Hk
  ihave #HIR := (records_dma m KB KQ c locQ) $$ Hrec
  icases HIR with ⟨#HI, #HR⟩
  iapply (Rounds.wp_copy_pointsTo 𝒱₀ ER (agRd m) (c : Thread nD τ) none (src := xM) (dst := oLoc c) (sem := .dma locQ)
      (q := fullShare.left) (fs := xs m c) (fd := fd) (r := 0) (d := false) (κ := KQ (c, locQ))
      (by rw [duties_dma]; exact Finset.mem_singleton_self _) () Nl rfl (amount_loc m c false)
      (by rw [payload_loc]; unfold locPay gat; exact sep_mono_left (land_loc (xs m) c fd))) $$ [Htok Hsrc Hdst]
  · iframe # ∗
  iexact Hk

theorem step_locwait (c : Dev nD) (q : DmaSem sig) (hq : q = locQ) (src dst : Memref sig .tc .hbm S4096x1024 .f32)
    {hs : src.view.WordExact} {hd : dst.view.WordExact} (W : Waits sig Unit) {α : Type} {Q : α → sProp 𝕄} {k : PUnit → Prog (TpuEff nD τ sig (Elt F) Λ₀ .tc) α} :
    iprop(records m KB KQ ∗ levAts L lv ∗ cred (tallyAt (locCell c) () Nl) ∗ owes (c : Thread nD τ) (Owe c 32 32) W ∗ atPos ER (locCell c) 0 ∅ 0)
      ⊢ iprop(((owes (c : Thread nD τ) (Owe c 32 32) (insert (SemLoc.dma locQ, ()) W) ∗ locPay m c ∗ semVal (locCell c) 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hs hd) k) Q) := by
  subst hq
  iintro ⟨#Hrec, #Hlev, Hc, HO, Hat⟩ Hk
  ihave #HIR := (records_dma m KB KQ c locQ) $$ Hrec
  icases HIR with ⟨#HI, #HR⟩
  iapply (Rounds.wp_wait_rest_token 𝒱₀ ER (agRd m) (c : Thread nD τ) none (κ := KQ (c, locQ))
      (wpE_waitDma2_eq 𝒱₀ (c : Thread nD τ) none Set.univ) (Set.mem_univ _) () (O := Owe c 32 32) (W := W) (R := 0) (m := 0) (T := ∅)
      (by rw [Nat.zero_add, expect_loc])) $$ [Hc HO Hat]
  · isplitr; · iexact HI
    isplitl [Hc]; · iexact Hc
    isplitl [HO]; · iexact HO
    isplitr; · iapply (mayWait_done c _); iexact Hlev
    iexact Hat
  iintro ⟨HO, Hat, -, Hpay⟩
  ihave Hp := (Entails.of_eq (rest_loc m c)) $$ Hpay
  imod (Rounds.cell_close ER (agRd m) (Set.mem_univ (KQ (c, locQ))) (fun h => h) (R := 0 + 1) (duties_later m (locCell c))) $$ [Hat] with Hz
  · iframe # ∗
  iapply Hk
  iframe # ∗

end Cert.Kernel.AG

end
-- ==== Proof.AGK.StepsSend.lean ====
import proofs.«900103_g7700000000000104_dist_ag_v7x_xy2x2_y_m4096_n1024_f32_1_alg».proof.Proof.AGK.Inv
import proofs.«900103_g7700000000000104_dist_ag_v7x_xy2x2_y_m4096_n1024_f32_1_alg».proof.Proof.AGK.Tables
import proofs.«900103_g7700000000000104_dist_ag_v7x_xy2x2_y_m4096_n1024_f32_1_alg».proof.Proof.AGK.Regions

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (KB : Dev nD → ℕ) (KQ : Dev nD × Fin 129 → ℕ)

theorem stOf_n1_succ (r r' : Fin 32) (h : r' ≠ r) (n2 n3 n4 n5 n6 : ℕ) :
    stOf (r.val + 1) n2 n3 n4 n5 n6 r' = stOf r.val n2 n3 n4 n5 n6 r' := by
  have hv : r'.val ≠ r.val := fun e => h (Fin.ext e)
  have hi : (r'.val < r.val + 1) ↔ (r'.val < r.val) := by omega
  unfold stOf
  simp only [hi]

theorem stOf_n3_succ (r r' : Fin 32) (h : r' ≠ r) (n1 n2 n4 n5 n6 : ℕ) :
    stOf n1 n2 (r.val + 1) n4 n5 n6 r' = stOf n1 n2 r.val n4 n5 n6 r' := by
  have hv : r'.val ≠ r.val := fun e => h (Fin.ext e)
  have hi : (r'.val < r.val + 1) ↔ (r'.val < r.val) := by omega
  unfold stOf
  simp only [hi]

theorem stOf_E1_pre (r : Fin 32) : stOf r.val 0 0 0 0 0 r = 0 := by simp [stOf]
theorem stOf_E1_post (r : Fin 32) : stOf (r.val + 1) 0 0 0 0 0 r = 1 := by simp [stOf]
theorem stOf_E2_pre (r : Fin 32) : stOf 32 (r.val + 1) r.val 0 0 0 r = 2 := by simp [stOf, r.isLt]
theorem stOf_E2_post (r : Fin 32) : stOf 32 (r.val + 1) (r.val + 1) 0 0 0 r = 3 := by simp [stOf, r.isLt]

theorem pts_oM_slice_congr {off off' : Fin 2 → Nat} (h : off = off') (inb : ∀ a, off a + S64x1024.size a ≤ S8192x1024.size a)
    (inb' : ∀ a, off' a + S64x1024.size a ≤ S8192x1024.size a) (t : Dev nD) (f : Buf (Elt F) ((t : Thread nD τ).loc main_v1)) :
    (((oM.slice (Rect.unit (s := S8192x1024) off S64x1024.size inb) (fun _ => rfl) : Memref sig .tc .hbm S64x1024 .f32).view.loc (t : Thread nD τ)
        ↦[(oM.slice (Rect.unit (s := S8192x1024) off S64x1024.size inb) (fun _ => rfl) : Memref sig .tc .hbm S64x1024 .f32).view.set]{fullShare} f) : sProp 𝕄)
      = ((oM.slice (Rect.unit (s := S8192x1024) off' S64x1024.size inb') (fun _ => rfl) : Memref sig .tc .hbm S64x1024 .f32).view.loc (t : Thread nD τ)
        ↦[(oM.slice (Rect.unit (s := S8192x1024) off' S64x1024.size inb') (fun _ => rfl) : Memref sig .tc .hbm S64x1024 .f32).view.set]{fullShare} f) := by
  subst h; rfl

theorem r1Pay_yn (c : Dev nD) (r : Fin 32) :
    r1Pay m (yn c) r = ((oCh1 c r).view.loc (yn c : Thread nD τ) ↦[(oCh1 c r).view.set]{fullShare} gat m (yn c)) := by
  have e : r1Pay m (yn c) r = ((oCh1 (yn (yn c)) r).view.loc (yn c : Thread nD τ) ↦[(oCh1 (yn (yn c)) r).view.set]{fullShare} gat m (yn c)) :=
    pts_oM_slice_congr (off2_yn (yn c) r).symm _ _ (yn c) (gat m (yn c))
  rw [e, yn_yn]

theorem r2Pay_xn (c : Dev nD) (r : Fin 32) :
    r2Pay m (xn c) r = ((oCh2 c r).view.loc (xn c : Thread nD τ) ↦[(oCh2 c r).view.set]{fullShare} gat m (xn c)) := by
  unfold r2Pay
  rw [xn_xn]

theorem cellInv_of_all (d : Dev nD) (q : DmaSem sig) :
    (bigSep Finset.univ fun dq : Dev nD × Fin 129 => cellInv ER (agRd m) (KQ dq) (dmaCell dq.1 dq.2))
      ⊢ cellInv ER (agRd m) (KQ (d, q)) (dmaCell d q) :=
  bigSep_elim (Finset.mem_univ ((d, q) : Dev nD × Fin 129))

theorem reached_of_all (d : Dev nD) (q : DmaSem sig) :
    (bigSep Finset.univ fun dq : Dev nD × Fin 129 => (reached ER (dmaCell dq.1 dq.2) 0 : sProp 𝕄))
      ⊢ reached ER (dmaCell d q) 0 :=
  bigSep_elim (Finset.mem_univ ((d, q) : Dev nD × Fin 129))

-- First-phase copy `r`: the departure hands the source chunk back, the landing hands `yn c` the rows gathered.
theorem step_E1 (c : Dev nD) (r : Fin 32) (n : Dev nD) (hn : n = yn c) (qs qr : DmaSem sig) (hqs : qs = s1Q r) (hqr : qr = r1Q r)
    {hsc : (oCh1 c r : Memref sig (Dev.tc n : Thread nD τ).2.kind .hbm S64x1024 .f32).view.ref.isScScratch = false}
    {hsrc : (xCh c r).view.WordExact} {hdst : (oCh1 c r).view.WordExact}
    {hsem : DmaTarget.Typed .hbm (.dma qr) (.remote (Dev.tc n : Thread nD τ) (oCh1 c r) (.dma qs) hsc)}
    {α : Type} {Q : α → sProp 𝕄} {k : PUnit → Prog (TpuEff nD τ sig (Elt F) Λ₀ .tc) α} :
    iprop(records m KB KQ ∗ levAts L lv ∗ ChunksOwes m c r.val 0 (stOf r.val 0 0 0 0 0))
      ⊢ iprop((ChunksOwes m c (r.val + 1) 0 (stOf (r.val + 1) 0 0 0 0 0) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (xCh c r) (.remote (Dev.tc n : Thread nD τ) (oCh1 c r) (.dma qs) hsc) (.dma qr) hsrc hdst hsem) k) Q) := by
  subst hn hqs hqr
  unfold ChunksOwes records
  iintro ⟨⟨#HIB, #HIQ, #HRB, #HRQ⟩, #Hl, %W, HO, Hch⟩ Hk
  ihave #HI1 := (cellInv_of_all m KQ c (s1Q r)) $$ HIQ
  ihave #HI2 := (cellInv_of_all m KQ (yn c) (r1Q r)) $$ HIQ
  ihave #HR1 := (reached_of_all (F := F) c (s1Q r)) $$ HRQ
  ihave #HR2 := (reached_of_all (F := F) (yn c) (r1Q r)) $$ HRQ
  ihave Hc := (chunk_acc m c r (stOf r.val 0 0 0 0 0) (stOf (r.val + 1) 0 0 0 0 0)
    (fun r' h => stOf_n1_succ r r' h 0 0 0 0 0)) $$ Hch
  rw [stOf_E1_pre, stOf_E1_post]
  icases Hc with ⟨Hr, Hback⟩
  simp only [chunkSt]
  unfold s1Pay dst1
  icases Hr with ⟨HtS1, HtR1, HtS2, HtR2, HpS1, HpR1, HpS2, HpR2, HcR1, HcR2, Hsrc, ⟨%f1, Hdst⟩, Hd2⟩
  iapply (Rounds.wp_send_pointsTo 𝒱₀ ER (agRd m) (c : Thread nD τ) none (c' := (yn c : Thread nD τ)) (src := xCh c r) (dst := oCh1 c r)
      (sS := .dma (s1Q r)) (sem := .dma (r1Q r)) (q := fullShare.right) (fs := xs m c) (fd := f1)
      (κ₁ := KQ (c, s1Q r)) (κ₂ := KQ (yn c, r1Q r)) (r₁ := 0) (r₂ := 0) (d₁ := false) (d₂ := false)
      (by rw [duties_dma]; exact Finset.mem_singleton_self _) (by rw [duties_dma]; exact Finset.mem_singleton_self _)
      () () Nc rfl (amount_dma m c (s1Q r) (by show 1 + r.val ≠ 0; omega) false)
      (amount_dma m (yn c) (r1Q r) (by show 33 + r.val ≠ 0; omega) false)
      (Owe c (r.val + 1) 0) (Owe_peel1 c r 0) (W := W)
      (by rw [payload_s1]; exact .refl)
      (by rw [payload_r1, r1Pay_yn]; exact land_p1 (xs m) c r f1)) $$ [HO HtS1 HtR1 Hsrc Hdst]
  · iframe # ∗
  iintro ⟨HcS1, HO⟩
  iapply Hk
  iexists W
  isplitl [HO]; · iexact HO
  iapply Hback
  iframe # ∗

-- Second-phase copy `r`: the rows received from `yn c` go on to the same rows of `xn c`'s result.
theorem step_E2 (c : Dev nD) (r : Fin 32) (n : Dev nD) (hn : n = xn c) (qs qr : DmaSem sig) (hqs : qs = s2Q r) (hqr : qr = r2Q r)
    {hsc : (oCh2 c r : Memref sig (Dev.tc n : Thread nD τ).2.kind .hbm S64x1024 .f32).view.ref.isScScratch = false}
    {hsrc : (oCh2 c r).view.WordExact} {hdst : (oCh2 c r).view.WordExact}
    {hsem : DmaTarget.Typed .hbm (.dma qr) (.remote (Dev.tc n : Thread nD τ) (oCh2 c r) (.dma qs) hsc)}
    {α : Type} {Q : α → sProp 𝕄} {k : PUnit → Prog (TpuEff nD τ sig (Elt F) Λ₀ .tc) α} :
    iprop(records m KB KQ ∗ levAts L lv ∗ ChunksOwes m c 32 r.val (stOf 32 (r.val + 1) r.val 0 0 0))
      ⊢ iprop((ChunksOwes m c 32 (r.val + 1) (stOf 32 (r.val + 1) (r.val + 1) 0 0 0) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (oCh2 c r) (.remote (Dev.tc n : Thread nD τ) (oCh2 c r) (.dma qs) hsc) (.dma qr) hsrc hdst hsem) k) Q) := by
  subst hn hqs hqr
  unfold ChunksOwes records
  iintro ⟨⟨#HIB, #HIQ, #HRB, #HRQ⟩, #Hl, %W, HO, Hch⟩ Hk
  ihave #HI1 := (cellInv_of_all m KQ c (s2Q r)) $$ HIQ
  ihave #HI2 := (cellInv_of_all m KQ (xn c) (r2Q r)) $$ HIQ
  ihave #HR1 := (reached_of_all (F := F) c (s2Q r)) $$ HRQ
  ihave #HR2 := (reached_of_all (F := F) (xn c) (r2Q r)) $$ HRQ
  ihave Hc := (chunk_acc m c r (stOf 32 (r.val + 1) r.val 0 0 0) (stOf 32 (r.val + 1) (r.val + 1) 0 0 0)
    (fun r' h => stOf_n3_succ r r' h 32 (r.val + 1) 0 0 0)) $$ Hch
  rw [stOf_E2_pre, stOf_E2_post]
  icases Hc with ⟨Hr, Hback⟩
  simp only [chunkSt]
  unfold r1Pay dst2
  icases Hr with ⟨HtS2, HtR2, HpS1, HzR1, HpS2, HpR2, HcR2, HcS1, ⟨%f2, Hdst⟩, Hsrc⟩
  iapply (Rounds.wp_send_pointsTo 𝒱₀ ER (agRd m) (c : Thread nD τ) none (c' := (xn c : Thread nD τ)) (src := oCh2 c r) (dst := oCh2 c r)
      (sS := .dma (s2Q r)) (sem := .dma (r2Q r)) (q := fullShare) (fs := gat m c) (fd := f2)
      (κ₁ := KQ (c, s2Q r)) (κ₂ := KQ (xn c, r2Q r)) (r₁ := 0) (r₂ := 0) (d₁ := false) (d₂ := false)
      (by rw [duties_dma]; exact Finset.mem_singleton_self _) (by rw [duties_dma]; exact Finset.mem_singleton_self _)
      () () Nc rfl (amount_dma m c (s2Q r) (by show 65 + r.val ≠ 0; omega) false)
      (amount_dma m (xn c) (r2Q r) (by show 97 + r.val ≠ 0; omega) false)
      (Owe c 32 (r.val + 1)) (Owe_peel2 c 32 r) (W := W)
      (by rw [payload_s2]; exact .refl)
      (by rw [payload_r2, r2Pay_xn]; exact land_p2 (xs m) c r f2)) $$ [HO HtS2 HtR2 Hsrc Hdst]
  · iframe # ∗
  iintro ⟨HcS2, HO⟩
  iapply Hk
  iexists W
  isplitl [HO]; · iexact HO
  iapply Hback
  iframe # ∗

end Cert.Kernel.AG

end
-- ==== Proof.AGK.StepsWait.lean ====
import proofs.«900103_g7700000000000104_dist_ag_v7x_xy2x2_y_m4096_n1024_f32_1_alg».proof.Proof.AGK.Inv
import proofs.«900103_g7700000000000104_dist_ag_v7x_xy2x2_y_m4096_n1024_f32_1_alg».proof.Proof.AGK.Tables

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (KB : Dev nD → ℕ) (KQ : Dev nD × Fin 129 → ℕ)

omit [FloatOps F] in

private theorem inv_dma (dq : Dev nD × Fin 129) :
    (bigSep Finset.univ fun dq : Dev nD × Fin 129 => (cellInv ER (agRd m) (KQ dq) (dmaCell dq.1 dq.2) : sProp 𝕄))
      ⊢ cellInv ER (agRd m) (KQ dq) (dmaCell dq.1 dq.2) :=
  bigSep_elim (Finset.mem_univ dq)

-- A wait for the whole of a cell's one round: the cell's position and credit leave chunk `r`'s stage, its payload comes back.
private theorem step_wait (c : Dev nD) (r : Fin 32) (q' : DmaSem sig) (hq0 : q'.val ≠ 0)
    (src dst : Memref sig .tc .hbm S64x1024 .f32) {hs : src.view.WordExact} {hd : dst.view.WordExact}
    (a b : ℕ) (st st' : Fin 32 → ℕ) (hst : ∀ r' : Fin 32, r' ≠ r → st' r' = st r')
    (Rest Pay : sProp 𝕄)
    (hpre : chunkSt m c r (st r) ⊢ iprop(atPos ER (dmaCell c q') 0 ∅ 0 ∗ cred (tallyAt (dmaCell c q') () Nc) ∗ Rest))
    (hpost : iprop(semVal (dmaCell c q') 0 ∗ Pay ∗ Rest) ⊢ chunkSt m c r (st' r))
    (hpay : bigSep ((agRd (F := F) m).duties (dmaCell c q') 0 \ ∅) (fun d => (agRd (F := F) m).payload (dmaCell c q') 0 d) = Pay)
    (hmw : (levAts L lv : sProp 𝕄) ⊢ MayWait (c : Thread nD τ) (.dma q') () (Owe c a b))
    {α : Type} {Q : α → sProp 𝕄} {k : PUnit → Prog (TpuEff nD τ sig (Elt F) Λ₀ .tc) α} :
    iprop(records m KB KQ ∗ levAts L lv ∗ ChunksOwes m c a b st)
      ⊢ iprop((ChunksOwes m c a b st' -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q' src dst hs hd) k) Q) := by
  unfold records ChunksOwes
  iintro ⟨⟨-, #HIq, -, -⟩, Hlev, ⟨%W, HO, Hch⟩⟩ Hk
  ihave #HI := (inv_dma m KQ (c, q')) $$ HIq
  ihave Hacc := (chunk_acc m c r st st' hst) $$ Hch
  icases Hacc with ⟨Hst, Hback⟩
  ihave Hp := hpre $$ Hst
  icases Hp with ⟨Hat, Hc, Hrest⟩
  iapply (Rounds.wp_wait_rest_token 𝒱₀ ER (agRd m) (c : Thread nD τ) none (κ := KQ (c, q'))
      (wpE_waitDma2_eq 𝒱₀ (c : Thread nD τ) none Set.univ) (Set.mem_univ _) () (O := Owe c a b) (W := W) (R := 0) (m := 0) (T := ∅)
      (by rw [Nat.zero_add, expect_dma m c q' hq0])) $$ [Hc HO Hat Hlev]
  · isplitr; · iexact HI
    isplitl [Hc]; · iexact Hc
    isplitl [HO]; · iexact HO
    isplitl [Hlev]; · iapply hmw; iexact Hlev
    iexact Hat
  iintro ⟨HO, Hat, -, Hpay⟩
  ihave Hp := (Entails.of_eq hpay) $$ Hpay
  imod (Rounds.cell_close ER (agRd m) (Set.mem_univ (KQ (c, q'))) (fun h => h) (R := 0 + 1) (duties_later m (dmaCell c q'))) $$ [Hat] with Hz
  · isplitr; · iexact HI
    iexact Hat
  iapply Hk
  iexists (insert (SemLoc.dma q', ()) W)
  isplitl [HO]; · iexact HO
  iapply Hback
  iapply hpost
  isplitl [Hz]; · iexact Hz
  isplitl [Hp]; · iexact Hp
  iexact Hrest

private theorem lt_succ_iff_of_ne (r r' : Fin 32) (h : r' ≠ r) : (r'.val < r.val + 1) = (r'.val < r.val) := by
  have : r'.val ≠ r.val := fun e => h (Fin.ext e)
  exact propext (by omega)

theorem step_W1 (c : Dev nD) (r : Fin 32) (q : DmaSem sig) (src dst : Memref sig .tc .hbm S64x1024 .f32) {hs : src.view.WordExact} {hd : dst.view.WordExact} (hq : q = r1Q r) {α : Type} {Q : α → sProp 𝕄} {k : PUnit → Prog (TpuEff nD τ sig (Elt F) Λ₀ .tc) α} :
    iprop(records m KB KQ ∗ levAts L lv ∗ ChunksOwes m c 32 r.val (stOf 32 r.val r.val 0 0 0))
      ⊢ iprop((ChunksOwes m c 32 r.val (stOf 32 (r.val + 1) r.val 0 0 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hs hd) k) Q) := by
  subst hq
  have e0 : stOf 32 r.val r.val 0 0 0 r = 1 := by have := r.isLt; simp [stOf, this]
  have e1 : stOf 32 (r.val + 1) r.val 0 0 0 r = 2 := by have := r.isLt; simp [stOf, this]
  refine step_wait m KB KQ c r (r1Q r) (by show 33 + r.val ≠ 0; omega) src dst 32 r.val _ _
    (fun r' hr' => by simp only [stOf, lt_succ_iff_of_ne r r' hr'])
    iprop(tS2 c r ∗ tR2 c r ∗ pS1 c r ∗ pS2 c r ∗ pR2 c r ∗ cR2 c r ∗ cS1 c r ∗ dst2 c r) (r1Pay m c r)
    ?_ ?_ (rest_r1 m c r) ?_
  · rw [e0]; simp only [chunkSt]
    iintro ⟨H1, H2, H3, H4, H5, H6, H7, H8, H9, H10⟩
    iframe
  · rw [e1]; simp only [chunkSt]
    iintro ⟨Hz, Hp, H1, H2, H3, H5, H6, H8, H9, H10⟩
    iframe
  · exact mayWait_r1 c r r.val

theorem step_W2 (c : Dev nD) (r : Fin 32) (q : DmaSem sig) (src dst : Memref sig .tc .hbm S64x1024 .f32) {hs : src.view.WordExact} {hd : dst.view.WordExact} (hq : q = r2Q r) {α : Type} {Q : α → sProp 𝕄} {k : PUnit → Prog (TpuEff nD τ sig (Elt F) Λ₀ .tc) α} :
    iprop(records m KB KQ ∗ levAts L lv ∗ ChunksOwes m c 32 32 (stOf 32 32 32 r.val r.val r.val))
      ⊢ iprop((ChunksOwes m c 32 32 (stOf 32 32 32 (r.val + 1) r.val r.val) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hs hd) k) Q) := by
  subst hq
  have e0 : stOf 32 32 32 r.val r.val r.val r = 3 := by have := r.isLt; simp [stOf, this]
  have e1 : stOf 32 32 32 (r.val + 1) r.val r.val r = 4 := by have := r.isLt; simp [stOf, this]
  refine step_wait m KB KQ c r (r2Q r) (by show 97 + r.val ≠ 0; omega) src dst 32 32 _ _
    (fun r' hr' => by simp only [stOf, lt_succ_iff_of_ne r r' hr'])
    iprop(pS1 c r ∗ zR1 c r ∗ pS2 c r ∗ cS1 c r ∗ cS2 c r) (r2Pay m c r)
    ?_ ?_ (rest_r2 m c r) (mayWait_done c _)
  · rw [e0]; simp only [chunkSt]
    iintro ⟨H1, H2, H3, H4, H5, H6, H7⟩
    iframe
  · rw [e1]; simp only [chunkSt]
    iintro ⟨Hz, Hp, H1, H2, H3, H6, H7⟩
    iframe

theorem step_WS1 (c : Dev nD) (r : Fin 32) (q : DmaSem sig) (src dst : Memref sig .tc .hbm S64x1024 .f32) {hs : src.view.WordExact} {hd : dst.view.WordExact} (hq : q = s1Q r) {α : Type} {Q : α → sProp 𝕄} {k : PUnit → Prog (TpuEff nD τ sig (Elt F) Λ₀ .tc) α} :
    iprop(records m KB KQ ∗ levAts L lv ∗ ChunksOwes m c 32 32 (stOf 32 32 32 (r.val + 1) r.val r.val))
      ⊢ iprop((ChunksOwes m c 32 32 (stOf 32 32 32 (r.val + 1) (r.val + 1) r.val) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hs hd) k) Q) := by
  subst hq
  have e0 : stOf 32 32 32 (r.val + 1) r.val r.val r = 4 := by have := r.isLt; simp [stOf, this]
  have e1 : stOf 32 32 32 (r.val + 1) (r.val + 1) r.val r = 5 := by have := r.isLt; simp [stOf, this]
  refine step_wait m KB KQ c r (s1Q r) (by show 1 + r.val ≠ 0; omega) src dst 32 32 _ _
    (fun r' hr' => by simp only [stOf, lt_succ_iff_of_ne r r' hr'])
    iprop(zR1 c r ∗ pS2 c r ∗ zR2 c r ∗ cS2 c r ∗ r2Pay m c r) (s1Pay m c r)
    ?_ ?_ (rest_s1 m c r) (mayWait_done c _)
  · rw [e0]; simp only [chunkSt]
    iintro ⟨H1, H2, H3, H4, H5, H6, H7⟩
    iframe
  · rw [e1]; simp only [chunkSt]
    iintro ⟨Hz, Hp, H2, H3, H4, H6, H7⟩
    iframe

theorem step_WS2 (c : Dev nD) (r : Fin 32) (q : DmaSem sig) (src dst : Memref sig .tc .hbm S64x1024 .f32) {hs : src.view.WordExact} {hd : dst.view.WordExact} (hq : q = s2Q r) {α : Type} {Q : α → sProp 𝕄} {k : PUnit → Prog (TpuEff nD τ sig (Elt F) Λ₀ .tc) α} :
    iprop(records m KB KQ ∗ levAts L lv ∗ ChunksOwes m c 32 32 (stOf 32 32 32 (r.val + 1) (r.val + 1) r.val))
      ⊢ iprop((ChunksOwes m c 32 32 (stOf 32 32 32 (r.val + 1) (r.val + 1) (r.val + 1)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hs hd) k) Q) := by
  subst hq
  have e0 : stOf 32 32 32 (r.val + 1) (r.val + 1) r.val r = 5 := by have := r.isLt; simp [stOf, this]
  have e1 : stOf 32 32 32 (r.val + 1) (r.val + 1) (r.val + 1) r = 6 := by have := r.isLt; simp [stOf, this]
  refine step_wait m KB KQ c r (s2Q r) (by show 65 + r.val ≠ 0; omega) src dst 32 32 _ _
    (fun r' hr' => by simp only [stOf, lt_succ_iff_of_ne r r' hr'])
    iprop(zS1 c r ∗ zR1 c r ∗ zR2 c r ∗ r2Pay m c r ∗ s1Pay m c r) (r1Pay m c r)
    ?_ ?_ (rest_s2 m c r) (mayWait_done c _)
  · rw [e0]; simp only [chunkSt]
    iintro ⟨H1, H2, H3, H4, H5, H6, H7⟩
    iframe
  · rw [e1]; simp only [chunkSt]
    iintro ⟨Hz, Hp, H1, H2, H4, H6, H7⟩
    iframe

end Cert.Kernel.AG

end
-- ==== Proof.AGK.Dma.lean ====
import proofs.«900103_g7700000000000104_dist_ag_v7x_xy2x2_y_m4096_n1024_f32_1_alg».proof.Proof.AGK.Tables

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in

theorem bigSep_fin_add (a b : ℕ) (Φ : Fin (a + b) → sProp 𝕄) :
    bigSep Finset.univ Φ
      = iprop((bigSep Finset.univ fun i : Fin a => Φ (Fin.castAdd b i)) ∗ (bigSep Finset.univ fun j : Fin b => Φ (Fin.natAdd a j))) := by
  rw [bigSep_univ_equiv finSumFinEquiv Φ, bigSep_univ_sum]
  simp only [finSumFinEquiv_apply_left, finSumFinEquiv_apply_right]
  rfl

omit [FloatOps F] in

theorem bigSep_fin5 (Ψ : Fin (1 + (32 + (32 + (32 + 32)))) → sProp 𝕄) :
    bigSep Finset.univ Ψ
      = iprop(Ψ (Fin.castAdd (32 + (32 + (32 + 32))) (0 : Fin 1))
          ∗ (bigSep Finset.univ fun r : Fin 32 => Ψ (Fin.natAdd 1 (Fin.castAdd (32 + (32 + 32)) r)))
          ∗ (bigSep Finset.univ fun r : Fin 32 => Ψ (Fin.natAdd 1 (Fin.natAdd 32 (Fin.castAdd (32 + 32) r))))
          ∗ (bigSep Finset.univ fun r : Fin 32 => Ψ (Fin.natAdd 1 (Fin.natAdd 32 (Fin.natAdd 32 (Fin.castAdd 32 r)))))
          ∗ (bigSep Finset.univ fun r : Fin 32 => Ψ (Fin.natAdd 1 (Fin.natAdd 32 (Fin.natAdd 32 (Fin.natAdd 32 r)))))) := by
  rw [bigSep_fin_add 1 (32 + (32 + (32 + 32))) Ψ,
    bigSep_fin_add 32 (32 + (32 + 32)) (fun j => Ψ (Fin.natAdd 1 j)),
    bigSep_fin_add 32 (32 + 32) (fun j => Ψ (Fin.natAdd 1 (Fin.natAdd 32 j))),
    bigSep_fin_add 32 32 (fun j => Ψ (Fin.natAdd 1 (Fin.natAdd 32 (Fin.natAdd 32 j)))),
    bigSep_univ_of_subsingleton (0 : Fin 1)]

omit [FloatOps F] in

theorem bigSep_dma (Φ : Fin 129 → sProp 𝕄) :
    bigSep Finset.univ Φ
      = iprop(Φ locQ ∗ (bigSep Finset.univ fun r : Fin 32 => Φ (s1Q r)) ∗ (bigSep Finset.univ fun r : Fin 32 => Φ (r1Q r))
          ∗ (bigSep Finset.univ fun r : Fin 32 => Φ (s2Q r)) ∗ (bigSep Finset.univ fun r : Fin 32 => Φ (r2Q r))) := by
  have h0 : Φ (Fin.castAdd (32 + (32 + (32 + 32))) (0 : Fin 1)) = Φ locQ := congrArg Φ (Fin.ext rfl)
  have h1 : (fun r : Fin 32 => Φ (Fin.natAdd 1 (Fin.castAdd (32 + (32 + 32)) r))) = fun r : Fin 32 => Φ (s1Q r) :=
    funext fun r => congrArg Φ (Fin.ext (by show 1 + r.val = 1 + r.val; rfl))
  have h2 : (fun r : Fin 32 => Φ (Fin.natAdd 1 (Fin.natAdd 32 (Fin.castAdd (32 + 32) r)))) = fun r : Fin 32 => Φ (r1Q r) :=
    funext fun r => congrArg Φ (Fin.ext (by show 1 + (32 + r.val) = 33 + r.val; omega))
  have h3 : (fun r : Fin 32 => Φ (Fin.natAdd 1 (Fin.natAdd 32 (Fin.natAdd 32 (Fin.castAdd 32 r))))) = fun r : Fin 32 => Φ (s2Q r) :=
    funext fun r => congrArg Φ (Fin.ext (by show 1 + (32 + (32 + r.val)) = 65 + r.val; omega))
  have h4 : (fun r : Fin 32 => Φ (Fin.natAdd 1 (Fin.natAdd 32 (Fin.natAdd 32 (Fin.natAdd 32 r))))) = fun r : Fin 32 => Φ (r2Q r) :=
    funext fun r => congrArg Φ (Fin.ext (by show 1 + (32 + (32 + (32 + r.val))) = 97 + r.val; omega))
  have key := bigSep_fin5 (F := F) Φ
  rw [h0, h1, h2, h3, h4] at key
  exact key

end Cert.Kernel.AG

end
-- ==== Proof.AGK.Glue.lean ====
import proofs.«900103_g7700000000000104_dist_ag_v7x_xy2x2_y_m4096_n1024_f32_1_alg».proof.Proof.AGK.Inv
import proofs.«900103_g7700000000000104_dist_ag_v7x_xy2x2_y_m4096_n1024_f32_1_alg».proof.Proof.AGK.Tables
import proofs.«900103_g7700000000000104_dist_ag_v7x_xy2x2_y_m4096_n1024_f32_1_alg».proof.Proof.AGK.Dma
import proofs.«900103_g7700000000000104_dist_ag_v7x_xy2x2_y_m4096_n1024_f32_1_alg».proof.Proof.AGK.Regions

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def preChunk (c : Dev nD) (r : Fin 32) : sProp 𝕄 :=
  iprop(tS1 c r ∗ tR1 c r ∗ tS2 c r ∗ tR2 c r ∗ pS1 c r ∗ pR1 c r ∗ pS2 c r ∗ pR2 c r ∗ cR1 c r ∗ cR2 c r ∗ s1Pay m c r)

theorem pre_zip (c : Dev nD) :
    iprop((bigSep Finset.univ fun r : Fin 32 => chunkToks c r) ∗ (bigSep Finset.univ fun r : Fin 32 => pS1 c r)
        ∗ (bigSep Finset.univ fun r : Fin 32 => pR1 c r) ∗ (bigSep Finset.univ fun r : Fin 32 => pS2 c r)
        ∗ (bigSep Finset.univ fun r : Fin 32 => pR2 c r) ∗ (bigSep Finset.univ fun r : Fin 32 => iprop(cR1 c r ∗ cR2 c r))
        ∗ (bigSep Finset.univ fun r : Fin 32 => s1Pay m c r))
      ⊢ (bigSep Finset.univ fun r : Fin 32 => preChunk m c r : sProp 𝕄) := by
  rw [← bigSep_sep', ← bigSep_sep', ← bigSep_sep', ← bigSep_sep', ← bigSep_sep', ← bigSep_sep']
  refine bigSep_mono fun r _ => ?_
  show (_ : sProp 𝕄) ⊢ _
  unfold chunkToks preChunk
  iintro ⟨⟨H1, H2, H3, H4⟩, H5, H6, H7, H8, ⟨H9, H10⟩, H11⟩
  iframe

theorem bigSep_ex_intro {ℓ : Fin 32 → Loc nD τ sig} (S : (r : Fin 32) → Finset (Idx (ℓ r))) (q : PosShare TreeShare)
    (f : (r : Fin 32) → Buf (Elt F) (ℓ r)) :
    (bigSep Finset.univ fun r : Fin 32 => (ℓ r ↦[S r]{q} f r : sProp 𝕄))
      ⊢ bigSep Finset.univ fun r : Fin 32 => iprop(∃ g, ℓ r ↦[S r]{q} g) :=
  bigSep_mono fun r _ => show (_ : sProp 𝕄) ⊢ _ from by iintro H; iexists (f r); iexact H

theorem glue_pre (KB : Dev nD → ℕ) (KQ : Dev nD × Fin 129 → ℕ) (c : Dev nD) :
    iprop(ghost m KB KQ c ∗ launchCreds c ∗ (((c : Thread nD τ).loc main_arg0) ↦{fullShare} xs m c) ∗ (∃ f, (((c : Thread nD τ).loc main_v1) ↦{fullShare} f)))
      ⊢ iprop(records m KB KQ
          ∗ (atPos ER (barCell c) 0 ∅ 0 ∗ cred (tallyAt (barCell c) () 2) ∗ dutyTok ER (barCell (yn c)) 0 false ∗ dutyTok ER (barCell (xn c)) 0 true)
          ∗ (atPos ER (locCell c) 0 ∅ 0 ∗ dutyTok ER (locCell c) 0 false
              ∗ ((xM : Memref sig .tc .hbm S4096x1024 .f32).view.loc (c : Thread nD τ) ↦[(xM : Memref sig .tc .hbm S4096x1024 .f32).view.set]{fullShare.left} xs m c)
              ∗ (∃ f, (oLoc c).view.loc (c : Thread nD τ) ↦[(oLoc c).view.set]{fullShare} f))
          ∗ (bigSep Finset.univ fun r : Fin 32 => iprop(∃ f, (oCh2 c r).view.loc (c : Thread nD τ) ↦[(oCh2 c r).view.set]{fullShare} f))
          ∗ (bigSep Finset.univ fun r : Fin 32 => iprop(∃ f, (oCh2 (xn c) r).view.loc (c : Thread nD τ) ↦[(oCh2 (xn c) r).view.set]{fullShare} f))
          ∗ (((c : Thread nD τ).loc main_arg0) ↦[xRest c]{fullShare.right} xs m c)
          ∗ bigSep Finset.univ fun r : Fin 32 => preChunk m c r) := by
  unfold ghost positions payToks launchCreds
  iintro ⟨⟨Hrec, ⟨Hpb, Hpq⟩, Htby, Htbx, Htl, Htc⟩, ⟨Hcb, Hcr⟩, Hx, ⟨%f, Ho⟩⟩
  ihave Hx' := (x_split c (xs m c)) $$ Hx
  icases Hx' with ⟨HxL, HxC, HxR⟩
  ihave Ho' := (out_split c f) $$ Ho
  icases Ho' with ⟨HoL, HoA, HoB⟩
  ihave Hpq' := (Entails.of_eq (bigSep_dma (F := F) (fun q => atPos ER (dmaCell c q) 0 ∅ 0))) $$ Hpq
  icases Hpq' with ⟨HpL, HpS1, HpR1, HpS2, HpR2⟩
  isplitl [Hrec]; · iexact Hrec
  isplitl [Hpb Hcb Htby Htbx]
  · isplitl [Hpb]; · iexact Hpb
    isplitl [Hcb]; · iexact Hcb
    isplitl [Htby]; · iexact Htby
    iexact Htbx
  isplitl [HpL Htl HxL HoL]
  · isplitl [HpL]; · iexact HpL
    isplitl [Htl]; · iexact Htl
    isplitl [HxL]; · iexact HxL
    iexists f; iexact HoL
  isplitl [HoA]
  · iapply (bigSep_ex_intro (F := F) (fun r : Fin 32 => (oCh2 c r).view.set) fullShare (fun _ => f)) $$ HoA
  isplitl [HoB]
  · iapply (bigSep_ex_intro (F := F) (fun r : Fin 32 => (oCh2 (xn c) r).view.set) fullShare (fun _ => f)) $$ HoB
  isplitl [HxR]; · iexact HxR
  iapply (pre_zip m c)
  isplitl [Htc]; · iexact Htc
  isplitl [HpS1]; · iexact HpS1
  isplitl [HpR1]; · iexact HpR1
  isplitl [HpS2]; · iexact HpS2
  isplitl [HpR2]; · iexact HpR2
  isplitl [Hcr]; · iexact Hcr
  iexact HxC

theorem glue_chunks (c : Dev nD) :
    iprop((bigSep Finset.univ fun r : Fin 32 => preChunk m c r) ∗ barPayY c ∗ barPayX c)
      ⊢ bigSep Finset.univ fun r : Fin 32 => chunkSt m c r (stOf 0 0 0 0 0 0 r) := by
  have hst : ∀ r : Fin 32, stOf 0 0 0 0 0 0 r = 0 := fun r => by simp [stOf]
  have hY : barPayY (F := F) c = bigSep Finset.univ fun r : Fin 32 => dst1 c r := rfl
  have hX : barPayX (F := F) c = bigSep Finset.univ fun r : Fin 32 => dst2 c r := rfl
  rw [hY, hX, ← bigSep_sep', ← bigSep_sep']
  refine bigSep_mono fun r _ => ?_
  rw [hst r]
  show iprop(preChunk m c r ∗ dst1 c r ∗ dst2 c r)
    ⊢ iprop(tS1 c r ∗ tR1 c r ∗ tS2 c r ∗ tR2 c r ∗ pS1 c r ∗ pR1 c r ∗ pS2 c r ∗ pR2 c r ∗ cR1 c r ∗ cR2 c r ∗ s1Pay m c r ∗ dst1 c r ∗ dst2 c r)
  unfold preChunk
  iintro ⟨⟨H1, H2, H3, H4, H5, H6, H7, H8, H9, H10, H11⟩, H12, H13⟩
  iframe

theorem glue_post (c : Dev nD) :
    iprop((bigSep Finset.univ fun r : Fin 32 => chunkSt m c r (stOf 32 32 32 32 32 32 r)) ∗ locPay m c ∗ semVal (locCell c) 0
        ∗ (((c : Thread nD τ).loc main_arg0) ↦[xRest c]{fullShare.right} xs m c))
      ⊢ Φ₁ m c := by
  have hst : ∀ r : Fin 32, stOf 32 32 32 32 32 32 r = 6 := fun r => by have := r.isLt; simp [stOf, this]
  have e1 : (fun r : Fin 32 => chunkSt m c r (stOf 32 32 32 32 32 32 r))
      = fun r : Fin 32 => iprop(zS1 c r ∗ zR1 c r ∗ zS2 c r ∗ zR2 c r ∗ r2Pay m c r ∗ s1Pay m c r ∗ r1Pay m c r) :=
    funext fun r => by rw [hst r]; rfl
  rw [e1, bigSep_sep', bigSep_sep', bigSep_sep', bigSep_sep', bigSep_sep', bigSep_sep']
  unfold Φ₁ locPay
  rw [x_eq c (xs m c), out_eq c (gat m c), bigSep_dma (F := F) (fun q => semVal (dmaCell c q) 0)]
  unfold r2Pay s1Pay r1Pay
  iintro ⟨⟨H1, H2, H3, H4, H5, H6, H7⟩, ⟨H8, H9⟩, H10, H11⟩
  iframe

end Cert.Kernel.AG

end
-- ==== Proof.AGK.Body.lean ====
import proofs.«900103_g7700000000000104_dist_ag_v7x_xy2x2_y_m4096_n1024_f32_1_alg».proof.Proof.AGK.Inv
import proofs.«900103_g7700000000000104_dist_ag_v7x_xy2x2_y_m4096_n1024_f32_1_alg».proof.Proof.AGK.Tables
import proofs.«900103_g7700000000000104_dist_ag_v7x_xy2x2_y_m4096_n1024_f32_1_alg».proof.Proof.AGK.StepsEnds
import proofs.«900103_g7700000000000104_dist_ag_v7x_xy2x2_y_m4096_n1024_f32_1_alg».proof.Proof.AGK.StepsSend
import proofs.«900103_g7700000000000104_dist_ag_v7x_xy2x2_y_m4096_n1024_f32_1_alg».proof.Proof.AGK.StepsWait
import proofs.«900103_g7700000000000104_dist_ag_v7x_xy2x2_y_m4096_n1024_f32_1_alg».proof.Proof.AGK.Glue
import proofs.«900103_g7700000000000104_dist_ag_v7x_xy2x2_y_m4096_n1024_f32_1_alg».proof.Proof.Gen.Kernel.Skeleton

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

-- A rule for one operation, stated on the chunks' bookkeeping alone, acts under the persistent records and any frame.
theorem lift {m : (ℓ : Loc nD τ sig) → Buf (Elt F) ℓ} {KB : Dev nD → ℕ} {KQ : Dev nD × Fin 129 → ℕ} {c : Dev nD} {P P' R : sProp 𝕄} {α : Type}
    {p p' : Prog (TpuEff nD τ sig (Elt F) Λ₀ .tc) α} {Q : α → sProp 𝕄}
    (hs : iprop(records m KB KQ ∗ levAts L lv ∗ P) ⊢ iprop((P' -∗ wp frame (wpE (defs₀ (F := F)) 𝒱₀ (c : Thread nD τ) none) Set.univ p' Q) -∗ wp frame (wpE (defs₀ (F := F)) 𝒱₀ (c : Thread nD τ) none) Set.univ p Q))
    (h : iprop(records m KB KQ ∗ levAts L lv ∗ P' ∗ R) ⊢ wp frame (wpE (defs₀ (F := F)) 𝒱₀ (c : Thread nD τ) none) Set.univ p' Q) :
    iprop(records m KB KQ ∗ levAts L lv ∗ P ∗ R) ⊢ wp frame (wpE (defs₀ (F := F)) 𝒱₀ (c : Thread nD τ) none) Set.univ p Q := by
  iintro ⟨#Hr, #Hl, H, HR⟩
  iapply hs $$ [H]
  · iframe # ∗
  iintro H
  iapply h
  iframe # ∗

variable (m : (ℓ : Loc nD τ sig) → Buf (Elt F) ℓ) (KB : Dev nD → ℕ) (KQ : Dev nD × Fin 129 → ℕ) (c : Dev nD)

-- A part of the body at the launch's operands: the two whole buffers and the kernel's five semaphore arrays.
abbrev atOps.{u} {β : Sort u} (f : (a : Memref sig .tc .hbm S4096x1024 .f32) → a.IsWhole → (b : Memref sig .tc .hbm S8192x1024 .f32) → b.IsWhole →
    DmaSems sig S_ → DmaSems sig S32 → DmaSems sig S32 → DmaSems sig S32 → DmaSems sig S32 → β) : β :=
  f xM (Memref.isWhole_whole _) oM (Memref.isWhole_whole _) cc0_scratch0 cc0_scratch1 cc0_scratch2 cc0_scratch3 cc0_scratch4

def side : sProp 𝕄 :=
  iprop(cred (tallyAt (locCell c) () Nl) ∗ atPos ER (locCell c) 0 ∅ 0 ∗ (((c : Thread nD τ).loc main_arg0) ↦[xRest c]{fullShare.right} xs m c))

def bodyPre (W : Waits sig Unit) : sProp 𝕄 :=
  iprop(records m KB KQ ∗ levAts L lv ∗ owes (c : Thread nD τ) (O₀ c) W
    ∗ (atPos ER (barCell c) 0 ∅ 0 ∗ cred (tallyAt (barCell c) () 2) ∗ dutyTok ER (barCell (yn c)) 0 false ∗ dutyTok ER (barCell (xn c)) 0 true)
    ∗ (atPos ER (locCell c) 0 ∅ 0 ∗ dutyTok ER (locCell c) 0 false
        ∗ ((xM : Memref sig .tc .hbm S4096x1024 .f32).view.loc (c : Thread nD τ) ↦[(xM : Memref sig .tc .hbm S4096x1024 .f32).view.set]{fullShare.left} xs m c)
        ∗ (∃ f, (oLoc c).view.loc (c : Thread nD τ) ↦[(oLoc c).view.set]{fullShare} f))
    ∗ (bigSep Finset.univ fun r : Fin 32 => iprop(∃ f, (oCh2 c r).view.loc (c : Thread nD τ) ↦[(oCh2 c r).view.set]{fullShare} f))
    ∗ (bigSep Finset.univ fun r : Fin 32 => iprop(∃ f, (oCh2 (xn c) r).view.loc (c : Thread nD τ) ↦[(oCh2 (xn c) r).view.set]{fullShare} f))
    ∗ (((c : Thread nD τ).loc main_arg0) ↦[xRest c]{fullShare.right} xs m c)
    ∗ bigSep Finset.univ fun r : Fin 32 => preChunk m c r)

-- The three loops' bookkeeping by six counters: first-phase copies issued, landings awaited, chunks forwarded, then chunks through each of their three closing waits.
def Hd (n1 n2 n3 n4 n5 n6 : ℕ) (R : sProp 𝕄) : sProp 𝕄 :=
  iprop(records m KB KQ ∗ levAts L lv ∗ ChunksOwes m c n1 n3 (stOf n1 n2 n3 n4 n5 n6) ∗ R)

-- The program `p` takes the bookkeeping from one state of the counters to another, under any frame.
def Runs (n1 n2 n3 n4 n5 n6 k1 k2 k3 k4 k5 k6 : ℕ) {α : Type} (p : Prog (TpuEff nD τ sig (Elt F) Λ₀ .tc) α) : Prop :=
  ∀ (R : sProp 𝕄) (Q : α → sProp 𝕄), (∀ ret, Hd m KB KQ c k1 k2 k3 k4 k5 k6 R ⊢ Q ret) →
    Hd m KB KQ c n1 n2 n3 n4 n5 n6 R ⊢ wp frame (wpE (defs₀ (F := F)) 𝒱₀ (c : Thread nD τ) none) Set.univ p Q

-- Sequencing: what `p` leaves of the counters is what the continuation starts from.
variable {m KB KQ c} in
theorem Runs.seq {n1 n2 n3 n4 n5 n6 k1 k2 k3 k4 k5 k6 : ℕ} {α β : Type} {p : Prog (TpuEff nD τ sig (Elt F) Λ₀ .tc) α}
    {f : α → Prog (TpuEff nD τ sig (Elt F) Λ₀ .tc) β} {R : sProp 𝕄} {Q : β → sProp 𝕄} (hp : Runs m KB KQ c n1 n2 n3 n4 n5 n6 k1 k2 k3 k4 k5 k6 p)
    (hf : ∀ x, Hd m KB KQ c k1 k2 k3 k4 k5 k6 R ⊢ wp frame (wpE (defs₀ (F := F)) 𝒱₀ (c : Thread nD τ) none) Set.univ (f x) Q) :
    Hd m KB KQ c n1 n2 n3 n4 n5 n6 R ⊢ wp frame (wpE (defs₀ (F := F)) 𝒱₀ (c : Thread nD τ) none) Set.univ (p >>= f) Q := by
  rw [wp_bind]; exact hp R _ hf

theorem part_1 (W : Waits sig Unit)
    (Q : (Σ' (d0 : Dev nD) (v2 : BitVec 32) (v5 : BitVec 32), BitVec 32) → sProp 𝕄)
    (h : ∀ v2 v5 v23, Hd m KB KQ c 0 0 0 0 0 0 (side m c) ⊢ Q ⟨c, v2, v5, v23⟩) :
    bodyPre m KB KQ c W
      ⊢ wp frame (wpE (defs₀ (F := F)) 𝒱₀ (c : Thread nD τ) none) Set.univ
          (atOps (k0_part1 (F := F))) Q := by
  unfold atOps; rw [k0_part1_eq_skeleton]; unfold k0_part1_skel bodyPre; unfold Hd at h
  simp only [semSignalWord, semWaitWord, Prog.lift, Prog.bind_op, Prog.bind_ret, Prog.pure_eq_ret, wp_deviceId]
  iintro ⟨#Hr, #Hl, HO, ⟨Hpb, Hcb, Hty, Htx⟩, ⟨Hpl, Htl, Hxl, Hol⟩, Hy, Hx, Hrest, Hpre⟩
  iapply (step_sig1 m KB KQ c _ (dev_eq_yn c _ _ (k0_dev1_eq c)) _ rfl W) $$ [HO Hty Hy]
  · iframe # ∗
  iintro HO
  iapply (step_sig2 m KB KQ c _ (dev_eq_xn c _ _ (k0_dev2_eq c)) _ rfl W) $$ [HO Htx Hx]
  · iframe # ∗
  iintro HO
  iapply (step_barwait m KB KQ c _ rfl W) $$ [Hcb HO Hpb]
  · iframe # ∗
  iintro ⟨HO, HpY, HpX⟩
  iapply (step_locenq m KB KQ c _ rfl) $$ [Htl Hxl Hol]
  · iframe # ∗
  iintro Hcl
  iapply (le_wp_ret _ _ _ _ _)
  iapply (h _ _ _)
  isplitr; · iexact Hr
  isplitr; · iexact Hl
  isplitl [HO Hpre HpY HpX]
  · unfold ChunksOwes
    iexists _
    isplitl [HO]; · iexact HO
    iapply (glue_chunks m c)
    iframe # ∗
  unfold side
  iframe # ∗

theorem part_2 (v2 v5 : BitVec 32) :
    Runs m KB KQ c 0 0 0 0 0 0 2 0 0 0 0 0 (atOps (k0_part2 (F := F)) c v2 v5) := fun R Q h => by
  unfold atOps; rw [k0_part2_eq_skeleton]; unfold k0_part2_skel
  simp only [Prog.lift, Prog.bind_op, Prog.bind_ret, Prog.pure_eq_ret]
  refine lift (step_E1 m KB KQ c 0 _ (dev_eq_yn c _ _ (k0_dev3_eq c)) _ _ rfl rfl) ?_
  refine lift (step_E1 m KB KQ c 1 _ (dev_eq_yn c _ _ (k0_dev4_eq c)) _ _ rfl rfl) ?_
  exact (h _).trans (le_wp_ret _ _ _ _ _)

theorem part_3 (v2 v5 : BitVec 32) :
    Runs m KB KQ c 2 0 0 0 0 0 5 0 0 0 0 0 (atOps (k0_part3 (F := F)) c v2 v5) := fun R Q h => by
  unfold atOps; rw [k0_part3_eq_skeleton]; unfold k0_part3_skel
  simp only [Prog.lift, Prog.bind_op, Prog.bind_ret, Prog.pure_eq_ret]
  refine lift (step_E1 m KB KQ c 2 _ (dev_eq_yn c _ _ (k0_dev5_eq c)) _ _ rfl rfl) ?_
  refine lift (step_E1 m KB KQ c 3 _ (dev_eq_yn c _ _ (k0_dev6_eq c)) _ _ rfl rfl) ?_
  refine lift (step_E1 m KB KQ c 4 _ (dev_eq_yn c _ _ (k0_dev7_eq c)) _ _ rfl rfl) ?_
  exact (h _).trans (le_wp_ret _ _ _ _ _)

theorem part_4 (v2 v5 v94 c320_i32 : BitVec 32) :
    Runs m KB KQ c 5 0 0 0 0 0 7 0 0 0 0 0 (atOps (k0_part4 (F := F)) c v2 v5 v94 c320_i32) := fun R Q h => by
  unfold atOps; rw [k0_part4_eq_skeleton]; unfold k0_part4_skel
  simp only [Prog.lift, Prog.bind_op, Prog.bind_ret, Prog.pure_eq_ret]
  refine lift (step_E1 m KB KQ c 5 _ (dev_eq_yn c _ _ (k0_dev8_eq c)) _ _ rfl rfl) ?_
  refine lift (step_E1 m KB KQ c 6 _ (dev_eq_yn c _ _ (k0_dev9_eq c)) _ _ rfl rfl) ?_
  exact (h _).trans (le_wp_ret _ _ _ _ _)

theorem part_5 (v2 v5 v128 : BitVec 32) :
    Runs m KB KQ c 7 0 0 0 0 0 9 0 0 0 0 0 (atOps (k0_part5 (F := F)) c v2 v5 v128) := fun R Q h => by
  unfold atOps; rw [k0_part5_eq_skeleton]; unfold k0_part5_skel
  simp only [Prog.lift, Prog.bind_op, Prog.bind_ret, Prog.pure_eq_ret]
  refine lift (step_E1 m KB KQ c 7 _ (dev_eq_yn c _ _ (k0_dev10_eq c)) _ _ rfl rfl) ?_
  refine lift (step_E1 m KB KQ c 8 _ (dev_eq_yn c _ _ (k0_dev11_eq c)) _ _ rfl rfl) ?_
  exact (h _).trans (le_wp_ret _ _ _ _ _)

theorem part_6 (v2 v5 v158 v160 : BitVec 32) :
    Runs m KB KQ c 9 0 0 0 0 0 11 0 0 0 0 0 (atOps (k0_part6 (F := F)) c v2 v5 v158 v160) := fun R Q h => by
  unfold atOps; rw [k0_part6_eq_skeleton]; unfold k0_part6_skel
  simp only [Prog.lift, Prog.bind_op, Prog.bind_ret, Prog.pure_eq_ret]
  refine lift (step_E1 m KB KQ c 9 _ (dev_eq_yn c _ _ (k0_dev12_eq c)) _ _ rfl rfl) ?_
  refine lift (step_E1 m KB KQ c 10 _ (dev_eq_yn c _ _ (k0_dev13_eq c)) _ _ rfl rfl) ?_
  exact (h _).trans (le_wp_ret _ _ _ _ _)

theorem part_7 (v2 v5 : BitVec 32) :
    Runs m KB KQ c 11 0 0 0 0 0 14 0 0 0 0 0 (atOps (k0_part7 (F := F)) c v2 v5) := fun R Q h => by
  unfold atOps; rw [k0_part7_eq_skeleton]; unfold k0_part7_skel
  simp only [Prog.lift, Prog.bind_op, Prog.bind_ret, Prog.pure_eq_ret]
  refine lift (step_E1 m KB KQ c 11 _ (dev_eq_yn c _ _ (k0_dev14_eq c)) _ _ rfl rfl) ?_
  refine lift (step_E1 m KB KQ c 12 _ (dev_eq_yn c _ _ (k0_dev15_eq c)) _ _ rfl rfl) ?_
  refine lift (step_E1 m KB KQ c 13 _ (dev_eq_yn c _ _ (k0_dev16_eq c)) _ _ rfl rfl) ?_
  exact (h _).trans (le_wp_ret _ _ _ _ _)

theorem part_8 (v2 v5 : BitVec 32) :
    Runs m KB KQ c 14 0 0 0 0 0 16 0 0 0 0 0 (atOps (k0_part8 (F := F)) c v2 v5) := fun R Q h => by
  unfold atOps; rw [k0_part8_eq_skeleton]; unfold k0_part8_skel
  simp only [Prog.lift, Prog.bind_op, Prog.bind_ret, Prog.pure_eq_ret]
  refine lift (step_E1 m KB KQ c 14 _ (dev_eq_yn c _ _ (k0_dev17_eq c)) _ _ rfl rfl) ?_
  refine lift (step_E1 m KB KQ c 15 _ (dev_eq_yn c _ _ (k0_dev18_eq c)) _ _ rfl rfl) ?_
  exact (h _).trans (le_wp_ret _ _ _ _ _)

theorem part_9 (v2 v5 v260 v261 : BitVec 32) :
    Runs m KB KQ c 16 0 0 0 0 0 18 0 0 0 0 0 (atOps (k0_part9 (F := F)) c v2 v5 v260 v261) := fun R Q h => by
  unfold atOps; rw [k0_part9_eq_skeleton]; unfold k0_part9_skel
  simp only [Prog.lift, Prog.bind_op, Prog.bind_ret, Prog.pure_eq_ret]
  refine lift (step_E1 m KB KQ c 16 _ (dev_eq_yn c _ _ (k0_dev19_eq c)) _ _ rfl rfl) ?_
  refine lift (step_E1 m KB KQ c 17 _ (dev_eq_yn c _ _ (k0_dev20_eq c)) _ _ rfl rfl) ?_
  exact (h _).trans (le_wp_ret _ _ _ _ _)

theorem part_10 (v2 v5 v293 c2_i32_182 : BitVec 32) :
    Runs m KB KQ c 18 0 0 0 0 0 20 0 0 0 0 0 (atOps (k0_part10 (F := F)) c v2 v5 v293 c2_i32_182) := fun R Q h => by
  unfold atOps; rw [k0_part10_eq_skeleton]; unfold k0_part10_skel
  simp only [Prog.lift, Prog.bind_op, Prog.bind_ret, Prog.pure_eq_ret]
  refine lift (step_E1 m KB KQ c 18 _ (dev_eq_yn c _ _ (k0_dev21_eq c)) _ _ rfl rfl) ?_
  refine lift (step_E1 m KB KQ c 19 _ (dev_eq_yn c _ _ (k0_dev22_eq c)) _ _ rfl rfl) ?_
  exact (h _).trans (le_wp_ret _ _ _ _ _)

theorem part_11 (v2 v5 : BitVec 32) :
    Runs m KB KQ c 20 0 0 0 0 0 22 0 0 0 0 0 (atOps (k0_part11 (F := F)) c v2 v5) := fun R Q h => by
  unfold atOps; rw [k0_part11_eq_skeleton]; unfold k0_part11_skel
  simp only [Prog.lift, Prog.bind_op, Prog.bind_ret, Prog.pure_eq_ret]
  refine lift (step_E1 m KB KQ c 20 _ (dev_eq_yn c _ _ (k0_dev23_eq c)) _ _ rfl rfl) ?_
  refine lift (step_E1 m KB KQ c 21 _ (dev_eq_yn c _ _ (k0_dev24_eq c)) _ _ rfl rfl) ?_
  exact (h _).trans (le_wp_ret _ _ _ _ _)

theorem part_12 (v2 v5 : BitVec 32) :
    Runs m KB KQ c 22 0 0 0 0 0 25 0 0 0 0 0 (atOps (k0_part12 (F := F)) c v2 v5) := fun R Q h => by
  unfold atOps; rw [k0_part12_eq_skeleton]; unfold k0_part12_skel
  simp only [Prog.lift, Prog.bind_op, Prog.bind_ret, Prog.pure_eq_ret]
  refine lift (step_E1 m KB KQ c 22 _ (dev_eq_yn c _ _ (k0_dev25_eq c)) _ _ rfl rfl) ?_
  refine lift (step_E1 m KB KQ c 23 _ (dev_eq_yn c _ _ (k0_dev26_eq c)) _ _ rfl rfl) ?_
  refine lift (step_E1 m KB KQ c 24 _ (dev_eq_yn c _ _ (k0_dev27_eq c)) _ _ rfl rfl) ?_
  exact (h _).trans (le_wp_ret _ _ _ _ _)

theorem part_13 (v2 v5 v394 c1600_i32 : BitVec 32) :
    Runs m KB KQ c 25 0 0 0 0 0 27 0 0 0 0 0 (atOps (k0_part13 (F := F)) c v2 v5 v394 c1600_i32) := fun R Q h => by
  unfold atOps; rw [k0_part13_eq_skeleton]; unfold k0_part13_skel
  simp only [Prog.lift, Prog.bind_op, Prog.bind_ret, Prog.pure_eq_ret]
  refine lift (step_E1 m KB KQ c 25 _ (dev_eq_yn c _ _ (k0_dev28_eq c)) _ _ rfl rfl) ?_
  refine lift (step_E1 m KB KQ c 26 _ (dev_eq_yn c _ _ (k0_dev29_eq c)) _ _ rfl rfl) ?_
  exact (h _).trans (le_wp_ret _ _ _ _ _)

theorem part_14 (v2 v5 v428 : BitVec 32) :
    Runs m KB KQ c 27 0 0 0 0 0 29 0 0 0 0 0 (atOps (k0_part14 (F := F)) c v2 v5 v428) := fun R Q h => by
  unfold atOps; rw [k0_part14_eq_skeleton]; unfold k0_part14_skel
  simp only [Prog.lift, Prog.bind_op, Prog.bind_ret, Prog.pure_eq_ret]
  refine lift (step_E1 m KB KQ c 27 _ (dev_eq_yn c _ _ (k0_dev30_eq c)) _ _ rfl rfl) ?_
  refine lift (step_E1 m KB KQ c 28 _ (dev_eq_yn c _ _ (k0_dev31_eq c)) _ _ rfl rfl) ?_
  exact (h _).trans (le_wp_ret _ _ _ _ _)

theorem part_15 (v2 v5 v458 v460 : BitVec 32) :
    Runs m KB KQ c 29 0 0 0 0 0 31 0 0 0 0 0 (atOps (k0_part15 (F := F)) c v2 v5 v458 v460) := fun R Q h => by
  unfold atOps; rw [k0_part15_eq_skeleton]; unfold k0_part15_skel
  simp only [Prog.lift, Prog.bind_op, Prog.bind_ret, Prog.pure_eq_ret]
  refine lift (step_E1 m KB KQ c 29 _ (dev_eq_yn c _ _ (k0_dev32_eq c)) _ _ rfl rfl) ?_
  refine lift (step_E1 m KB KQ c 30 _ (dev_eq_yn c _ _ (k0_dev33_eq c)) _ _ rfl rfl) ?_
  exact (h _).trans (le_wp_ret _ _ _ _ _)

theorem part_16 (v2 v5 v23 v38 : BitVec 32) :
    Runs m KB KQ c 31 0 0 0 0 0 32 1 1 0 0 0 (atOps (k0_part16 (F := F)) c v2 v5 v23 v38) := fun R Q h => by
  unfold atOps; rw [k0_part16_eq_skeleton]; unfold k0_part16_skel
  simp only [Prog.lift, Prog.bind_op, Prog.bind_ret, Prog.pure_eq_ret]
  refine lift (step_E1 m KB KQ c 31 _ (dev_eq_yn c _ _ (k0_dev34_eq c)) _ _ rfl rfl) ?_
  refine lift (step_W1 m KB KQ c 0 _ _ _ rfl) ?_
  refine lift (step_E2 m KB KQ c 0 _ (dev_eq_xn c _ _ (k0_dev35_eq c)) _ _ rfl rfl) ?_
  exact (h _).trans (le_wp_ret _ _ _ _ _)

theorem part_17 (v2 v5 v53 : BitVec 32) :
    Runs m KB KQ c 32 1 1 0 0 0 32 3 2 0 0 0 (atOps (k0_part17 (F := F)) c v2 v5 v53) := fun R Q h => by
  unfold atOps; rw [k0_part17_eq_skeleton]; unfold k0_part17_skel
  simp only [Prog.lift, Prog.bind_op, Prog.bind_ret, Prog.pure_eq_ret]
  refine lift (step_W1 m KB KQ c 1 _ _ _ rfl) ?_
  refine lift (step_E2 m KB KQ c 1 _ (dev_eq_xn c _ _ (k0_dev36_eq c)) _ _ rfl rfl) ?_
  refine lift (step_W1 m KB KQ c 2 _ _ _ rfl) ?_
  exact (h _).trans (le_wp_ret _ _ _ _ _)

theorem part_18 (v2 v5 v68 v558 c128_i32_352 : BitVec 32) :
    Runs m KB KQ c 32 3 2 0 0 0 32 4 3 0 0 0 (atOps (k0_part18 (F := F)) c v2 v5 v68 v558 c128_i32_352) := fun R Q h => by
  unfold atOps; rw [k0_part18_eq_skeleton]; unfold k0_part18_skel
  simp only [Prog.lift, Prog.bind_op, Prog.bind_ret, Prog.pure_eq_ret]
  refine lift (step_E2 m KB KQ c 2 _ (dev_eq_xn c _ _ (k0_dev37_eq c)) _ _ rfl rfl) ?_
  refine lift (step_W1 m KB KQ c 3 _ _ _ rfl) ?_
  exact (h _).trans (le_wp_ret _ _ _ _ _)

theorem part_19 (v2 v5 v83 v98 : BitVec 32) :
    Runs m KB KQ c 32 4 3 0 0 0 32 5 5 0 0 0 (atOps (k0_part19 (F := F)) c v2 v5 v83 v98) := fun R Q h => by
  unfold atOps; rw [k0_part19_eq_skeleton]; unfold k0_part19_skel
  simp only [Prog.lift, Prog.bind_op, Prog.bind_ret, Prog.pure_eq_ret]
  refine lift (step_E2 m KB KQ c 3 _ (dev_eq_xn c _ _ (k0_dev38_eq c)) _ _ rfl rfl) ?_
  refine lift (step_W1 m KB KQ c 4 _ _ _ rfl) ?_
  refine lift (step_E2 m KB KQ c 4 _ (dev_eq_xn c _ _ (k0_dev39_eq c)) _ _ rfl rfl) ?_
  exact (h _).trans (le_wp_ret _ _ _ _ _)

theorem part_20 (v2 v5 v113 : BitVec 32) :
    Runs m KB KQ c 32 5 5 0 0 0 32 7 6 0 0 0 (atOps (k0_part20 (F := F)) c v2 v5 v113) := fun R Q h => by
  unfold atOps; rw [k0_part20_eq_skeleton]; unfold k0_part20_skel
  simp only [Prog.lift, Prog.bind_op, Prog.bind_ret, Prog.pure_eq_ret]
  refine lift (step_W1 m KB KQ c 5 _ _ _ rfl) ?_
  refine lift (step_E2 m KB KQ c 5 _ (dev_eq_xn c _ _ (k0_dev40_eq c)) _ _ rfl rfl) ?_
  refine lift (step_W1 m KB KQ c 6 _ _ _ rfl) ?_
  exact (h _).trans (le_wp_ret _ _ _ _ _)

theorem part_21 (v2 v5 v128 v654 c384_i32_428 : BitVec 32) :
    Runs m KB KQ c 32 7 6 0 0 0 32 8 7 0 0 0 (atOps (k0_part21 (F := F)) c v2 v5 v128 v654 c384_i32_428) := fun R Q h => by
  unfold atOps; rw [k0_part21_eq_skeleton]; unfold k0_part21_skel
  simp only [Prog.lift, Prog.bind_op, Prog.bind_ret, Prog.pure_eq_ret]
  refine lift (step_E2 m KB KQ c 6 _ (dev_eq_xn c _ _ (k0_dev41_eq c)) _ _ rfl rfl) ?_
  refine lift (step_W1 m KB KQ c 7 _ _ _ rfl) ?_
  exact (h _).trans (le_wp_ret _ _ _ _ _)

theorem part_22 (v2 v5 v143 v158 : BitVec 32) :
    Runs m KB KQ c 32 8 7 0 0 0 32 9 9 0 0 0 (atOps (k0_part22 (F := F)) c v2 v5 v143 v158) := fun R Q h => by
  unfold atOps; rw [k0_part22_eq_skeleton]; unfold k0_part22_skel
  simp only [Prog.lift, Prog.bind_op, Prog.bind_ret, Prog.pure_eq_ret]
  refine lift (step_E2 m KB KQ c 7 _ (dev_eq_xn c _ _ (k0_dev42_eq c)) _ _ rfl rfl) ?_
  refine lift (step_W1 m KB KQ c 8 _ _ _ rfl) ?_
  refine lift (step_E2 m KB KQ c 8 _ (dev_eq_xn c _ _ (k0_dev43_eq c)) _ _ rfl rfl) ?_
  exact (h _).trans (le_wp_ret _ _ _ _ _)

theorem part_23 (v2 v5 v173 : BitVec 32) :
    Runs m KB KQ c 32 9 9 0 0 0 32 11 10 0 0 0 (atOps (k0_part23 (F := F)) c v2 v5 v173) := fun R Q h => by
  unfold atOps; rw [k0_part23_eq_skeleton]; unfold k0_part23_skel
  simp only [Prog.lift, Prog.bind_op, Prog.bind_ret, Prog.pure_eq_ret]
  refine lift (step_W1 m KB KQ c 9 _ _ _ rfl) ?_
  refine lift (step_E2 m KB KQ c 9 _ (dev_eq_xn c _ _ (k0_dev44_eq c)) _ _ rfl rfl) ?_
  refine lift (step_W1 m KB KQ c 10 _ _ _ rfl) ?_
  exact (h _).trans (le_wp_ret _ _ _ _ _)

theorem part_24 (v2 v5 v188 v750 c640_i32_504 : BitVec 32) :
    Runs m KB KQ c 32 11 10 0 0 0 32 12 11 0 0 0 (atOps (k0_part24 (F := F)) c v2 v5 v188 v750 c640_i32_504) := fun R Q h => by
  unfold atOps; rw [k0_part24_eq_skeleton]; unfold k0_part24_skel
  simp only [Prog.lift, Prog.bind_op, Prog.bind_ret, Prog.pure_eq_ret]
  refine lift (step_E2 m KB KQ c 10 _ (dev_eq_xn c _ _ (k0_dev45_eq c)) _ _ rfl rfl) ?_
  refine lift (step_W1 m KB KQ c 11 _ _ _ rfl) ?_
  exact (h _).trans (le_wp_ret _ _ _ _ _)

theorem part_25 (v2 v5 v203 v218 : BitVec 32) :
    Runs m KB KQ c 32 12 11 0 0 0 32 13 13 0 0 0 (atOps (k0_part25 (F := F)) c v2 v5 v203 v218) := fun R Q h => by
  unfold atOps; rw [k0_part25_eq_skeleton]; unfold k0_part25_skel
  simp only [Prog.lift, Prog.bind_op, Prog.bind_ret, Prog.pure_eq_ret]
  refine lift (step_E2 m KB KQ c 11 _ (dev_eq_xn c _ _ (k0_dev46_eq c)) _ _ rfl rfl) ?_
  refine lift (step_W1 m KB KQ c 12 _ _ _ rfl) ?_
  refine lift (step_E2 m KB KQ c 12 _ (dev_eq_xn c _ _ (k0_dev47_eq c)) _ _ rfl rfl) ?_
  exact (h _).trans (le_wp_ret _ _ _ _ _)

theorem part_26 (v2 v5 v233 : BitVec 32) :
    Runs m KB KQ c 32 13 13 0 0 0 32 15 14 0 0 0 (atOps (k0_part26 (F := F)) c v2 v5 v233) := fun R Q h => by
  unfold atOps; rw [k0_part26_eq_skeleton]; unfold k0_part26_skel
  simp only [Prog.lift, Prog.bind_op, Prog.bind_ret, Prog.pure_eq_ret]
  refine lift (step_W1 m KB KQ c 13 _ _ _ rfl) ?_
  refine lift (step_E2 m KB KQ c 13 _ (dev_eq_xn c _ _ (k0_dev48_eq c)) _ _ rfl rfl) ?_
  refine lift (step_W1 m KB KQ c 14 _ _ _ rfl) ?_
  exact (h _).trans (le_wp_ret _ _ _ _ _)

theorem part_27 (v2 v5 v248 v846 c896_i32_580 : BitVec 32) :
    Runs m KB KQ c 32 15 14 0 0 0 32 16 15 0 0 0 (atOps (k0_part27 (F := F)) c v2 v5 v248 v846 c896_i32_580) := fun R Q h => by
  unfold atOps; rw [k0_part27_eq_skeleton]; unfold k0_part27_skel
  simp only [Prog.lift, Prog.bind_op, Prog.bind_ret, Prog.pure_eq_ret]
  refine lift (step_E2 m KB KQ c 14 _ (dev_eq_xn c _ _ (k0_dev49_eq c)) _ _ rfl rfl) ?_
  refine lift (step_W1 m KB KQ c 15 _ _ _ rfl) ?_
  exact (h _).trans (le_wp_ret _ _ _ _ _)

theorem part_28 (v2 v5 v263 v278 : BitVec 32) :
    Runs m KB KQ c 32 16 15 0 0 0 32 17 17 0 0 0 (atOps (k0_part28 (F := F)) c v2 v5 v263 v278) := fun R Q h => by
  unfold atOps; rw [k0_part28_eq_skeleton]; unfold k0_part28_skel
  simp only [Prog.lift, Prog.bind_op, Prog.bind_ret, Prog.pure_eq_ret]
  refine lift (step_E2 m KB KQ c 15 _ (dev_eq_xn c _ _ (k0_dev50_eq c)) _ _ rfl rfl) ?_
  refine lift (step_W1 m KB KQ c 16 _ _ _ rfl) ?_
  refine lift (step_E2 m KB KQ c 16 _ (dev_eq_xn c _ _ (k0_dev51_eq c)) _ _ rfl rfl) ?_
  exact (h _).trans (le_wp_ret _ _ _ _ _)

theorem part_29 (v2 v5 v293 : BitVec 32) :
    Runs m KB KQ c 32 17 17 0 0 0 32 19 18 0 0 0 (atOps (k0_part29 (F := F)) c v2 v5 v293) := fun R Q h => by
  unfold atOps; rw [k0_part29_eq_skeleton]; unfold k0_part29_skel
  simp only [Prog.lift, Prog.bind_op, Prog.bind_ret, Prog.pure_eq_ret]
  refine lift (step_W1 m KB KQ c 17 _ _ _ rfl) ?_
  refine lift (step_E2 m KB KQ c 17 _ (dev_eq_xn c _ _ (k0_dev52_eq c)) _ _ rfl rfl) ?_
  refine lift (step_W1 m KB KQ c 18 _ _ _ rfl) ?_
  exact (h _).trans (le_wp_ret _ _ _ _ _)

theorem part_30 (v2 v5 v308 v942 c1152_i32_656 : BitVec 32) :
    Runs m KB KQ c 32 19 18 0 0 0 32 20 19 0 0 0 (atOps (k0_part30 (F := F)) c v2 v5 v308 v942 c1152_i32_656) := fun R Q h => by
  unfold atOps; rw [k0_part30_eq_skeleton]; unfold k0_part30_skel
  simp only [Prog.lift, Prog.bind_op, Prog.bind_ret, Prog.pure_eq_ret]
  refine lift (step_E2 m KB KQ c 18 _ (dev_eq_xn c _ _ (k0_dev53_eq c)) _ _ rfl rfl) ?_
  refine lift (step_W1 m KB KQ c 19 _ _ _ rfl) ?_
  exact (h _).trans (le_wp_ret _ _ _ _ _)

theorem part_31 (v2 v5 v323 v338 : BitVec 32) :
    Runs m KB KQ c 32 20 19 0 0 0 32 21 21 0 0 0 (atOps (k0_part31 (F := F)) c v2 v5 v323 v338) := fun R Q h => by
  unfold atOps; rw [k0_part31_eq_skeleton]; unfold k0_part31_skel
  simp only [Prog.lift, Prog.bind_op, Prog.bind_ret, Prog.pure_eq_ret]
  refine lift (step_E2 m KB KQ c 19 _ (dev_eq_xn c _ _ (k0_dev54_eq c)) _ _ rfl rfl) ?_
  refine lift (step_W1 m KB KQ c 20 _ _ _ rfl) ?_
  refine lift (step_E2 m KB KQ c 20 _ (dev_eq_xn c _ _ (k0_dev55_eq c)) _ _ rfl rfl) ?_
  exact (h _).trans (le_wp_ret _ _ _ _ _)

theorem part_32 (v2 v5 v353 : BitVec 32) :
    Runs m KB KQ c 32 21 21 0 0 0 32 23 22 0 0 0 (atOps (k0_part32 (F := F)) c v2 v5 v353) := fun R Q h => by
  unfold atOps; rw [k0_part32_eq_skeleton]; unfold k0_part32_skel
  simp only [Prog.lift, Prog.bind_op, Prog.bind_ret, Prog.pure_eq_ret]
  refine lift (step_W1 m KB KQ c 21 _ _ _ rfl) ?_
  refine lift (step_E2 m KB KQ c 21 _ (dev_eq_xn c _ _ (k0_dev56_eq c)) _ _ rfl rfl) ?_
  refine lift (step_W1 m KB KQ c 22 _ _ _ rfl) ?_
  exact (h _).trans (le_wp_ret _ _ _ _ _)

theorem part_33 (v2 v5 v368 v1038 c1408_i32_732 : BitVec 32) :
    Runs m KB KQ c 32 23 22 0 0 0 32 24 23 0 0 0 (atOps (k0_part33 (F := F)) c v2 v5 v368 v1038 c1408_i32_732) := fun R Q h => by
  unfold atOps; rw [k0_part33_eq_skeleton]; unfold k0_part33_skel
  simp only [Prog.lift, Prog.bind_op, Prog.bind_ret, Prog.pure_eq_ret]
  refine lift (step_E2 m KB KQ c 22 _ (dev_eq_xn c _ _ (k0_dev57_eq c)) _ _ rfl rfl) ?_
  refine lift (step_W1 m KB KQ c 23 _ _ _ rfl) ?_
  exact (h _).trans (le_wp_ret _ _ _ _ _)

theorem part_34 (v2 v5 v383 v398 : BitVec 32) :
    Runs m KB KQ c 32 24 23 0 0 0 32 25 25 0 0 0 (atOps (k0_part34 (F := F)) c v2 v5 v383 v398) := fun R Q h => by
  unfold atOps; rw [k0_part34_eq_skeleton]; unfold k0_part34_skel
  simp only [Prog.lift, Prog.bind_op, Prog.bind_ret, Prog.pure_eq_ret]
  refine lift (step_E2 m KB KQ c 23 _ (dev_eq_xn c _ _ (k0_dev58_eq c)) _ _ rfl rfl) ?_
  refine lift (step_W1 m KB KQ c 24 _ _ _ rfl) ?_
  refine lift (step_E2 m KB KQ c 24 _ (dev_eq_xn c _ _ (k0_dev59_eq c)) _ _ rfl rfl) ?_
  exact (h _).trans (le_wp_ret _ _ _ _ _)

theorem part_35 (v2 v5 v413 : BitVec 32) :
    Runs m KB KQ c 32 25 25 0 0 0 32 27 26 0 0 0 (atOps (k0_part35 (F := F)) c v2 v5 v413) := fun R Q h => by
  unfold atOps; rw [k0_part35_eq_skeleton]; unfold k0_part35_skel
  simp only [Prog.lift, Prog.bind_op, Prog.bind_ret, Prog.pure_eq_ret]
  refine lift (step_W1 m KB KQ c 25 _ _ _ rfl) ?_
  refine lift (step_E2 m KB KQ c 25 _ (dev_eq_xn c _ _ (k0_dev60_eq c)) _ _ rfl rfl) ?_
  refine lift (step_W1 m KB KQ c 26 _ _ _ rfl) ?_
  exact (h _).trans (le_wp_ret _ _ _ _ _)

theorem part_36 (v2 v5 v428 v1134 c1664_i32_808 : BitVec 32) :
    Runs m KB KQ c 32 27 26 0 0 0 32 28 27 0 0 0 (atOps (k0_part36 (F := F)) c v2 v5 v428 v1134 c1664_i32_808) := fun R Q h => by
  unfold atOps; rw [k0_part36_eq_skeleton]; unfold k0_part36_skel
  simp only [Prog.lift, Prog.bind_op, Prog.bind_ret, Prog.pure_eq_ret]
  refine lift (step_E2 m KB KQ c 26 _ (dev_eq_xn c _ _ (k0_dev61_eq c)) _ _ rfl rfl) ?_
  refine lift (step_W1 m KB KQ c 27 _ _ _ rfl) ?_
  exact (h _).trans (le_wp_ret _ _ _ _ _)

theorem part_37 (v2 v5 v443 v458 : BitVec 32) :
    Runs m KB KQ c 32 28 27 0 0 0 32 29 29 0 0 0 (atOps (k0_part37 (F := F)) c v2 v5 v443 v458) := fun R Q h => by
  unfold atOps; rw [k0_part37_eq_skeleton]; unfold k0_part37_skel
  simp only [Prog.lift, Prog.bind_op, Prog.bind_ret, Prog.pure_eq_ret]
  refine lift (step_E2 m KB KQ c 27 _ (dev_eq_xn c _ _ (k0_dev62_eq c)) _ _ rfl rfl) ?_
  refine lift (step_W1 m KB KQ c 28 _ _ _ rfl) ?_
  refine lift (step_E2 m KB KQ c 28 _ (dev_eq_xn c _ _ (k0_dev63_eq c)) _ _ rfl rfl) ?_
  exact (h _).trans (le_wp_ret _ _ _ _ _)

theorem part_38 (v2 v5 v473 : BitVec 32) :
    Runs m KB KQ c 32 29 29 0 0 0 32 31 30 0 0 0 (atOps (k0_part38 (F := F)) c v2 v5 v473) := fun R Q h => by
  unfold atOps; rw [k0_part38_eq_skeleton]; unfold k0_part38_skel
  simp only [Prog.lift, Prog.bind_op, Prog.bind_ret, Prog.pure_eq_ret]
  refine lift (step_W1 m KB KQ c 29 _ _ _ rfl) ?_
  refine lift (step_E2 m KB KQ c 29 _ (dev_eq_xn c _ _ (k0_dev64_eq c)) _ _ rfl rfl) ?_
  refine lift (step_W1 m KB KQ c 30 _ _ _ rfl) ?_
  exact (h _).trans (le_wp_ret _ _ _ _ _)

theorem part_39 (v2 v5 v488 v1230 c1920_i32_884 : BitVec 32) :
    Runs m KB KQ c 32 31 30 0 0 0 32 32 31 0 0 0 (atOps (k0_part39 (F := F)) c v2 v5 v488 v1230 c1920_i32_884) := fun R Q h => by
  unfold atOps; rw [k0_part39_eq_skeleton]; unfold k0_part39_skel
  simp only [Prog.lift, Prog.bind_op, Prog.bind_ret, Prog.pure_eq_ret]
  refine lift (step_E2 m KB KQ c 30 _ (dev_eq_xn c _ _ (k0_dev65_eq c)) _ _ rfl rfl) ?_
  refine lift (step_W1 m KB KQ c 31 _ _ _ rfl) ?_
  exact (h _).trans (le_wp_ret _ _ _ _ _)

theorem part_40 (v5 v512 v536 : BitVec 32) :
    Runs m KB KQ c 32 32 31 0 0 0 32 32 32 2 1 1 (atOps (k0_part40 (F := F)) c v5 v512 v536) := fun R Q h => by
  unfold atOps; rw [k0_part40_eq_skeleton]; unfold k0_part40_skel
  simp only [Prog.lift, Prog.bind_op, Prog.bind_ret, Prog.pure_eq_ret]
  refine lift (step_E2 m KB KQ c 31 _ (dev_eq_xn c _ _ (k0_dev66_eq c)) _ _ rfl rfl) ?_
  refine lift (step_W2 m KB KQ c 0 _ _ _ rfl) ?_
  refine lift (step_WS1 m KB KQ c 0 _ _ _ rfl) ?_
  refine lift (step_WS2 m KB KQ c 0 _ _ _ rfl) ?_
  refine lift (step_W2 m KB KQ c 1 _ _ _ rfl) ?_
  exact (h _).trans (le_wp_ret _ _ _ _ _)

theorem part_41 (v5 v560 v584 : BitVec 32) :
    Runs m KB KQ c 32 32 32 2 1 1 32 32 32 3 3 3 (atOps (k0_part41 (F := F)) c v5 v560 v584) := fun R Q h => by
  unfold atOps; rw [k0_part41_eq_skeleton]; unfold k0_part41_skel
  simp only [Prog.lift, Prog.bind_op, Prog.bind_ret, Prog.pure_eq_ret]
  refine lift (step_WS1 m KB KQ c 1 _ _ _ rfl) ?_
  refine lift (step_WS2 m KB KQ c 1 _ _ _ rfl) ?_
  refine lift (step_W2 m KB KQ c 2 _ _ _ rfl) ?_
  refine lift (step_WS1 m KB KQ c 2 _ _ _ rfl) ?_
  refine lift (step_WS2 m KB KQ c 2 _ _ _ rfl) ?_
  exact (h _).trans (le_wp_ret _ _ _ _ _)

theorem part_42 (v5 v608 v1316 : BitVec 32) :
    Runs m KB KQ c 32 32 32 3 3 3 32 32 32 5 5 4 (atOps (k0_part42 (F := F)) c v5 v608 v1316) := fun R Q h => by
  unfold atOps; rw [k0_part42_eq_skeleton]; unfold k0_part42_skel
  simp only [Prog.lift, Prog.bind_op, Prog.bind_ret, Prog.pure_eq_ret]
  refine lift (step_W2 m KB KQ c 3 _ _ _ rfl) ?_
  refine lift (step_WS1 m KB KQ c 3 _ _ _ rfl) ?_
  refine lift (step_WS2 m KB KQ c 3 _ _ _ rfl) ?_
  refine lift (step_W2 m KB KQ c 4 _ _ _ rfl) ?_
  refine lift (step_WS1 m KB KQ c 4 _ _ _ rfl) ?_
  exact (h _).trans (le_wp_ret _ _ _ _ _)

theorem part_43 (v5 v632 v656 : BitVec 32) :
    Runs m KB KQ c 32 32 32 5 5 4 32 32 32 7 6 6 (atOps (k0_part43 (F := F)) c v5 v632 v656) := fun R Q h => by
  unfold atOps; rw [k0_part43_eq_skeleton]; unfold k0_part43_skel
  simp only [Prog.lift, Prog.bind_op, Prog.bind_ret, Prog.pure_eq_ret]
  refine lift (step_WS2 m KB KQ c 4 _ _ _ rfl) ?_
  refine lift (step_W2 m KB KQ c 5 _ _ _ rfl) ?_
  refine lift (step_WS1 m KB KQ c 5 _ _ _ rfl) ?_
  refine lift (step_WS2 m KB KQ c 5 _ _ _ rfl) ?_
  refine lift (step_W2 m KB KQ c 6 _ _ _ rfl) ?_
  exact (h _).trans (le_wp_ret _ _ _ _ _)

theorem part_44 (v5 v680 v704 : BitVec 32) :
    Runs m KB KQ c 32 32 32 7 6 6 32 32 32 8 8 8 (atOps (k0_part44 (F := F)) c v5 v680 v704) := fun R Q h => by
  unfold atOps; rw [k0_part44_eq_skeleton]; unfold k0_part44_skel
  simp only [Prog.lift, Prog.bind_op, Prog.bind_ret, Prog.pure_eq_ret]
  refine lift (step_WS1 m KB KQ c 6 _ _ _ rfl) ?_
  refine lift (step_WS2 m KB KQ c 6 _ _ _ rfl) ?_
  refine lift (step_W2 m KB KQ c 7 _ _ _ rfl) ?_
  refine lift (step_WS1 m KB KQ c 7 _ _ _ rfl) ?_
  refine lift (step_WS2 m KB KQ c 7 _ _ _ rfl) ?_
  exact (h _).trans (le_wp_ret _ _ _ _ _)

theorem part_45 (v5 v728 v1396 : BitVec 32) :
    Runs m KB KQ c 32 32 32 8 8 8 32 32 32 10 10 9 (atOps (k0_part45 (F := F)) c v5 v728 v1396) := fun R Q h => by
  unfold atOps; rw [k0_part45_eq_skeleton]; unfold k0_part45_skel
  simp only [Prog.lift, Prog.bind_op, Prog.bind_ret, Prog.pure_eq_ret]
  refine lift (step_W2 m KB KQ c 8 _ _ _ rfl) ?_
  refine lift (step_WS1 m KB KQ c 8 _ _ _ rfl) ?_
  refine lift (step_WS2 m KB KQ c 8 _ _ _ rfl) ?_
  refine lift (step_W2 m KB KQ c 9 _ _ _ rfl) ?_
  refine lift (step_WS1 m KB KQ c 9 _ _ _ rfl) ?_
  exact (h _).trans (le_wp_ret _ _ _ _ _)

theorem part_46 (v5 v752 v776 : BitVec 32) :
    Runs m KB KQ c 32 32 32 10 10 9 32 32 32 12 11 11 (atOps (k0_part46 (F := F)) c v5 v752 v776) := fun R Q h => by
  unfold atOps; rw [k0_part46_eq_skeleton]; unfold k0_part46_skel
  simp only [Prog.lift, Prog.bind_op, Prog.bind_ret, Prog.pure_eq_ret]
  refine lift (step_WS2 m KB KQ c 9 _ _ _ rfl) ?_
  refine lift (step_W2 m KB KQ c 10 _ _ _ rfl) ?_
  refine lift (step_WS1 m KB KQ c 10 _ _ _ rfl) ?_
  refine lift (step_WS2 m KB KQ c 10 _ _ _ rfl) ?_
  refine lift (step_W2 m KB KQ c 11 _ _ _ rfl) ?_
  exact (h _).trans (le_wp_ret _ _ _ _ _)

theorem part_47 (v5 v800 v824 : BitVec 32) :
    Runs m KB KQ c 32 32 32 12 11 11 32 32 32 13 13 13 (atOps (k0_part47 (F := F)) c v5 v800 v824) := fun R Q h => by
  unfold atOps; rw [k0_part47_eq_skeleton]; unfold k0_part47_skel
  simp only [Prog.lift, Prog.bind_op, Prog.bind_ret, Prog.pure_eq_ret]
  refine lift (step_WS1 m KB KQ c 11 _ _ _ rfl) ?_
  refine lift (step_WS2 m KB KQ c 11 _ _ _ rfl) ?_
  refine lift (step_W2 m KB KQ c 12 _ _ _ rfl) ?_
  refine lift (step_WS1 m KB KQ c 12 _ _ _ rfl) ?_
  refine lift (step_WS2 m KB KQ c 12 _ _ _ rfl) ?_
  exact (h _).trans (le_wp_ret _ _ _ _ _)

theorem part_48 (v5 v848 v1476 : BitVec 32) :
    Runs m KB KQ c 32 32 32 13 13 13 32 32 32 15 15 14 (atOps (k0_part48 (F := F)) c v5 v848 v1476) := fun R Q h => by
  unfold atOps; rw [k0_part48_eq_skeleton]; unfold k0_part48_skel
  simp only [Prog.lift, Prog.bind_op, Prog.bind_ret, Prog.pure_eq_ret]
  refine lift (step_W2 m KB KQ c 13 _ _ _ rfl) ?_
  refine lift (step_WS1 m KB KQ c 13 _ _ _ rfl) ?_
  refine lift (step_WS2 m KB KQ c 13 _ _ _ rfl) ?_
  refine lift (step_W2 m KB KQ c 14 _ _ _ rfl) ?_
  refine lift (step_WS1 m KB KQ c 14 _ _ _ rfl) ?_
  exact (h _).trans (le_wp_ret _ _ _ _ _)

theorem part_49 (v5 v872 v896 : BitVec 32) :
    Runs m KB KQ c 32 32 32 15 15 14 32 32 32 17 16 16 (atOps (k0_part49 (F := F)) c v5 v872 v896) := fun R Q h => by
  unfold atOps; rw [k0_part49_eq_skeleton]; unfold k0_part49_skel
  simp only [Prog.lift, Prog.bind_op, Prog.bind_ret, Prog.pure_eq_ret]
  refine lift (step_WS2 m KB KQ c 14 _ _ _ rfl) ?_
  refine lift (step_W2 m KB KQ c 15 _ _ _ rfl) ?_
  refine lift (step_WS1 m KB KQ c 15 _ _ _ rfl) ?_
  refine lift (step_WS2 m KB KQ c 15 _ _ _ rfl) ?_
  refine lift (step_W2 m KB KQ c 16 _ _ _ rfl) ?_
  exact (h _).trans (le_wp_ret _ _ _ _ _)

theorem part_50 (v5 v920 v944 : BitVec 32) :
    Runs m KB KQ c 32 32 32 17 16 16 32 32 32 18 18 18 (atOps (k0_part50 (F := F)) c v5 v920 v944) := fun R Q h => by
  unfold atOps; rw [k0_part50_eq_skeleton]; unfold k0_part50_skel
  simp only [Prog.lift, Prog.bind_op, Prog.bind_ret, Prog.pure_eq_ret]
  refine lift (step_WS1 m KB KQ c 16 _ _ _ rfl) ?_
  refine lift (step_WS2 m KB KQ c 16 _ _ _ rfl) ?_
  refine lift (step_W2 m KB KQ c 17 _ _ _ rfl) ?_
  refine lift (step_WS1 m KB KQ c 17 _ _ _ rfl) ?_
  refine lift (step_WS2 m KB KQ c 17 _ _ _ rfl) ?_
  exact (h _).trans (le_wp_ret _ _ _ _ _)

theorem part_51 (v5 v968 v1556 : BitVec 32) :
    Runs m KB KQ c 32 32 32 18 18 18 32 32 32 20 20 19 (atOps (k0_part51 (F := F)) c v5 v968 v1556) := fun R Q h => by
  unfold atOps; rw [k0_part51_eq_skeleton]; unfold k0_part51_skel
  simp only [Prog.lift, Prog.bind_op, Prog.bind_ret, Prog.pure_eq_ret]
  refine lift (step_W2 m KB KQ c 18 _ _ _ rfl) ?_
  refine lift (step_WS1 m KB KQ c 18 _ _ _ rfl) ?_
  refine lift (step_WS2 m KB KQ c 18 _ _ _ rfl) ?_
  refine lift (step_W2 m KB KQ c 19 _ _ _ rfl) ?_
  refine lift (step_WS1 m KB KQ c 19 _ _ _ rfl) ?_
  exact (h _).trans (le_wp_ret _ _ _ _ _)

theorem part_52 (v5 v992 v1016 : BitVec 32) :
    Runs m KB KQ c 32 32 32 20 20 19 32 32 32 22 21 21 (atOps (k0_part52 (F := F)) c v5 v992 v1016) := fun R Q h => by
  unfold atOps; rw [k0_part52_eq_skeleton]; unfold k0_part52_skel
  simp only [Prog.lift, Prog.bind_op, Prog.bind_ret, Prog.pure_eq_ret]
  refine lift (step_WS2 m KB KQ c 19 _ _ _ rfl) ?_
  refine lift (step_W2 m KB KQ c 20 _ _ _ rfl) ?_
  refine lift (step_WS1 m KB KQ c 20 _ _ _ rfl) ?_
  refine lift (step_WS2 m KB KQ c 20 _ _ _ rfl) ?_
  refine lift (step_W2 m KB KQ c 21 _ _ _ rfl) ?_
  exact (h _).trans (le_wp_ret _ _ _ _ _)

theorem part_53 (v5 v1040 v1064 : BitVec 32) :
    Runs m KB KQ c 32 32 32 22 21 21 32 32 32 23 23 23 (atOps (k0_part53 (F := F)) c v5 v1040 v1064) := fun R Q h => by
  unfold atOps; rw [k0_part53_eq_skeleton]; unfold k0_part53_skel
  simp only [Prog.lift, Prog.bind_op, Prog.bind_ret, Prog.pure_eq_ret]
  refine lift (step_WS1 m KB KQ c 21 _ _ _ rfl) ?_
  refine lift (step_WS2 m KB KQ c 21 _ _ _ rfl) ?_
  refine lift (step_W2 m KB KQ c 22 _ _ _ rfl) ?_
  refine lift (step_WS1 m KB KQ c 22 _ _ _ rfl) ?_
  refine lift (step_WS2 m KB KQ c 22 _ _ _ rfl) ?_
  exact (h _).trans (le_wp_ret _ _ _ _ _)

theorem part_54 (v5 v1088 v1636 : BitVec 32) :
    Runs m KB KQ c 32 32 32 23 23 23 32 32 32 25 25 24 (atOps (k0_part54 (F := F)) c v5 v1088 v1636) := fun R Q h => by
  unfold atOps; rw [k0_part54_eq_skeleton]; unfold k0_part54_skel
  simp only [Prog.lift, Prog.bind_op, Prog.bind_ret, Prog.pure_eq_ret]
  refine lift (step_W2 m KB KQ c 23 _ _ _ rfl) ?_
  refine lift (step_WS1 m KB KQ c 23 _ _ _ rfl) ?_
  refine lift (step_WS2 m KB KQ c 23 _ _ _ rfl) ?_
  refine lift (step_W2 m KB KQ c 24 _ _ _ rfl) ?_
  refine lift (step_WS1 m KB KQ c 24 _ _ _ rfl) ?_
  exact (h _).trans (le_wp_ret _ _ _ _ _)

theorem part_55 (v5 v1112 v1136 : BitVec 32) :
    Runs m KB KQ c 32 32 32 25 25 24 32 32 32 27 26 26 (atOps (k0_part55 (F := F)) c v5 v1112 v1136) := fun R Q h => by
  unfold atOps; rw [k0_part55_eq_skeleton]; unfold k0_part55_skel
  simp only [Prog.lift, Prog.bind_op, Prog.bind_ret, Prog.pure_eq_ret]
  refine lift (step_WS2 m KB KQ c 24 _ _ _ rfl) ?_
  refine lift (step_W2 m KB KQ c 25 _ _ _ rfl) ?_
  refine lift (step_WS1 m KB KQ c 25 _ _ _ rfl) ?_
  refine lift (step_WS2 m KB KQ c 25 _ _ _ rfl) ?_
  refine lift (step_W2 m KB KQ c 26 _ _ _ rfl) ?_
  exact (h _).trans (le_wp_ret _ _ _ _ _)

theorem part_56 (v5 v1160 v1184 : BitVec 32) :
    Runs m KB KQ c 32 32 32 27 26 26 32 32 32 28 28 28 (atOps (k0_part56 (F := F)) c v5 v1160 v1184) := fun R Q h => by
  unfold atOps; rw [k0_part56_eq_skeleton]; unfold k0_part56_skel
  simp only [Prog.lift, Prog.bind_op, Prog.bind_ret, Prog.pure_eq_ret]
  refine lift (step_WS1 m KB KQ c 26 _ _ _ rfl) ?_
  refine lift (step_WS2 m KB KQ c 26 _ _ _ rfl) ?_
  refine lift (step_W2 m KB KQ c 27 _ _ _ rfl) ?_
  refine lift (step_WS1 m KB KQ c 27 _ _ _ rfl) ?_
  refine lift (step_WS2 m KB KQ c 27 _ _ _ rfl) ?_
  exact (h _).trans (le_wp_ret _ _ _ _ _)

theorem part_57 (v5 v1208 v1716 : BitVec 32) :
    Runs m KB KQ c 32 32 32 28 28 28 32 32 32 30 30 29 (atOps (k0_part57 (F := F)) c v5 v1208 v1716) := fun R Q h => by
  unfold atOps; rw [k0_part57_eq_skeleton]; unfold k0_part57_skel
  simp only [Prog.lift, Prog.bind_op, Prog.bind_ret, Prog.pure_eq_ret]
  refine lift (step_W2 m KB KQ c 28 _ _ _ rfl) ?_
  refine lift (step_WS1 m KB KQ c 28 _ _ _ rfl) ?_
  refine lift (step_WS2 m KB KQ c 28 _ _ _ rfl) ?_
  refine lift (step_W2 m KB KQ c 29 _ _ _ rfl) ?_
  refine lift (step_WS1 m KB KQ c 29 _ _ _ rfl) ?_
  exact (h _).trans (le_wp_ret _ _ _ _ _)

theorem part_58 (v5 v1232 v1256 : BitVec 32) :
    Runs m KB KQ c 32 32 32 30 30 29 32 32 32 32 31 31 (atOps (k0_part58 (F := F)) c v5 v1232 v1256) := fun R Q h => by
  unfold atOps; rw [k0_part58_eq_skeleton]; unfold k0_part58_skel
  simp only [Prog.lift, Prog.bind_op, Prog.bind_ret, Prog.pure_eq_ret]
  refine lift (step_WS2 m KB KQ c 29 _ _ _ rfl) ?_
  refine lift (step_W2 m KB KQ c 30 _ _ _ rfl) ?_
  refine lift (step_WS1 m KB KQ c 30 _ _ _ rfl) ?_
  refine lift (step_WS2 m KB KQ c 30 _ _ _ rfl) ?_
  refine lift (step_W2 m KB KQ c 31 _ _ _ rfl) ?_
  exact (h _).trans (le_wp_ret _ _ _ _ _)

theorem part_59 (W : Waits sig Unit)
    (Q : Dev nD → sProp 𝕄)
    (h : Hd m KB KQ c 32 32 32 32 31 31 (side m c) ⊢ Q c) :
    bodyPre m KB KQ c W
      ⊢ wp frame (wpE (defs₀ (F := F)) 𝒱₀ (c : Thread nD τ) none) Set.univ
          (atOps (k0_part59 (F := F))) Q := by
  unfold atOps; rw [k0_part59_eq_skeleton]; unfold k0_part59_skel
  rw [wp_bind]
  refine part_1 m KB KQ c W _ (fun v2 v5 v23 => ?_)
  dsimp only
  exact (part_2 m KB KQ c v2 v5).seq fun ⟨v38, v53⟩ =>
    (part_3 m KB KQ c v2 v5).seq fun ⟨v68, v83, v94, c320_i32⟩ =>
    (part_4 m KB KQ c v2 v5 v94 c320_i32).seq fun ⟨v98, v113, v128⟩ =>
    (part_5 m KB KQ c v2 v5 v128).seq fun ⟨v143, v158, v160⟩ =>
    (part_6 m KB KQ c v2 v5 v158 v160).seq fun ⟨v173, v188⟩ =>
    (part_7 m KB KQ c v2 v5).seq fun ⟨v203, v218⟩ =>
    (part_8 m KB KQ c v2 v5).seq fun ⟨v233, v248, v260, v261⟩ =>
    (part_9 m KB KQ c v2 v5 v260 v261).seq fun ⟨v263, v278, v293, c2_i32_182⟩ =>
    (part_10 m KB KQ c v2 v5 v293 c2_i32_182).seq fun ⟨v308, v323⟩ =>
    (part_11 m KB KQ c v2 v5).seq fun ⟨v338, v353⟩ =>
    (part_12 m KB KQ c v2 v5).seq fun ⟨v368, v383, v394, c1600_i32⟩ =>
    (part_13 m KB KQ c v2 v5 v394 c1600_i32).seq fun ⟨v398, v413, v428⟩ =>
    (part_14 m KB KQ c v2 v5 v428).seq fun ⟨v443, v458, v460⟩ =>
    (part_15 m KB KQ c v2 v5 v458 v460).seq fun ⟨v473, v488⟩ =>
    (part_16 m KB KQ c v2 v5 v23 v38).seq fun v512 =>
    (part_17 m KB KQ c v2 v5 v53).seq fun ⟨v536, v558, c128_i32_352⟩ =>
    (part_18 m KB KQ c v2 v5 v68 v558 c128_i32_352).seq fun ⟨v560, v584⟩ =>
    (part_19 m KB KQ c v2 v5 v83 v98).seq fun v608 =>
    (part_20 m KB KQ c v2 v5 v113).seq fun ⟨v632, v654, c384_i32_428⟩ =>
    (part_21 m KB KQ c v2 v5 v128 v654 c384_i32_428).seq fun ⟨v656, v680⟩ =>
    (part_22 m KB KQ c v2 v5 v143 v158).seq fun v704 =>
    (part_23 m KB KQ c v2 v5 v173).seq fun ⟨v728, v750, c640_i32_504⟩ =>
    (part_24 m KB KQ c v2 v5 v188 v750 c640_i32_504).seq fun ⟨v752, v776⟩ =>
    (part_25 m KB KQ c v2 v5 v203 v218).seq fun v800 =>
    (part_26 m KB KQ c v2 v5 v233).seq fun ⟨v824, v846, c896_i32_580⟩ =>
    (part_27 m KB KQ c v2 v5 v248 v846 c896_i32_580).seq fun ⟨v848, v872⟩ =>
    (part_28 m KB KQ c v2 v5 v263 v278).seq fun v896 =>
    (part_29 m KB KQ c v2 v5 v293).seq fun ⟨v920, v942, c1152_i32_656⟩ =>
    (part_30 m KB KQ c v2 v5 v308 v942 c1152_i32_656).seq fun ⟨v944, v968⟩ =>
    (part_31 m KB KQ c v2 v5 v323 v338).seq fun v992 =>
    (part_32 m KB KQ c v2 v5 v353).seq fun ⟨v1016, v1038, c1408_i32_732⟩ =>
    (part_33 m KB KQ c v2 v5 v368 v1038 c1408_i32_732).seq fun ⟨v1040, v1064⟩ =>
    (part_34 m KB KQ c v2 v5 v383 v398).seq fun v1088 =>
    (part_35 m KB KQ c v2 v5 v413).seq fun ⟨v1112, v1134, c1664_i32_808⟩ =>
    (part_36 m KB KQ c v2 v5 v428 v1134 c1664_i32_808).seq fun ⟨v1136, v1160⟩ =>
    (part_37 m KB KQ c v2 v5 v443 v458).seq fun v1184 =>
    (part_38 m KB KQ c v2 v5 v473).seq fun ⟨v1208, v1230, c1920_i32_884⟩ =>
    (part_39 m KB KQ c v2 v5 v488 v1230 c1920_i32_884).seq fun ⟨v1232, v1256⟩ =>
    (part_40 m KB KQ c v5 v512 v536).seq fun _ =>
    (part_41 m KB KQ c v5 v560 v584).seq fun v1316 =>
    (part_42 m KB KQ c v5 v608 v1316).seq fun _ =>
    (part_43 m KB KQ c v5 v632 v656).seq fun _ =>
    (part_44 m KB KQ c v5 v680 v704).seq fun v1396 =>
    (part_45 m KB KQ c v5 v728 v1396).seq fun _ =>
    (part_46 m KB KQ c v5 v752 v776).seq fun _ =>
    (part_47 m KB KQ c v5 v800 v824).seq fun v1476 =>
    (part_48 m KB KQ c v5 v848 v1476).seq fun _ =>
    (part_49 m KB KQ c v5 v872 v896).seq fun _ =>
    (part_50 m KB KQ c v5 v920 v944).seq fun v1556 =>
    (part_51 m KB KQ c v5 v968 v1556).seq fun _ =>
    (part_52 m KB KQ c v5 v992 v1016).seq fun _ =>
    (part_53 m KB KQ c v5 v1040 v1064).seq fun v1636 =>
    (part_54 m KB KQ c v5 v1088 v1636).seq fun _ =>
    (part_55 m KB KQ c v5 v1112 v1136).seq fun _ =>
    (part_56 m KB KQ c v5 v1160 v1184).seq fun v1716 =>
    (part_57 m KB KQ c v5 v1208 v1716).seq fun _ =>
    (part_58 m KB KQ c v5 v1232 v1256).seq fun _ =>
    h.trans (le_wp_ret _ _ _ _ _)

theorem body_run (W : Waits sig Unit) (Q : PUnit → sProp 𝕄)
    (h : ∀ W' : Waits sig Unit, iprop(Φ₁ m c ∗ owes (c : Thread nD τ) (Owe c 32 32) W') ⊢ Q ⟨⟩) :
    bodyPre m KB KQ c W
      ⊢ wp frame (wpE (defs₀ (F := F)) 𝒱₀ (c : Thread nD τ) none) Set.univ
          (atOps (cc0_body (F := F))) Q := by
  unfold atOps; rw [cc0_body_eq_skeleton]; unfold cc0_body_skel
  rw [wp_bind]
  refine part_59 m KB KQ c W _ ?_
  dsimp only
  simp only [Prog.lift, Prog.bind_op, Prog.bind_ret, Prog.pure_eq_ret]
  refine lift (step_WS1 m KB KQ c 31 _ _ _ rfl) ?_
  refine lift (step_WS2 m KB KQ c 31 _ _ _ rfl) ?_
  unfold ChunksOwes side
  iintro ⟨#Hr, #Hl, ⟨%W', HO, Hch⟩, Hcl, Hpl, Hrest⟩
  iapply (step_locwait m KB KQ c _ rfl _ _ W') $$ [Hcl HO Hpl]
  · iframe # ∗
  iintro ⟨HO, Hpay, Hz⟩
  iapply (le_wp_ret _ _ _ _ _)
  iapply (h _)
  isplitr [HO]
  · iapply (glue_post m c)
    isplitl [Hch]; · iexact Hch
    isplitl [Hpay]; · iexact Hpay
    isplitl [Hz]; · iexact Hz
    iexact Hrest
  iexact HO

omit [FloatOps F] in
theorem bigSep_W (Φ : Fin cfg0.W → sProp 𝕄) : bigSep Finset.univ Φ = (iprop(emp) : sProp 𝕄) := by
  have h : (Finset.univ : Finset (Fin cfg0.W)) = ∅ := by decide
  rw [h]; rfl

theorem body_obligation : BodyObligation (dats (F := F) m 0 c) (defs₀ (F := F)) 𝒱₀ () Set.univ := fun t => by
  rw [fin_N t]
  rw [bigSep_W, bigSep_W]
  show iprop(Φ₀ m c ∗ (dats (F := F) m 0 c).owesAt () t₀.castSucc ∗ emp)
    ⊢ wp frame (wpE (defs₀ (F := F)) 𝒱₀ (c : Thread nD τ) none) Set.univ
        (atOps (cc0_body (F := F)))
        (fun _ => iprop(Φ₁ m c ∗ (dats (F := F) m 0 c).owesAt () t₀.succ ∗ emp))
  unfold Φ₀ start Dat.owesAt Pipeline.owesWithin
  rw [show (dats (F := F) m 0 c).owed t₀.castSucc = O₀ c from rfl, show (dats (F := F) m 0 c).owed t₀.succ = 0 from rfl]
  iintro ⟨⟨⟨⟨%KB, %KQ, Hg⟩, Hlc, #Hl⟩, Hx, Hout⟩, ⟨%W, -, HO⟩, -⟩
  ihave Hpre := (glue_pre m KB KQ c) $$ [Hg Hlc Hx Hout]
  · iframe # ∗
  icases Hpre with ⟨#Hr, Hbar, Hloc, Hy, Hxn, Hrest, Hch⟩
  iapply (body_run m KB KQ c W _ fun W' => by
    rw [Owe_done]
    iintro ⟨HΦ, HO⟩
    isplitl [HΦ]; · iexact HΦ
    isplitl [HO]
    · iexists W'
      isplitr; · ipureintro; exact fun _ _ => Or.inl trivial
      iexact HO
    iempintro)
  unfold bodyPre
  iframe # ∗

end Cert.Kernel.AG

end
-- ==== Proof.AGK.Launch.lean ====
import proofs.«900103_g7700000000000104_dist_ag_v7x_xy2x2_y_m4096_n1024_f32_1_alg».proof.Proof.AGK.Body
import proofs.«900103_g7700000000000104_dist_ag_v7x_xy2x2_y_m4096_n1024_f32_1_alg».proof.Proof.AGK.Dma

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

set_option maxRecDepth 16384 in
theorem ownSemFacts : Pipeline.OwnSemFacts cfg0.spec osem :=
  ⟨by decide, fun _ _ h => SemLoc.dma.inj h, fun _ w _ => w.elim0⟩

theorem share_eq (c : Dev nD) (w : Fin cfg0.W) : (dats m 0 c).share w = fullShare := w.elim0

abbrev cellAt : Dev nD ⊕ (Dev nD × Fin 129) → GSem nD τ sig := Sum.elim barCell fun dq => dmaCell dq.1 dq.2

theorem cellAt_injective : Function.Injective cellAt := by
  rintro (a | ⟨a, q⟩) (b | ⟨b, q'⟩) h
  · exact congrArg Sum.inl (Fin.ext (congrArg (fun g : GSem nD τ sig => g.1.1.val) h))
  · exact absurd (congrArg Prod.snd h) (fun h' => by cases h')
  · exact absurd (congrArg Prod.snd h) (fun h' => by cases h')
  · have h1 : a = b := Fin.ext (congrArg (fun g : GSem nD τ sig => g.1.1.val) h)
    have h2 : q = q' := SemLoc.dma.inj (congrArg Prod.snd h)
    rw [h1, h2]

def agCells : Finset (GSem nD τ sig) := Finset.univ.map ⟨cellAt, cellAt_injective⟩

abbrev tokAt : (Dev nD × Bool) ⊕ (Dev nD × Fin 129) → GSem nD τ sig × ℕ × Bool :=
  Sum.elim (fun db => (barCell db.1, 0, db.2)) fun dq => (dmaCell dq.1 dq.2, 0, false)

theorem tokAt_injective : Function.Injective tokAt := by
  rintro (⟨a, x⟩ | ⟨a, q⟩) (⟨b, y⟩ | ⟨b, q'⟩) h
  · have h1 : a = b := Fin.ext (congrArg (fun t : GSem nD τ sig × ℕ × Bool => t.1.1.1.val) h)
    have h2 : x = y := congrArg (fun t : GSem nD τ sig × ℕ × Bool => t.2.2) h
    rw [h1, h2]
  · exact absurd (congrArg (fun t : GSem nD τ sig × ℕ × Bool => t.1.2) h) (fun h' => by cases h')
  · exact absurd (congrArg (fun t : GSem nD τ sig × ℕ × Bool => t.1.2) h) (fun h' => by cases h')
  · have h1 : a = b := Fin.ext (congrArg (fun t : GSem nD τ sig × ℕ × Bool => t.1.1.1.val) h)
    have h2 : q = q' := SemLoc.dma.inj (congrArg (fun t : GSem nD τ sig × ℕ × Bool => t.1.2) h)
    rw [h1, h2]

def agToks : Finset (GSem nD τ sig × ℕ × Bool) := Finset.univ.map ⟨tokAt, tokAt_injective⟩

def u₀ : UU :=
  (initOf (Pipeline.cells cfgs cellOf_inj) (Pipeline.launchToks cfgs cellOf_inj), initOf agCells agToks)

def toks (c : Dev nD) : sProp 𝕄 :=
  iprop((dutyTok ER (barCell c) 0 false ∗ dutyTok ER (barCell c) 0 true) ∗ bigSep Finset.univ fun q : Fin 129 => dutyTok ER (dmaCell c q) 0 false)

def G (c : Dev nD) : sProp 𝕄 :=
  iprop((roundState ER (agRd m) (barCell c) 0 ∗ bigSep Finset.univ fun q : Fin 129 => roundState ER (agRd m) (dmaCell c q) 0)
    ∗ ((atPos ER (barCell c) 0 ∅ 0 ∗ bigSep Finset.univ fun q : Fin 129 => atPos ER (dmaCell c q) 0 ∅ 0)
      ∗ (reached ER (barCell c) 0 ∗ bigSep Finset.univ fun q : Fin 129 => reached ER (dmaCell c q) 0))
    ∗ toks c)

def G' (c : Dev nD) : sProp 𝕄 := iprop(∃ KB KQ, ghost m KB KQ c)

theorem bigSep_bool (Φ : Bool → sProp 𝕄) : bigSep Finset.univ Φ = iprop(Φ false ∗ Φ true) := by
  rw [show (Finset.univ : Finset Bool) = {false, true} from by decide, bigSep_insert (by decide), bigSep_singleton]; rfl

theorem bigSep_cells (Φ : GSem nD τ sig → sProp 𝕄) : bigSep agCells Φ
    = iprop((bigSep Finset.univ fun d : Dev nD => Φ (barCell d)) ∗ bigSep Finset.univ fun d : Dev nD => bigSep Finset.univ fun q : Fin 129 => Φ (dmaCell d q)) := by
  unfold agCells; rw [bigSep_map, bigSep_univ_sum, bigSep_univ_prod]; rfl

theorem bigSep_toks : bigSep agToks (fun x => (dutyTok ER x.1 x.2.1 x.2.2 : sProp 𝕄)) = bigSep Finset.univ fun c : Dev nD => toks c := by
  have e1 : bigSep agToks (fun x => (dutyTok ER x.1 x.2.1 x.2.2 : sProp 𝕄))
      = iprop((bigSep Finset.univ fun d : Dev nD => bigSep Finset.univ fun b : Bool => dutyTok ER (barCell d) 0 b)
          ∗ bigSep Finset.univ fun d : Dev nD => bigSep Finset.univ fun q : Fin 129 => dutyTok ER (dmaCell d q) 0 false) := by
    unfold agToks; rw [bigSep_map, bigSep_univ_sum, bigSep_univ_prod, bigSep_univ_prod]; rfl
  rw [e1, ← bigSep_sep']
  exact bigSep_congr fun d _ => by unfold toks; rw [bigSep_bool]

theorem fund_ag : BI.own (ER (initOf agCells agToks)) ⊢ (|==> bigSep Finset.univ (G m) : sProp 𝕄) := by
  iintro HX
  imod (Rounds.fund ER (agRd m) agCells agToks) $$ HX with ⟨Hst, Hr, Hat, Htok⟩
  imodintro
  ihave Hst' := (Entails.of_eq (bigSep_cells fun g => roundState ER (agRd m) g 0)) $$ Hst
  ihave Hat' := (Entails.of_eq (bigSep_cells fun g => atPos ER g 0 ∅ 0)) $$ Hat
  ihave Hr' := (Entails.of_eq (bigSep_cells fun g => reached ER g 0)) $$ Hr
  ihave Htok' := (Entails.of_eq bigSep_toks) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSep Finset.univ fun q : Fin 129 => semVal (dmaCell c q) 0 := rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop(((∃ κ : ℕ, cellInv ER (agRd m) κ (barCell c)) ∗ bigSep Finset.univ fun q : Fin 129 => iprop(∃ κ : ℕ, cellInv ER (agRd m) κ (dmaCell c q)))
          ∗ ((atPos ER (barCell c) 0 ∅ 0 ∗ bigSep Finset.univ fun q : Fin 129 => atPos ER (dmaCell c q) 0 ∅ 0)
            ∗ (reached ER (barCell c) 0 ∗ bigSep Finset.univ fun q : Fin 129 => reached ER (dmaCell c q) 0))
          ∗ toks c) := by
  rw [ownSems0_eq, unscopedSems0_eq]
  unfold G
  iintro ⟨Hos, Hus, ⟨HsB, HsQ⟩, Hat, Htok⟩
  imod ((Rounds.body_intro ER (agRd m) (barCell c)).trans inv_alloc) $$ [Hus HsB] with HiB
  · isplitl [Hus] <;> iassumption
  imod (show iprop((bigSep Finset.univ fun q : Fin 129 => semVal (dmaCell c q) 0) ∗ bigSep Finset.univ fun q : Fin 129 => roundState ER (agRd m) (dmaCell c q) 0)
      ⊢ (|={Set.univ}=> bigSep Finset.univ fun q : Fin 129 => iprop(∃ κ : ℕ, cellInv ER (agRd m) κ (dmaCell c q)) : sProp 𝕄) from by
        rw [← bigSep_sep']
        exact (bigSep_mono fun q _ => (Rounds.body_intro ER (agRd m) (dmaCell c q)).trans inv_alloc).trans (bigSep_fupd _ _)) $$ [Hos HsQ] with HiQ
  · isplitl [Hos] <;> iassumption
  imodintro
  isplitl [HiB HiQ]
  · isplitl [HiB] <;> iassumption
  iframe # ∗

abbrev yE : Dev nD ≃ Dev nD := ⟨yn, yn, yn_yn, yn_yn⟩
abbrev xE : Dev nD ≃ Dev nD := ⟨xn, xn, xn_xn, xn_xn⟩

theorem toks_around : (bigSep Finset.univ fun c : Dev nD => (toks c : sProp 𝕄)) ⊢ bigSep Finset.univ fun c : Dev nD => payToks c := by
  unfold toks payToks chunkToks
  simp only [bigSep_dma, bigSep_sep']
  rw [bigSep_univ_equiv yE (fun c : Dev nD => (dutyTok ER (barCell c) 0 false : sProp 𝕄)),
    bigSep_univ_equiv xE (fun c : Dev nD => (dutyTok ER (barCell c) 0 true : sProp 𝕄)),
    bigSep_univ_equiv yE (fun c : Dev nD => bigSep Finset.univ fun r : Fin 32 => (dutyTok ER (r1Cell c r) 0 false : sProp 𝕄)),
    bigSep_univ_equiv xE (fun c : Dev nD => bigSep Finset.univ fun r : Fin 32 => (dutyTok ER (r2Cell c r) 0 false : sProp 𝕄))]
  iintro ⟨⟨HBF, HBT⟩, HL, HS1, HR1, HS2, HR2⟩
  iframe # ∗

theorem ghost_intro (KB : Dev nD → ℕ) (KQ : Dev nD × Fin 129 → ℕ) (c : Dev nD) :
    iprop(records m KB KQ ∗ positions c ∗ payToks c) ⊢ G' m c := by
  unfold G' ghost
  iintro H
  iexists KB; iexists KQ
  iexact H

theorem regroup :
    (bigSep Finset.univ fun c : Dev nD => iprop(((∃ κ : ℕ, cellInv ER (agRd m) κ (barCell c)) ∗ bigSep Finset.univ fun q : Fin 129 => iprop(∃ κ : ℕ, cellInv ER (agRd m) κ (dmaCell c q)))
          ∗ ((atPos ER (barCell c) 0 ∅ 0 ∗ bigSep Finset.univ fun q : Fin 129 => atPos ER (dmaCell c q) 0 ∅ 0)
            ∗ (reached ER (barCell c) 0 ∗ bigSep Finset.univ fun q : Fin 129 => reached ER (dmaCell c q) 0))
          ∗ toks c) : sProp 𝕄)
      ⊢ bigSep Finset.univ (G' m) := by
  have hpos : (bigSep Finset.univ fun c : Dev nD => (positions c : sProp 𝕄))
      = iprop((bigSep Finset.univ fun c : Dev nD => atPos ER (barCell c) 0 ∅ 0)
          ∗ bigSep Finset.univ fun c : Dev nD => bigSep Finset.univ fun q : Fin 129 => atPos ER (dmaCell c q) 0 ∅ 0) := by
    unfold positions; rw [bigSep_sep']
  simp only [bigSep_sep']
  rw [← bigSep_univ_prod (fun dq : Dev nD × Fin 129 => iprop(∃ κ : ℕ, cellInv ER (agRd m) κ (dmaCell dq.1 dq.2))),
    ← bigSep_univ_prod (fun dq : Dev nD × Fin 129 => (reached ER (dmaCell dq.1 dq.2) 0 : sProp 𝕄))]
  iintro ⟨⟨HIB, HIQ⟩, ⟨⟨HaB, HaQ⟩, #HrB, #HrQ⟩, Htok⟩
  ihave HKB := (BI.bigSep_exists_pi Finset.univ (fun (d : Dev nD) (κ : ℕ) => (cellInv ER (agRd m) κ (barCell d) : sProp 𝕄))) $$ HIB
  icases HKB with ⟨%KB, #HIB⟩
  ihave HKQ := (BI.bigSep_exists_pi Finset.univ (fun (dq : Dev nD × Fin 129) (κ : ℕ) => (cellInv ER (agRd m) κ (dmaCell dq.1 dq.2) : sProp 𝕄))) $$ HIQ
  icases HKQ with ⟨%KQ, #HIQ⟩
  ihave Htk := (toks_around (F := F)) $$ Htok
  iapply (bigSep_with_persistent (R := records m KB KQ) fun c _ => ghost_intro m KB KQ c)
  isplitr
  · unfold records
    iframe # ∗
  · iapply (Entails.of_eq (bigSep_sep' Finset.univ (fun c : Dev nD => (positions c : sProp 𝕄)) payToks).symm)
    isplitl [HaB HaQ]
    · iapply (Entails.of_eq hpos.symm)
      isplitl [HaB] <;> iassumption
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem cred_owe1 (c : Dev nD) :
    (Pipeline.launchCred (fun d : Dev nD => owe1 d 0) c : sProp 𝕄) ⊢ bigSep Finset.univ fun r : Fin 32 => cred (tallyAt (r1Cell c r) () Nc) := by
  have e : (fun d : Dev nD => owe1 d 0) = fun d : Dev nD => ∑ r ∈ (Finset.univ : Finset (Fin 32)), (tallyAt (r1Cell (yn d) r) () Nc : CellTallies nD τ sig Unit) := by
    funext d; unfold owe1; rw [Finset.filter_true_of_mem fun r _ => Nat.zero_le _]
  rw [e, Pipeline.launchCred_sum Finset.univ (fun (r : Fin 32) (d : Dev nD) => (tallyAt (r1Cell (yn d) r) () Nc : CellTallies nD τ sig Unit)) c]
  exact bigSep_mono fun r _ => Pipeline.launchCred_tallyAt (.dma (r1Q r)) yn yn yn_yn yn_yn () Nc c

theorem cred_owe2 (c : Dev nD) :
    (Pipeline.launchCred (fun d : Dev nD => owe2 d 0) c : sProp 𝕄) ⊢ bigSep Finset.univ fun r : Fin 32 => cred (tallyAt (r2Cell c r) () Nc) := by
  have e : (fun d : Dev nD => owe2 d 0) = fun d : Dev nD => ∑ r ∈ (Finset.univ : Finset (Fin 32)), (tallyAt (r2Cell (xn d) r) () Nc : CellTallies nD τ sig Unit) := by
    funext d; unfold owe2; rw [Finset.filter_true_of_mem fun r _ => Nat.zero_le _]
  rw [e, Pipeline.launchCred_sum Finset.univ (fun (r : Fin 32) (d : Dev nD) => (tallyAt (r2Cell (xn d) r) () Nc : CellTallies nD τ sig Unit)) c]
  exact bigSep_mono fun r _ => Pipeline.launchCred_tallyAt (.dma (r2Q r)) xn xn xn_xn xn_xn () Nc c

theorem bar_two (c : Dev nD) :
    iprop(cred (tallyAt (barCell c) () 1) ∗ cred (tallyAt (barCell c) () 1)) ⊢ (cred (tallyAt (barCell c) () 2) : sProp 𝕄) := by
  rw [show (tallyAt (barCell c) () 2 : CellTallies nD τ sig Unit) = tallyAt (barCell c) () 1 + tallyAt (barCell c) () 1 from (tallyAt_add (barCell c) () 1 1).symm]
  exact (cred_add _ _).2

theorem creds (c : Dev nD) : (Pipeline.launchCred O₀ c : sProp 𝕄) ⊢ launchCreds c := by
  have e : (O₀ : Dev nD → CellTallies nD τ sig Unit)
      = fun d => ((owe1 d 0 + owe2 d 0) + tallyAt (barCell (xn d)) () 1) + tallyAt (barCell (yn d)) () 1 := rfl
  rw [e, Pipeline.launchCred_add (fun d : Dev nD => (owe1 d 0 + owe2 d 0) + tallyAt (barCell (xn d)) () 1) (fun d : Dev nD => tallyAt (barCell (yn d)) () 1) c,
    Pipeline.launchCred_add (fun d : Dev nD => owe1 d 0 + owe2 d 0) (fun d : Dev nD => tallyAt (barCell (xn d)) () 1) c,
    Pipeline.launchCred_add (fun d : Dev nD => owe1 d 0) (fun d : Dev nD => owe2 d 0) c]
  unfold launchCreds
  rw [bigSep_sep']
  iintro ⟨⟨⟨H1, H2⟩, HX⟩, HY⟩
  ihave H1' := (cred_owe1 (F := F) c) $$ H1
  ihave H2' := (cred_owe2 (F := F) c) $$ H2
  ihave HX' := (Pipeline.launchCred_tallyAt (.reg barS) xn xn xn_xn xn_xn () 1 c) $$ HX
  ihave HY' := (Pipeline.launchCred_tallyAt (.reg barS) yn yn yn_yn yn_yn () 1 c) $$ HY
  isplitl [HX' HY']
  · iapply (bar_two (F := F) c)
    isplitl [HX'] <;> iassumption
  isplitl [H1'] <;> iassumption

def X (c : Dev nD) : sProp 𝕄 :=
  iprop(start m c ∗ (((c : Thread nD τ).loc main_arg0) ↦{fullShare} xs m c) ∗ (((c : Thread nD τ).loc main_v1) ↦{fullShare} m ((c : Thread nD τ).loc main_v1)))
def Y (c : Dev nD) : sProp 𝕄 :=
  iprop((((c : Thread nD τ).loc main_arg0) ↦{fullShare} xs m c) ∗ (((c : Thread nD τ).loc main_v1) ↦{fullShare} gat m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨⟨Hx, Ho⟩, Hlev, Hcr, -, HG⟩
  ihave Hc := (creds (F := F) c) $$ Hcr
  imodintro
  unfold X start G'
  isplitl
  · isplitl [HG Hc Hlev]
    · iframe # ∗
    iframe # ∗
  · iempintro

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀ X
  iintro ⟨⟨Hs, Hx, Ho⟩, -, -⟩
  isplitl [Hs]; · iexact Hs
  isplitl [Hx]; · iexact Hx
  iexists _; iexact Ho

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq]
  unfold Φ₁ Y
  iintro ⟨Hx, Ho, Hz⟩
  isplitl [Hx Ho]
  · isplitl [Hx] <;> iassumption
  isplitl [Hz]; · iexact Hz
  iempintro

theorem waits (c : Dev nD) : (levAts L lv : sProp 𝕄) ⊢ Pipeline.cellsWaits cfgs (dats m) () 0 c :=
  Pipeline.cellsWaits_intro cfgs (dats m) () 0 c fun w => w.elim0

set_option maxRecDepth 100000 in
-- The four bodies, each from its share of the launch state, run to the end: every argument block unchanged, every result gathered.
theorem run_main :
    θ_run (defs (F := F)) (onTc (τ := τ) (main (F := F))) ⟨m, fun _ => 0, ρ⟩ (fun r => ∀ c : Dev nD,
      r.2.mem ((c : Thread nD τ).loc main_v1) = outFinal (fun d => m ((d : Thread nD τ).loc main_arg0)) c
      ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ag m) $$ HX with HG
      imodintro
      isplitl [HP] <;> iassumption)
    (hglob := glob m)
    (hA := fun _ w => w.elim0) (hpf := fun _ k => k.elim0)
    (X := X m) (Y := Y m) (Z := fun _ => iprop(emp))
    (hX := start_intro m ρ) (hin := phi0_intro m) (hout := phi1_exit m)
    (QY := fun c s => s.mem ((c : Thread nD τ).loc main_v1) = gat m c ∧ s.mem ((c : Thread nD τ).loc main_arg0) = xs m c)
    (hY := fun c s' => by
      unfold Y
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun _ h c => (h c).2.2)

end Cert.Kernel.AG

end
-- ==== Proof.lean ====
import proofs.«900103_g7700000000000104_dist_ag_v7x_xy2x2_y_m4096_n1024_f32_1_alg».proof.Defs
import proofs.«900103_g7700000000000104_dist_ag_v7x_xy2x2_y_m4096_n1024_f32_1_alg».proof.Proof.Gen.Kernel
import proofs.«900103_g7700000000000104_dist_ag_v7x_xy2x2_y_m4096_n1024_f32_1_alg».proof.Proof.Gen.KernelIdeal
import proofs.«900103_g7700000000000104_dist_ag_v7x_xy2x2_y_m4096_n1024_f32_1_alg».proof.Proof.Gen.ReferenceIdeal
import proofs.«900103_g7700000000000104_dist_ag_v7x_xy2x2_y_m4096_n1024_f32_1_alg».proof.Proof.Gen.Pre_finite_inputs_Kernel
import proofs.«900103_g7700000000000104_dist_ag_v7x_xy2x2_y_m4096_n1024_f32_1_alg».proof.Proof.Gen.Pre_finite_inputs_ReferenceIdeal
import proofs.«900103_g7700000000000104_dist_ag_v7x_xy2x2_y_m4096_n1024_f32_1_alg».proof.Proof.AG.Value
import proofs.«900103_g7700000000000104_dist_ag_v7x_xy2x2_y_m4096_n1024_f32_1_alg».proof.Proof.AG.Launch
import proofs.«900103_g7700000000000104_dist_ag_v7x_xy2x2_y_m4096_n1024_f32_1_alg».proof.Proof.AGK.Launch

noncomputable section

namespace Cert.Proof

open Idealize.ShloMosaic Idealize.ShloMosaic.TcCoe Idealize.SL.Sem

theorem claim_of_runs
    (hK : ∀ (m : (ℓ : Loc Cert.Kernel.nD Cert.Kernel.τ Cert.Kernel.sig) → Buf (Elt Bits) ℓ) (ρ : Dev Cert.Kernel.nD → PrngReg),
      θ_run (Cert.Kernel.defs (F := Bits)) (onTc (τ := Cert.Kernel.τ) (Cert.Kernel.main (F := Bits))) ⟨m, fun _ => 0, ρ⟩ (fun r => ∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)))
    (hKI : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v1)
            = Cert.KernelIdeal.AG.outFinal (fun d => m ((d.tc : Thread Cert.KernelIdeal.nD Cert.KernelIdeal.τ).loc Cert.KernelIdeal.main_arg0)) c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))) :
    Cert.Claim :=
  ⟨Cert.Kernel.Gen.facts, Cert.KernelIdeal.Gen.facts, Cert.ReferenceIdeal.Gen.facts, Cert.Pre_finite_inputs_Kernel.Gen.facts, Cert.Pre_finite_inputs_ReferenceIdeal.Gen.facts,
    fun m g _ => hK m g,
    fun m g _ => (θ_run _ _ _).mono (fun _ h c => (h c).2) (hKI m g),
    fun m' g' _ => Cert.KernelIdeal.AGValue.ref_run m' g',
    trivial,
    fun m g m' g' _ hblk =>
      ⟨m' (((0 : Dev Cert.ReferenceIdeal.nD).tc : Thread Cert.ReferenceIdeal.nD Cert.ReferenceIdeal.τ).loc Cert.ReferenceIdeal.main_arg0),
        (θ_run _ _ _).mono (fun _ h c => ⟨(h c).1.trans (Cert.KernelIdeal.AGValue.outFinal_eq_whole _ _ hblk c), (h c).2⟩) (hKI m g),
        (θ_run _ _ _).mono (fun _ h => ⟨h 0, h 0⟩) (Cert.KernelIdeal.AGValue.ref_run m' g')⟩⟩

theorem claim : Cert.Claim :=
  claim_of_runs
    (fun m ρ => (θ_run _ _ _).mono (fun _ h c => (h c).2) (Cert.Kernel.AG.run_main (F := Bits) m ρ))
    (fun m ρ => Cert.KernelIdeal.AG.run_main (F := Ideal) m ρ)

end Cert.Proof

end
